-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_0)) (v2 : (c : Dev Cert.KernelIdeal.nD) → Buf (Elt Ideal) ((c.tc : Thread Cert.KernelIdeal.nD Cert.KernelIdeal.τ).loc Cert.KernelIdeal.main_v44_0)) (v3 : (c : Dev Cert.KernelIdeal.nD) → Buf (Elt Ideal) ((c.tc : Thread Cert.KernelIdeal.nD Cert.KernelIdeal.τ).loc Cert.KernelIdeal.main_v45)) (v4 : (c : Dev Cert.KernelIdeal.nD) → Buf (Elt Ideal) ((c.tc : Thread Cert.KernelIdeal.nD Cert.KernelIdeal.τ).loc Cert.KernelIdeal.main_v46)) (v5 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_0) = v1 c
          ∧ r.2.mem ((c.tc : Thread Cert.KernelIdeal.nD Cert.KernelIdeal.τ).loc Cert.KernelIdeal.main_v44_0) = v2 c
          ∧ r.2.mem ((c.tc : Thread Cert.KernelIdeal.nD Cert.KernelIdeal.τ).loc Cert.KernelIdeal.main_v45) = v3 c
          ∧ r.2.mem ((c.tc : Thread Cert.KernelIdeal.nD Cert.KernelIdeal.τ).loc Cert.KernelIdeal.main_v46) = v4 c
          ∧ r.2.mem ((c.tc : Thread Cert.KernelIdeal.nD Cert.KernelIdeal.τ).loc Cert.KernelIdeal.main_v47) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_v67) = v3 c
          ∧ r.2.mem ((c.tc : Thread Cert.ReferenceIdeal.nD Cert.ReferenceIdeal.τ).loc Cert.ReferenceIdeal.main_v74) = v4 c
          ∧ r.2.mem ((c.tc : Thread Cert.ReferenceIdeal.nD Cert.ReferenceIdeal.τ).loc Cert.ReferenceIdeal.main_v81) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S50000 : S_.BroadcastsInDim S50000 (![] : Fin 0 → Fin S50000.rank)
  reducesTo_S50000_S_d0 : S50000.ReducesTo [0] S_

variable [Facts]

def fn_part2 {F : FTy → Type} [FloatOps F] (main_arg2 : IVec S50000 32) (main_v33 : IVec S_ 1) : IVec S_ 1 :=
  let main_c_12 : IVec S_ 32 := constantI S_ 32 0#32
  let main_v34 : IVec S50000 32 := broadcastInDim S50000 ![] bcast_S_S50000 main_c_12
  let main_v35 : IVec S50000 1 := cmpi .sge main_arg2 main_v34
  let main_c_13 : IVec S_ 32 := constantI S_ 32 64#32
  let main_v36 : IVec S50000 32 := broadcastInDim S50000 ![] bcast_S_S50000 main_c_13
  let main_v37 : IVec S50000 1 := cmpi .slt main_arg2 main_v36
  let main_v38 : IVec S50000 1 := andi main_v35 main_v37
  let main_c_14 : IVec S_ 1 := constantI S_ 1 1#1
  let main_v39 : IVec S_ 1 := (fun x v => Host.reduce IntOp.andi x v reducesTo_S50000_S_d0 h_S_) main_v38 main_c_14
  let main_v40 : IVec S_ 1 := andi main_v33 main_v39
  main_v40

def fn_part1 {F : FTy → Type} [FloatOps F] (main_arg2 : IVec S50000 32) (main_arg9 : FVec F S256 .f32) (main_arg10 : FVec F S256x64 .f32) (main_arg11 : FVec F S64 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg9
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x64 .f32 := Host.absf main_arg10
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg11
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg2 main_v33

def fn {F : FTy → Type} [FloatOps F] (main_arg0 : FVec F S50000x128 .f32) (main_arg1 : IVec S2x800000 32) (main_arg2 : IVec S50000 32) (main_arg3 : IVec S50000 32) (main_arg4 : IVec S50000 32) (main_arg5 : IVec S50000 32) (main_arg6 : FVec F S128x128 .f32) (main_arg7 : FVec F S128 .f32) (main_arg8 : FVec F S128x256 .f32) (main_arg9 : FVec F S256 .f32) (main_arg10 : FVec F S256x64 .f32) (main_arg11 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg6
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg7
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x256 .f32 := Host.absf main_arg8
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg2 main_arg9 main_arg10 main_arg11 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x128 : Shape := ⟨2, ![5000, 128]⟩
abbrev S5000x1 : Shape := ⟨2, ![5000, 1]⟩
abbrev S850000x128 : Shape := ⟨2, ![850000, 128]⟩
abbrev S1x128 : Shape := ⟨2, ![1, 128]⟩
abbrev S1x256 : Shape := ⟨2, ![1, 256]⟩
abbrev S1x64 : Shape := ⟨2, ![1, 64]⟩
abbrev S50000x64 : Shape := ⟨2, ![50000, 64]⟩
abbrev S1x1 : Shape := ⟨2, ![1, 1]⟩
abbrev S2000x128 : Shape := ⟨2, ![2000, 128]⟩
abbrev S2000x1 : Shape := ⟨2, ![2000, 1]⟩
abbrev S2000x64 : Shape := ⟨2, ![2000, 64]⟩
abbrev S2000x256 : Shape := ⟨2, ![2000, 256]⟩
abbrev S2000 : Shape := ⟨1, ![2000]⟩
abbrev S1x2000x1 : Shape := ⟨3, ![1, 2000, 1]⟩
abbrev S1 : Shape := ⟨1, ![1]⟩
abbrev S1x1x1 : Shape := ⟨3, ![1, 1, 1]⟩

abbrev nBuf : Space → Nat
  | .hbm => 75
  | .vmem => 35
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S50000, .i32⟩
  | .hbm, ⟨4, _⟩ => ⟨S50000, .i32⟩
  | .hbm, ⟨5, _⟩ => ⟨S50000, .i32⟩
  | .hbm, ⟨6, _⟩ => ⟨S128x128, .f32⟩
  | .hbm, ⟨7, _⟩ => ⟨S128, .f32⟩
  | .hbm, ⟨8, _⟩ => ⟨S128x256, .f32⟩
  | .hbm, ⟨9, _⟩ => ⟨S256, .f32⟩
  | .hbm, ⟨10, _⟩ => ⟨S256x64, .f32⟩
  | .hbm, ⟨11, _⟩ => ⟨S64, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S50000, .i32⟩
  | .hbm, ⟨17, _⟩ => ⟨S850000, .i32⟩
  | .hbm, ⟨18, _⟩ => ⟨S850000, .i32⟩
  | .hbm, ⟨19, _⟩ => ⟨S_, .f32⟩
  | .hbm, ⟨20, _⟩ => ⟨S850000, .f32⟩
  | .hbm, ⟨21, _⟩ => ⟨S_, .f32⟩
  | .hbm, ⟨22, _⟩ => ⟨S50000, .f32⟩
  | .hbm, ⟨23, _⟩ => ⟨S850000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .i1⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .bf16⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000x128, .bf16⟩
  | .hbm, ⟨44, _⟩ => ⟨S850000x128, .f32⟩
  | .hbm, ⟨45, _⟩ => ⟨S_, .f32⟩
  | .hbm, ⟨46, _⟩ => ⟨S50000x128, .f32⟩
  | .hbm, ⟨47, _⟩ => ⟨S850000x1, .i32⟩
  | .hbm, ⟨48, _⟩ => ⟨S50000x128, .f32⟩
  | .hbm, ⟨49, _⟩ => ⟨S50000x1, .i32⟩
  | .hbm, ⟨50, _⟩ => ⟨S_, .i32⟩
  | .hbm, ⟨51, _⟩ => ⟨S50000, .i32⟩
  | .hbm, ⟨52, _⟩ => ⟨S50000, .i1⟩
  | .hbm, ⟨53, _⟩ => ⟨S50000, .f32⟩
  | .hbm, ⟨54, _⟩ => ⟨S50000x1, .f32⟩
  | .hbm, ⟨55, _⟩ => ⟨S_, .i32⟩
  | .hbm, ⟨56, _⟩ => ⟨S50000, .i32⟩
  | .hbm, ⟨57, _⟩ => ⟨S50000, .i1⟩
  | .hbm, ⟨58, _⟩ => ⟨S50000, .f32⟩
  | .hbm, ⟨59, _⟩ => ⟨S50000x1, .f32⟩
  | .hbm, ⟨60, _⟩ => ⟨S_, .i32⟩
  | .hbm, ⟨61, _⟩ => ⟨S50000, .i32⟩
  | .hbm, ⟨62, _⟩ => ⟨S50000, .i1⟩
  | .hbm, ⟨63, _⟩ => ⟨S50000, .f32⟩
  | .hbm, ⟨64, _⟩ => ⟨S50000x1, .f32⟩
  | .hbm, ⟨65, _⟩ => ⟨S1x128, .f32⟩
  | .hbm, ⟨66, _⟩ => ⟨S1x256, .f32⟩
  | .hbm, ⟨67, _⟩ => ⟨S1x64, .f32⟩
  | .hbm, ⟨68, _⟩ => ⟨S50000x64, .f32⟩
  | .hbm, ⟨69, _⟩ => ⟨S1x1, .f32⟩
  | .hbm, ⟨70, _⟩ => ⟨S1x1, .f32⟩
  | .hbm, ⟨71, _⟩ => ⟨S1x1, .f32⟩
  | .hbm, ⟨72, _⟩ => ⟨S_, .f32⟩
  | .hbm, ⟨73, _⟩ => ⟨S_, .f32⟩
  | .hbm, ⟨74, _⟩ => ⟨S_, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x1, .i32⟩
  | .local _ .vmem, ⟨13, _⟩ => ⟨S2000x1, .i32⟩
  | .local _ .vmem, ⟨14, _⟩ => ⟨S2000x1, .f32⟩
  | .local _ .vmem, ⟨15, _⟩ => ⟨S2000x1, .f32⟩
  | .local _ .vmem, ⟨16, _⟩ => ⟨S2000x1, .f32⟩
  | .local _ .vmem, ⟨17, _⟩ => ⟨S2000x1, .f32⟩
  | .local _ .vmem, ⟨18, _⟩ => ⟨S2000x1, .f32⟩
  | .local _ .vmem, ⟨19, _⟩ => ⟨S2000x1, .f32⟩
  | .local _ .vmem, ⟨20, _⟩ => ⟨S128x256, .f32⟩
  | .local _ .vmem, ⟨21, _⟩ => ⟨S1x256, .f32⟩
  | .local _ .vmem, ⟨22, _⟩ => ⟨S256x64, .f32⟩
  | .local _ .vmem, ⟨23, _⟩ => ⟨S1x64, .f32⟩
  | .local _ .vmem, ⟨24, _⟩ => ⟨S2000x64, .f32⟩
  | .local _ .vmem, ⟨25, _⟩ => ⟨S2000x64, .f32⟩
  | .local _ .vmem, ⟨26, _⟩ => ⟨S1x1, .f32⟩
  | .local _ .vmem, ⟨27, _⟩ => ⟨S1x1, .f32⟩
  | .local _ .vmem, ⟨28, _⟩ => ⟨S1x1, .f32⟩
  | .local _ .vmem, ⟨29, _⟩ => ⟨S1x1, .f32⟩
  | .local _ .vmem, ⟨30, _⟩ => ⟨S1x1, .f32⟩
  | .local _ .vmem, ⟨31, _⟩ => ⟨S1x1, .f32⟩
  | .local _ .vmem, ⟨32, _⟩ => ⟨S1x1, .f32⟩
  | .local _ .vmem, ⟨33, _⟩ => ⟨S1x1, .f32⟩
  | .local _ .vmem, ⟨34, _⟩ => ⟨S1x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44_0 : Ref sig .tc := ⟨.hbm, 68, rfl⟩
abbrev main_v44_1 : Ref sig .tc := ⟨.hbm, 69, rfl⟩
abbrev main_v44_2 : Ref sig .tc := ⟨.hbm, 70, rfl⟩
abbrev main_v44_3 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc1_stg11_1 : Ref sig .tc := ⟨.vmem, 25, rfl⟩
abbrev cc1_stg12_0 : Ref sig .tc := ⟨.vmem, 26, rfl⟩
abbrev cc1_stg13_0 : Ref sig .tc := ⟨.vmem, 27, rfl⟩
abbrev cc1_stg14_0 : Ref sig .tc := ⟨.vmem, 28, rfl⟩
abbrev cc1_scratch0 : Ref sig .tc := ⟨.vmem, 29, rfl⟩
abbrev cc1_scratch1 : Ref sig .tc := ⟨.vmem, 30, rfl⟩
abbrev cc1_scratch2 : Ref sig .tc := ⟨.vmem, 31, rfl⟩
abbrev cc1_scratch3 : Ref sig .tc := ⟨.vmem, 32, rfl⟩
abbrev cc1_scratch4 : Ref sig .tc := ⟨.vmem, 33, rfl⟩
abbrev cc1_scratch5 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem8_0 : DmaSem sig := 21
abbrev cc1_sem9_0 : DmaSem sig := 22
abbrev cc1_sem10_0 : DmaSem sig := 23
abbrev cc1_sem11_0 : DmaSem sig := 24
abbrev cc1_sem11_1 : DmaSem sig := 25
abbrev cc1_sem12_0 : DmaSem sig := 26
abbrev cc1_sem13_0 : DmaSem sig := 27
abbrev cc1_sem14_0 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def k1_cond2 (i : grid1.Coords) : BitVec 1 :=
  let arg0 : BitVec 32 := BitVec.ofNat 32 (i 0).val
  let c24_i32 : BitVec 32 := 24#32
  let v120 : BitVec 1 := Scalar.cmpi .eq arg0 c24_i32
  let v121 : BitVec 32 := Scalar.extui v120
  let c0_i32_61 : BitVec 32 := 0#32
  let v122 : BitVec 1 := Scalar.cmpi .ne v121 c0_i32_61
  v122

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S128x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S2000x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 1 → Memref sig .tc .vmem S1x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x1 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x1 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  packedbf16_S5000x128_S5000x128_0_0 : (Rect.unit (s := S5000x128) ![0, 0] S5000x128.size inb_S5000x128_S5000x128_0_0).PackedRows (EltTy.packing .bf16)
  bcast_S_S50000x128 : S_.BroadcastsInDim S50000x128 (![] : Fin 0 → Fin S50000x128.rank)
  shapeCasts_S128_S1x128 : S128.ShapeCasts S1x128
  shapeCasts_S256_S1x256 : S256.ShapeCasts S1x256
  shapeCasts_S64_S1x64 : S64.ShapeCasts S1x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  reduces_S2000x64_S2000 : S2000x64.Reduces [1] S2000
  shapeCasts_S2000_S2000x1 : S2000.ShapeCasts S2000x1
  broadcasts_S2000x1_S2000x64 : S2000x1.Broadcasts S2000x64
  iota_S2000x64_d1_w32 : S2000x64.Iotas .tc 32 [1]
  shapeCasts_S2000x1_S1x2000x1 : S2000x1.ShapeCasts S1x2000x1
  reduces_S1x2000x1_S1 : S1x2000x1.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x256_S2000x256_1_0_0_1_n_n_wf : DotDims.WF S2000x128 S128x256 S2000x256 [1] [0] [0] [1] [] []
  dot_S2000x256_S256x64_S2000x64_1_0_0_1_n_n_wf : DotDims.WF S2000x256 S256x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .bf16 = 32 ∨ (Rect.block (s := S50000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .i32 = 32 ∨ (Rect.block (s := S50000x1) S2000x1.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S50000x1.size a
  hwx1_4 : ∀ i : grid1.Coords, EltTy.bits .f32 = 32 ∨ (Rect.block (s := S50000x1) S2000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x1.size a ≤ S50000x1.size a
  hwx1_5 : ∀ i : grid1.Coords, EltTy.bits .f32 = 32 ∨ (Rect.block (s := S50000x1) S2000x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x1.size a ≤ S50000x1.size a
  hwx1_6 : ∀ i : grid1.Coords, EltTy.bits .f32 = 32 ∨ (Rect.block (s := S50000x1) S2000x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x256.size a ≤ S128x256.size a
  hwx1_7 : ∀ i : grid1.Coords, EltTy.bits .f32 = 32 ∨ (Rect.block (s := S128x256) S128x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S256x64.size a ≤ S256x64.size a
  hwx1_9 : ∀ i : grid1.Coords, EltTy.bits .f32 = 32 ∨ (Rect.block (s := S256x64) S256x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x64.size a ≤ S1x64.size a
  hwx1_10 : ∀ i : grid1.Coords, EltTy.bits .f32 = 32 ∨ (Rect.block (s := S1x64) S1x64.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x64.size a ≤ S50000x64.size a
  hwx1_11 : ∀ i : grid1.Coords, EltTy.bits .f32 = 32 ∨ (Rect.block (s := S50000x64) S2000x64.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x1.size a ≤ S1x1.size a
  hwx1_12 : ∀ i : grid1.Coords, EltTy.bits .f32 = 32 ∨ (Rect.block (s := S1x1) S1x1.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x1.size a ≤ S1x1.size a
  hwx1_13 : ∀ i : grid1.Coords, EltTy.bits .f32 = 32 ∨ (Rect.block (s := S1x1) S1x1.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x1.size a ≤ S1x1.size a
  hwx1_14 : ∀ i : grid1.Coords, EltTy.bits .f32 = 32 ∨ (Rect.block (s := S1x1) S1x1.size (cc1_transform_14 i) (hinb1_14 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v32) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v36) S2000x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v40) S2000x1.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S128x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v42) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg10) S256x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v43) S1x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v44_0) S2000x64.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v44_1) S1x1.size cc1_transform_12 reads1_12 true true 1 stage1_12 sem1_12
    hrank1 hreads1_12 hinb1_12 nbuf1_12 (Memref.isWhole_whole _) hwx1_12 hstage1_12

abbrev win1_13 : Pipeline.Window sig grid1 :=
  Pipeline.Window.ofSpec (Memref.whole main_v44_2) S1x1.size cc1_transform_13 reads1_13 true true 1 stage1_13 sem1_13
    hrank1 hreads1_13 hinb1_13 nbuf1_13 (Memref.isWhole_whole _) hwx1_13 hstage1_13

abbrev win1_14 : Pipeline.Window sig grid1 :=
  Pipeline.Window.ofSpec (Memref.whole main_v44_3) S1x1.size cc1_transform_14 reads1_14 true true 1 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

abbrev idle1 : Fin 15 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k1_cond2 i == 1#1) | 13 => fun i => !(k1_cond2 i == 1#1) | 14 => fun i => !(k1_cond2 i == 1#1) | ⟨_ + 15, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x256 : Shape := ⟨2, ![50000, 256]⟩
abbrev S1x256 : Shape := ⟨2, ![1, 256]⟩
abbrev S50000x64 : Shape := ⟨2, ![50000, 64]⟩
abbrev S1x64 : Shape := ⟨2, ![1, 64]⟩
abbrev S50000x1 : Shape := ⟨2, ![50000, 1]⟩
abbrev S50000x1x1 : Shape := ⟨3, ![50000, 1, 1]⟩
abbrev S1 : Shape := ⟨1, ![1]⟩
abbrev S1x1x1 : Shape := ⟨3, ![1, 1, 1]⟩

abbrev nBuf : Space → Nat
  | .hbm => 153
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S50000, .i32⟩
  | 4 => ⟨S50000, .i32⟩
  | 5 => ⟨S50000, .i32⟩
  | 6 => ⟨S128x128, .f32⟩
  | 7 => ⟨S128, .f32⟩
  | 8 => ⟨S128x256, .f32⟩
  | 9 => ⟨S256, .f32⟩
  | 10 => ⟨S256x64, .f32⟩
  | 11 => ⟨S64, .f32⟩
  | 12 => ⟨S1x800000, .i32⟩
  | 13 => ⟨S800000, .i32⟩
  | 14 => ⟨S1x800000, .i32⟩
  | 15 => ⟨S800000, .i32⟩
  | 16 => ⟨S50000, .i32⟩
  | 17 => ⟨S850000, .i32⟩
  | 18 => ⟨S850000, .i32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S50000x128, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x128, .f32⟩
  | 62 => ⟨S850000x1, .f32⟩
  | 63 => ⟨S850000x128, .f32⟩
  | 64 => ⟨S850000x128, .f32⟩
  | 65 => ⟨S_, .f32⟩
  | 66 => ⟨S50000x128, .f32⟩
  | 67 => ⟨S850000x1, .i32⟩
  | 68 => ⟨S50000x128, .f32⟩
  | 69 => ⟨S1x128, .f32⟩
  | 70 => ⟨S50000x128, .f32⟩
  | 71 => ⟨S50000x128, .f32⟩
  | 72 => ⟨S50000x256, .f32⟩
  | 73 => ⟨S1x256, .f32⟩
  | 74 => ⟨S50000x256, .f32⟩
  | 75 => ⟨S50000x256, .f32⟩
  | 76 => ⟨S_, .f32⟩
  | 77 => ⟨S50000x256, .f32⟩
  | 78 => ⟨S50000x256, .f32⟩
  | 79 => ⟨S50000x64, .f32⟩
  | 80 => ⟨S1x64, .f32⟩
  | 81 => ⟨S50000x64, .f32⟩
  | 82 => ⟨S50000x64, .f32⟩
  | 83 => ⟨S_, .f32⟩
  | 84 => ⟨S50000, .f32⟩
  | 85 => ⟨S_, .f32⟩
  | 86 => ⟨S50000, .f32⟩
  | 87 => ⟨S50000, .f32⟩
  | 88 => ⟨S50000x1, .f32⟩
  | 89 => ⟨S50000x64, .f32⟩
  | 90 => ⟨S50000x64, .f32⟩
  | 91 => ⟨S50000x64, .f32⟩
  | 92 => ⟨S_, .f32⟩
  | 93 => ⟨S50000, .f32⟩
  | 94 => ⟨S50000x1, .f32⟩
  | 95 => ⟨S50000x1, .f32⟩
  | 96 => ⟨S50000x64, .f32⟩
  | 97 => ⟨S50000x64, .f32⟩
  | 98 => ⟨S50000x1, .i32⟩
  | 99 => ⟨S_, .i32⟩
  | 100 => ⟨S50000x1, .i32⟩
  | 101 => ⟨S50000x1, .i1⟩
  | 102 => ⟨S_, .i32⟩
  | 103 => ⟨S50000x1, .i32⟩
  | 104 => ⟨S50000x1, .i32⟩
  | 105 => ⟨S50000x1, .i32⟩
  | 106 => ⟨S50000x1x1, .i32⟩
  | 107 => ⟨S1, .i32⟩
  | 108 => ⟨S_, .i32⟩
  | 109 => ⟨S50000x1x1, .i32⟩
  | 110 => ⟨S50000x1x1, .i1⟩
  | 111 => ⟨S1x1x1, .i32⟩
  | 112 => ⟨S50000x1x1, .i32⟩
  | 113 => ⟨S50000x1x1, .i1⟩
  | 114 => ⟨S50000x1x1, .i1⟩
  | 115 => ⟨S_, .i1⟩
  | 116 => ⟨S50000x1, .i1⟩
  | 117 => ⟨S50000x1, .f32⟩
  | 118 => ⟨S_, .f32⟩
  | 119 => ⟨S50000x1, .f32⟩
  | 120 => ⟨S50000x1, .f32⟩
  | 121 => ⟨S50000, .f32⟩
  | 122 => ⟨S50000, .f32⟩
  | 123 => ⟨S_, .i32⟩
  | 124 => ⟨S50000, .i32⟩
  | 125 => ⟨S50000, .i1⟩
  | 126 => ⟨S50000, .f32⟩
  | 127 => ⟨S50000, .f32⟩
  | _ => ⟨S50000x128, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .i32⟩
  | 6 => ⟨S50000, .i32⟩
  | 7 => ⟨S50000, .i1⟩
  | 8 => ⟨S50000, .f32⟩
  | 9 => ⟨S50000, .f32⟩
  | 10 => ⟨S_, .f32⟩
  | 11 => ⟨S_, .f32⟩
  | 12 => ⟨S_, .f32⟩
  | 13 => ⟨S_, .f32⟩
  | 14 => ⟨S_, .f32⟩
  | 15 => ⟨S_, .i32⟩
  | 16 => ⟨S50000, .i32⟩
  | 17 => ⟨S50000, .i1⟩
  | 18 => ⟨S50000, .f32⟩
  | 19 => ⟨S50000, .f32⟩
  | 20 => ⟨S_, .f32⟩
  | 21 => ⟨S_, .f32⟩
  | 22 => ⟨S_, .f32⟩
  | 23 => ⟨S_, .f32⟩
  | 24 => ⟨S_, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_call1_cst : Ref sig .tc := ⟨.hbm, 76, rfl⟩
abbrev main_call1_v0 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_call2_cst : Ref sig .tc := ⟨.hbm, 83, rfl⟩
abbrev main_call2_v0 : Ref sig .tc := ⟨.hbm, 84, rfl⟩
abbrev main_call2_cst_0 : Ref sig .tc := ⟨.hbm, 85, rfl⟩
abbrev main_call2_v1 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_v5 : Ref sig .tc := ⟨.hbm, 90, rfl⟩
abbrev main_call2_v6 : Ref sig .tc := ⟨.hbm, 91, rfl⟩
abbrev main_call2_cst_1 : Ref sig .tc := ⟨.hbm, 92, rfl⟩
abbrev main_call2_v7 : Ref sig .tc := ⟨.hbm, 93, rfl⟩
abbrev main_call2_v8 : Ref sig .tc := ⟨.hbm, 94, rfl⟩
abbrev main_call2_v9 : Ref sig .tc := ⟨.hbm, 95, rfl⟩
abbrev main_call2_v10 : Ref sig .tc := ⟨.hbm, 96, rfl⟩
abbrev main_v56 : Ref sig .tc := ⟨.hbm, 97, rfl⟩
abbrev main_v57 : Ref sig .tc := ⟨.hbm, 98, rfl⟩
abbrev main_call3_c : Ref sig .tc := ⟨.hbm, 99, rfl⟩
abbrev main_call3_v0 : Ref sig .tc := ⟨.hbm, 100, rfl⟩
abbrev main_call3_v1 : Ref sig .tc := ⟨.hbm, 101, rfl⟩
abbrev main_call3_c_0 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_v5 : Ref sig .tc := ⟨.hbm, 106, rfl⟩
abbrev main_call3_c_1 : Ref sig .tc := ⟨.hbm, 107, rfl⟩
abbrev main_call3_c_2 : Ref sig .tc := ⟨.hbm, 108, rfl⟩
abbrev main_call3_v6 : Ref sig .tc := ⟨.hbm, 109, rfl⟩
abbrev main_call3_v7 : Ref sig .tc := ⟨.hbm, 110, rfl⟩
abbrev main_call3_v8 : Ref sig .tc := ⟨.hbm, 111, rfl⟩
abbrev main_call3_v9 : Ref sig .tc := ⟨.hbm, 112, rfl⟩
abbrev main_call3_v10 : Ref sig .tc := ⟨.hbm, 113, rfl⟩
abbrev main_call3_v11 : Ref sig .tc := ⟨.hbm, 114, rfl⟩
abbrev main_call3_c_3 : Ref sig .tc := ⟨.hbm, 115, rfl⟩
abbrev main_call3_v12 : Ref sig .tc := ⟨.hbm, 116, rfl⟩
abbrev main_call3_v13 : Ref sig .tc := ⟨.hbm, 117, rfl⟩
abbrev main_call3_cst : Ref sig .tc := ⟨.hbm, 118, rfl⟩
abbrev main_call3_v14 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_c_9 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_cst_10 : Ref sig .tc := ⟨.hbm, 128, rfl⟩
abbrev main_v65 : Ref sig .tc := ⟨.hbm, 129, rfl⟩
abbrev main_cst_11 : Ref sig .tc := ⟨.hbm, 130, rfl⟩
abbrev main_v66 : Ref sig .tc := ⟨.hbm, 131, rfl⟩
abbrev main_v67 : Ref sig .tc := ⟨.hbm, 132, rfl⟩
abbrev main_c_12 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_cst_13 : Ref sig .tc := ⟨.hbm, 138, rfl⟩
abbrev main_v72 : Ref sig .tc := ⟨.hbm, 139, rfl⟩
abbrev main_cst_14 : Ref sig .tc := ⟨.hbm, 140, rfl⟩
abbrev main_v73 : Ref sig .tc := ⟨.hbm, 141, rfl⟩
abbrev main_v74 : Ref sig .tc := ⟨.hbm, 142, rfl⟩
abbrev main_c_15 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_cst_16 : Ref sig .tc := ⟨.hbm, 148, rfl⟩
abbrev main_v79 : Ref sig .tc := ⟨.hbm, 149, rfl⟩
abbrev main_cst_17 : Ref sig .tc := ⟨.hbm, 150, rfl⟩
abbrev main_v80 : Ref sig .tc := ⟨.hbm, 151, rfl⟩
abbrev main_v81 : Ref sig .tc := ⟨.hbm, 152, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x1 : S_.BroadcastsInDim S50000x1 (![] : Fin 0 → Fin S50000x1.rank)
  shapeCasts_S50000x1_S50000x1x1 : S50000x1.ShapeCasts S50000x1x1
  bcast_S_S50000x1x1 : S_.BroadcastsInDim S50000x1x1 (![] : Fin 0 → Fin S50000x1x1.rank)
  bcast_S1_S1x1x1_2 : S1.BroadcastsInDim S1x1x1 (![2] : Fin 1 → Fin S1x1x1.rank)
  bcast_S1x1x1_S50000x1x1_0_1_2 : S1x1x1.BroadcastsInDim S50000x1x1 (![0, 1, 2] : Fin 3 → Fin S50000x1x1.rank)
  reducesTo_S50000x1x1_S50000x1_d2 : S50000x1x1.ReducesTo [2] S50000x1
  shapeCasts_S50000x1_S50000 : S50000x1.ShapeCasts S50000
  reducesTo_S50000_S_d0 : S50000.ReducesTo [0] S_
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x256_S50000x256_1_0_0_1_n_n_wf : DotDims.WF S50000x128 S128x256 S50000x256 [1] [0] [0] [1] [] []
  dot_S50000x256_S256x64_S50000x64_1_0_0_1_n_n_wf : DotDims.WF S50000x256 S256x64 S50000x64 [1] [0] [0] [1] [] []
  gather_S50000x64_S50000x1x1_S50000x1_n_1_0_0_1_2_11_wf : GatherDims.WF S50000x64 S50000x1x1 S50000x1 [] [1] [0] [1] [0] 2 ![1, 1]

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S50000x1x1_S50000x1_n_1_0_0_1_2_11 : GatherDims S50000x64 S50000x1x1 S50000x1 where
  offsetDims := []
  collapsedSliceDims := [1]
  operandBatchingDims := [0]
  startIndicesBatchingDims := [0]
  startIndexMap := [1]
  indexVectorDim := 2
  sliceSizes := ![1, 1]
  wf := gather_S50000x64_S50000x1x1_S50000x1_n_1_0_0_1_2_11_wf

class Facts : Prop extends Facts₀ where

variable [Facts]
-- ==== Proof.KI.R0.lean ====
/-
  The first region, hs = (x · W) ⊙ dinv in ten blocks of 5000 rows: each window's block at a point, the output block as a function of
  the three input blocks, and the body's obligation at every point.
-/
import proofs.«406391_j32650341384625_4_alg».proof.Proof.Gen.KernelIdeal.Launch
import proofs.«406391_j32650341384625_4_alg».proof.Proof.Gen.KernelIdeal.Skeleton
import proofs.«406391_j32650341384625_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev rA : Rect S5000x128 := Rect.unit (s := S5000x128) ![0, 0] S5000x128.size inb_S5000x128_S5000x128_0_0

abbrev rW : Rect S128x128 := Rect.unit (s := S128x128) ![0, 0] S128x128.size inb_S128x128_S128x128_0_0

abbrev rD : Rect S5000x1 := Rect.unit (s := S5000x1) ![0, 0] S5000x1.size inb_S5000x1_S5000x1_0_0

def out0_3 (x0 : Vec F S5000x128 .f32) (x1 : Vec F S128x128 .f32) (x2 : Vec F S5000x1 .f32) : Vec F S5000x128 .bf16 :=
  View.canon [⟨rA, k0_pay1 (View.ld x0 rA) (View.ld x1 rW) (View.ld x2 rD)⟩]

theorem cover0_3 (p0 : Vec F S5000x128 .bf16) (y : S5000x128.Idx) :
    ∃ pc ∈ ([⟨rA, p0⟩] : List (View.Piece (Elt F) S5000x128 .bf16)), y ∈ pc.1.set :=
  View.cover_of_tiled [⟨rA, p0⟩] S5000x128.size (by rfl) y

set_option maxHeartbeats 1000000 in

theorem sound_kernel0 (c : Dev nD) (E : Set ℕ) (i : grid0.Coords)
    (a0 : Memref sig .tc .vmem S5000x128 .f32) (h0 : a0.IsWhole) (a1 : Memref sig .tc .vmem S128x128 .f32) (h1 : a1.IsWhole)
    (a2 : Memref sig .tc .vmem S5000x1 .f32) (h2 : a2.IsWhole) (a3 : Memref sig .tc .vmem S5000x128 .bf16) (h3 : a3.IsWhole)
    (x0 : Vec F S5000x128 .f32) (x1 : Vec F S128x128 .f32) (x2 : Vec F S5000x1 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1 ∗ owns (c : Thread nD τ) a2 fullShare x2
            ∗ owns (c : Thread nD τ) a3 fullShare (out0_3 x0 x1 x2)) -∗ K ⟨⟩))
      ⊢ wp frame (wpE (defs₀ (F := F)) Variants.none c none) E (cc0__matmul_scale_kernel i a0 h0 a1 h1 a2 h2 a3 h3) K := by
  simp only [cc0__matmul_scale_kernel_eq_skeleton]; unfold cc0__matmul_scale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Region0

end Cert.KernelIdeal.Fr
-- ==== Proof.KI.R1Defs.lean ====
/-
  What the second region's three control cases share (25 points of 2000 rows): a point is first (clear, accumulate), middle (accumulate)
  or last (accumulate, divide). Each window's block at a point, the two branch conditions in closed form, and where the loss outputs are idle.
-/
import proofs.«406391_j32650341384625_4_alg».proof.Proof.Gen.KernelIdeal.Launch
import proofs.«406391_j32650341384625_4_alg».proof.Proof.Gen.KernelIdeal.Skeleton
import proofs.«406391_j32650341384625_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

end Blocks

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 25 = 0 :=
  (by decide +kernel : ∀ t : Fin grid1.N, cond1_0 (grid1.coords t) ↔ t.val % 25 = 0)

abbrev cond1_1 (i : grid1.Coords) : Prop := k1_cond2 i = 1#1
theorem hcond1_1 : ∀ t : Fin cfg1.N, cond1_1 (grid1.coords t) ↔ t.val % 25 = 24 :=
  (by decide +kernel : ∀ t : Fin grid1.N, cond1_1 (grid1.coords t) ↔ t.val % 25 = 24)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
theorem liveAt1_8 : ∀ t : Fin cfg1.N, cfg1.idle 8 (grid1.coords t) = false := by decide +kernel
theorem liveAt1_9 : ∀ t : Fin cfg1.N, cfg1.idle 9 (grid1.coords t) = false := by decide +kernel
theorem liveAt1_10 : ∀ t : Fin cfg1.N, cfg1.idle 10 (grid1.coords t) = false := by decide +kernel
theorem liveAt1_11 : ∀ t : Fin cfg1.N, cfg1.idle 11 (grid1.coords t) = false := by decide +kernel

theorem idleAt1_12 : ∀ t : Fin cfg1.N, ¬cond1_1 (grid1.coords t) → cfg1.idle 12 (grid1.coords t) = true := by decide +kernel
theorem noFlush1_12 : ∀ t : Fin cfg1.N, ¬cond1_1 (grid1.coords t) → (cfg1.win 12).flush t = false := by decide +kernel
theorem liveAt1_12 : ∀ t : Fin cfg1.N, cond1_1 (grid1.coords t) → cfg1.idle 12 (grid1.coords t) = false := by decide +kernel

theorem idleAt1_13 : ∀ t : Fin cfg1.N, ¬cond1_1 (grid1.coords t) → cfg1.idle 13 (grid1.coords t) = true := by decide +kernel
theorem noFlush1_13 : ∀ t : Fin cfg1.N, ¬cond1_1 (grid1.coords t) → (cfg1.win 13).flush t = false := by decide +kernel
theorem liveAt1_13 : ∀ t : Fin cfg1.N, cond1_1 (grid1.coords t) → cfg1.idle 13 (grid1.coords t) = false := by decide +kernel

theorem idleAt1_14 : ∀ t : Fin cfg1.N, ¬cond1_1 (grid1.coords t) → cfg1.idle 14 (grid1.coords t) = true := by decide +kernel
theorem noFlush1_14 : ∀ t : Fin cfg1.N, ¬cond1_1 (grid1.coords t) → (cfg1.win 14).flush t = false := by decide +kernel
theorem liveAt1_14 : ∀ t : Fin cfg1.N, cond1_1 (grid1.coords t) → cfg1.idle 14 (grid1.coords t) = false := by decide +kernel

abbrev ms1_0 (t : Fin cfg1.N) : Memref sig .tc .vmem S2000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2000x1 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2000x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2000x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2000x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S128x256 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x256 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S256x64 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x64 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S2000x64 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S1x1 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S1x1 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S1x1 .f32 := win1_14.stage (cfg1.slots t 14)
abbrev hs1_14 (t : Fin cfg1.N) : (ms1_14 t).IsWhole := hstage1_14 ((cfg1.slots t 14).cast nbuf1_14)

abbrev scM1_0 : Memref sig .tc .vmem S1x1 .f32 := Memref.whole cc1_scratch0
abbrev VS1_0 : View sig .tc .vmem S1x1 .f32 := scM1_0.view

abbrev scM1_1 : Memref sig .tc .vmem S1x1 .f32 := Memref.whole cc1_scratch1
abbrev VS1_1 : View sig .tc .vmem S1x1 .f32 := scM1_1.view

abbrev scM1_2 : Memref sig .tc .vmem S1x1 .f32 := Memref.whole cc1_scratch2
abbrev VS1_2 : View sig .tc .vmem S1x1 .f32 := scM1_2.view

abbrev scM1_3 : Memref sig .tc .vmem S1x1 .f32 := Memref.whole cc1_scratch3
abbrev VS1_3 : View sig .tc .vmem S1x1 .f32 := scM1_3.view

abbrev scM1_4 : Memref sig .tc .vmem S1x1 .f32 := Memref.whole cc1_scratch4
abbrev VS1_4 : View sig .tc .vmem S1x1 .f32 := scM1_4.view

abbrev scM1_5 : Memref sig .tc .vmem S1x1 .f32 := Memref.whole cc1_scratch5
abbrev VS1_5 : View sig .tc .vmem S1x1 .f32 := scM1_5.view

abbrev VO1_11 : View sig .tc .vmem S2000x64 .f32 := (Memref.whole cc1_stg11_0 : Memref sig .tc .vmem S2000x64 .f32).view
abbrev VO1_12 : View sig .tc .vmem S1x1 .f32 := (Memref.whole cc1_stg12_0 : Memref sig .tc .vmem S1x1 .f32).view
abbrev VO1_13 : View sig .tc .vmem S1x1 .f32 := (Memref.whole cc1_stg13_0 : Memref sig .tc .vmem S1x1 .f32).view
abbrev VO1_14 : View sig .tc .vmem S1x1 .f32 := (Memref.whole cc1_stg14_0 : Memref sig .tc .vmem S1x1 .f32).view

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)
          ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d) ∗ (∃ d, owns (c : Thread nD τ) scM1_4 fullShare d) ∗ (∃ d, owns (c : Thread nD τ) scM1_5 fullShare d)) ∗ (∃ r, prngReg c r)) := by
  unfold Pipeline.ΦA; rw [scopedRest1_eq]; simp only [scM1_0, scM1_1, scM1_2, scM1_3, scM1_4, scM1_5, owns_whole]; try rfl

end Cert.KernelIdeal.Fr

end
-- ==== Proof.KI.R1RunA.lean ====
/-
  The second region's body at the first grid point: the accumulators are cleared, the logits block is stored, and each accumulator ends
  at zero plus this block's contribution. Each written buffer's contents are recorded as the list of stored pieces, last first.
-/
import proofs.«406391_j32650341384625_4_alg».proof.Proof.KI.R1Defs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in

noncomputable def kernelRun1_A (c : Dev nD) (i : grid1.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S2000x1 .i32) (harg4 : arg4.IsWhole) (arg5 : Memref sig .tc .vmem S2000x1 .f32) (harg5 : arg5.IsWhole) (arg6 : Memref sig .tc .vmem S2000x1 .f32) (harg6 : arg6.IsWhole) (arg7 : Memref sig .tc .vmem S2000x1 .f32) (harg7 : arg7.IsWhole) (arg8 : Memref sig .tc .vmem S128x256 .f32) (harg8 : arg8.IsWhole) (arg9 : Memref sig .tc .vmem S1x256 .f32) (harg9 : arg9.IsWhole) (arg10 : Memref sig .tc .vmem S256x64 .f32) (harg10 : arg10.IsWhole) (arg11 : Memref sig .tc .vmem S1x64 .f32) (harg11 : arg11.IsWhole) (arg12 : Memref sig .tc .vmem S2000x64 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (arg18 : Memref sig .tc .vmem S1x1 .f32) (harg18 : arg18.IsWhole) (arg19 : Memref sig .tc .vmem S1x1 .f32) (harg19 : arg19.IsWhole) (arg20 : Memref sig .tc .vmem S1x1 .f32) (harg20 : arg20.IsWhole) (arg21 : Memref sig .tc .vmem S1x1 .f32) (harg21 : arg21.IsWhole) (hc0 : cond1_0 i) (hc1 : ¬cond1_1 i)
    (x0 : Vec F S2000x128 .f32) (x1 : Vec F S2000x1 .f32) (x2 : Vec F S1x128 .f32) (x3 : Vec F S2000x1 .i32) (x4 : Vec F S2000x1 .f32) (x5 : Vec F S2000x1 .f32) (x6 : Vec F S2000x1 .f32) (x7 : Vec F S128x256 .f32) (x8 : Vec F S1x256 .f32) (x9 : Vec F S256x64 .f32) (x10 : Vec F S1x64 .f32) :
    Σ' (L11 : List (View.Piece (Elt F) S2000x64 .f32)) (LS0 LS1 LS2 LS3 LS4 : List (View.Piece (Elt F) S1x1 .f32)), { LS5 : List (View.Piece (Elt F) S1x1 .f32) //
      ∀ (xi12 xi13 xi14 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ owns (c : Thread nD τ) arg13 fullShare xi12 ∗ owns (c : Thread nD τ) arg14 fullShare xi13 ∗ owns (c : Thread nD τ) arg15 fullShare xi14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ owns (c : Thread nD τ) arg13 fullShare xi12 ∗ owns (c : Thread nD τ) arg14 fullShare xi13 ∗ owns (c : Thread nD τ) arg15 fullShare xi14 ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1) ∗ (∃ f, arg18.view.loc (c : Thread nD τ) ↦[arg18.view.set]{fullShare} arg18.view.writes (Elt F) f LS2) ∗ (∃ f, arg19.view.loc (c : Thread nD τ) ↦[arg19.view.set]{fullShare} arg19.view.writes (Elt F) f LS3) ∗ (∃ f, arg20.view.loc (c : Thread nD τ) ↦[arg20.view.set]{fullShare} arg20.view.writes (Elt F) f LS4) ∗ (∃ f, arg21.view.loc (c : Thread nD τ) ↦[arg21.view.set]{fullShare} arg21.view.writes (Elt F) f LS5)) -∗ K ⟨⟩))
          ⊢ wp frame (wpE (defs₀ (F := F)) Variants.none c none) E (cc1__mlp_loss_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, fun xi12 xi13 xi14 E K => ?run⟩
  case run =>
    simp only [cc1__mlp_loss_kernel_eq_skeleton]; unfold cc1__mlp_loss_kernel_skel
    simp only [k1_part1_eq_skeleton, k1_part2_eq_skeleton, k1_part3_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg13.eq_unread hf13; obtain rfl := harg14.eq_unread hf14; obtain rfl := harg15.eq_unread hf15
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]; · iexists _; iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    iexists _; iexact H21

end Cert.KernelIdeal.Fr

end
-- ==== Proof.KI.R1RunB.lean ====
/-
  The second region's body at a middle grid point: the logits block is stored and each accumulator ends at what the point before left
  plus this block's contribution.
-/
import proofs.«406391_j32650341384625_4_alg».proof.Proof.KI.R1RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in

noncomputable def kernelRun1_B (c : Dev nD) (i : grid1.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S2000x1 .i32) (harg4 : arg4.IsWhole) (arg5 : Memref sig .tc .vmem S2000x1 .f32) (harg5 : arg5.IsWhole) (arg6 : Memref sig .tc .vmem S2000x1 .f32) (harg6 : arg6.IsWhole) (arg7 : Memref sig .tc .vmem S2000x1 .f32) (harg7 : arg7.IsWhole) (arg8 : Memref sig .tc .vmem S128x256 .f32) (harg8 : arg8.IsWhole) (arg9 : Memref sig .tc .vmem S1x256 .f32) (harg9 : arg9.IsWhole) (arg10 : Memref sig .tc .vmem S256x64 .f32) (harg10 : arg10.IsWhole) (arg11 : Memref sig .tc .vmem S1x64 .f32) (harg11 : arg11.IsWhole) (arg12 : Memref sig .tc .vmem S2000x64 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (arg18 : Memref sig .tc .vmem S1x1 .f32) (harg18 : arg18.IsWhole) (arg19 : Memref sig .tc .vmem S1x1 .f32) (harg19 : arg19.IsWhole) (arg20 : Memref sig .tc .vmem S1x1 .f32) (harg20 : arg20.IsWhole) (arg21 : Memref sig .tc .vmem S1x1 .f32) (harg21 : arg21.IsWhole) (hc0 : ¬cond1_0 i) (hc1 : ¬cond1_1 i)
    (x0 : Vec F S2000x128 .f32) (x1 : Vec F S2000x1 .f32) (x2 : Vec F S1x128 .f32) (x3 : Vec F S2000x1 .i32) (x4 : Vec F S2000x1 .f32) (x5 : Vec F S2000x1 .f32) (x6 : Vec F S2000x1 .f32) (x7 : Vec F S128x256 .f32) (x8 : Vec F S1x256 .f32) (x9 : Vec F S256x64 .f32) (x10 : Vec F S1x64 .f32) (xs0 xs1 xs2 xs3 xs4 xs5 : Vec F S1x1 .f32) :
    Σ' (L11 : List (View.Piece (Elt F) S2000x64 .f32)) (LS0 LS1 LS2 LS3 LS4 : List (View.Piece (Elt F) S1x1 .f32)), { LS5 : List (View.Piece (Elt F) S1x1 .f32) //
      ∀ (xi12 xi13 xi14 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ owns (c : Thread nD τ) arg13 fullShare xi12 ∗ owns (c : Thread nD τ) arg14 fullShare xi13 ∗ owns (c : Thread nD τ) arg15 fullShare xi14 ∗ owns (c : Thread nD τ) arg16 fullShare xs0 ∗ owns (c : Thread nD τ) arg17 fullShare xs1 ∗ owns (c : Thread nD τ) arg18 fullShare xs2 ∗ owns (c : Thread nD τ) arg19 fullShare xs3 ∗ owns (c : Thread nD τ) arg20 fullShare xs4 ∗ owns (c : Thread nD τ) arg21 fullShare xs5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ owns (c : Thread nD τ) arg13 fullShare xi12 ∗ owns (c : Thread nD τ) arg14 fullShare xi13 ∗ owns (c : Thread nD τ) arg15 fullShare xi14 ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1) ∗ (∃ f, arg18.view.loc (c : Thread nD τ) ↦[arg18.view.set]{fullShare} arg18.view.writes (Elt F) f LS2) ∗ (∃ f, arg19.view.loc (c : Thread nD τ) ↦[arg19.view.set]{fullShare} arg19.view.writes (Elt F) f LS3) ∗ (∃ f, arg20.view.loc (c : Thread nD τ) ↦[arg20.view.set]{fullShare} arg20.view.writes (Elt F) f LS4) ∗ (∃ f, arg21.view.loc (c : Thread nD τ) ↦[arg21.view.set]{fullShare} arg21.view.writes (Elt F) f LS5)) -∗ K ⟨⟩))
          ⊢ wp frame (wpE (defs₀ (F := F)) Variants.none c none) E (cc1__mlp_loss_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, fun xi12 xi13 xi14 E K => ?run⟩
  case run =>
    simp only [cc1__mlp_loss_kernel_eq_skeleton]; unfold cc1__mlp_loss_kernel_skel
    simp only [k1_part1_eq_skeleton, k1_part2_eq_skeleton, k1_part3_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]; · iexists _; iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    iexists _; iexact H21

end Cert.KernelIdeal.Fr

end
-- ==== Proof.KI.R1RunC.lean ====
/-
  The second region's body at the last grid point: as at a middle point, and the three loss outputs receive quotients of accumulators.
-/
import proofs.«406391_j32650341384625_4_alg».proof.Proof.KI.R1RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in

noncomputable def kernelRun1_C (c : Dev nD) (i : grid1.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S2000x1 .i32) (harg4 : arg4.IsWhole) (arg5 : Memref sig .tc .vmem S2000x1 .f32) (harg5 : arg5.IsWhole) (arg6 : Memref sig .tc .vmem S2000x1 .f32) (harg6 : arg6.IsWhole) (arg7 : Memref sig .tc .vmem S2000x1 .f32) (harg7 : arg7.IsWhole) (arg8 : Memref sig .tc .vmem S128x256 .f32) (harg8 : arg8.IsWhole) (arg9 : Memref sig .tc .vmem S1x256 .f32) (harg9 : arg9.IsWhole) (arg10 : Memref sig .tc .vmem S256x64 .f32) (harg10 : arg10.IsWhole) (arg11 : Memref sig .tc .vmem S1x64 .f32) (harg11 : arg11.IsWhole) (arg12 : Memref sig .tc .vmem S2000x64 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (arg18 : Memref sig .tc .vmem S1x1 .f32) (harg18 : arg18.IsWhole) (arg19 : Memref sig .tc .vmem S1x1 .f32) (harg19 : arg19.IsWhole) (arg20 : Memref sig .tc .vmem S1x1 .f32) (harg20 : arg20.IsWhole) (arg21 : Memref sig .tc .vmem S1x1 .f32) (harg21 : arg21.IsWhole) (hc0 : ¬cond1_0 i) (hc1 : cond1_1 i)
    (x0 : Vec F S2000x128 .f32) (x1 : Vec F S2000x1 .f32) (x2 : Vec F S1x128 .f32) (x3 : Vec F S2000x1 .i32) (x4 : Vec F S2000x1 .f32) (x5 : Vec F S2000x1 .f32) (x6 : Vec F S2000x1 .f32) (x7 : Vec F S128x256 .f32) (x8 : Vec F S1x256 .f32) (x9 : Vec F S256x64 .f32) (x10 : Vec F S1x64 .f32) (xs0 xs1 xs2 xs3 xs4 xs5 : Vec F S1x1 .f32) :
    Σ' (L11 : List (View.Piece (Elt F) S2000x64 .f32)) (L12 L13 L14 : List (View.Piece (Elt F) S1x1 .f32)) (LS0 LS1 LS2 LS3 LS4 : List (View.Piece (Elt F) S1x1 .f32)), { LS5 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs0 ∗ owns (c : Thread nD τ) arg17 fullShare xs1 ∗ owns (c : Thread nD τ) arg18 fullShare xs2 ∗ owns (c : Thread nD τ) arg19 fullShare xs3 ∗ owns (c : Thread nD τ) arg20 fullShare xs4 ∗ owns (c : Thread nD τ) arg21 fullShare xs5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1) ∗ (∃ f, arg18.view.loc (c : Thread nD τ) ↦[arg18.view.set]{fullShare} arg18.view.writes (Elt F) f LS2) ∗ (∃ f, arg19.view.loc (c : Thread nD τ) ↦[arg19.view.set]{fullShare} arg19.view.writes (Elt F) f LS3) ∗ (∃ f, arg20.view.loc (c : Thread nD τ) ↦[arg20.view.set]{fullShare} arg20.view.writes (Elt F) f LS4) ∗ (∃ f, arg21.view.loc (c : Thread nD τ) ↦[arg21.view.set]{fullShare} arg21.view.writes (Elt F) f LS5)) -∗ K ⟨⟩))
          ⊢ wp frame (wpE (defs₀ (F := F)) Variants.none c none) E (cc1__mlp_loss_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, ?_, ?_, fun E K => ?run⟩
  case run =>
    simp only [cc1__mlp_loss_kernel_eq_skeleton]; unfold cc1__mlp_loss_kernel_skel
    simp only [k1_part1_eq_skeleton, k1_part2_eq_skeleton, k1_part3_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg16.eq_unread hf16; obtain rfl := harg17.eq_unread hf17; obtain rfl := harg18.eq_unread hf18; obtain rfl := harg19.eq_unread hf19; obtain rfl := harg20.eq_unread hf20; obtain rfl := harg21.eq_unread hf21
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    iexists _; iexact H21

end Cert.KernelIdeal.Fr

end
-- ==== Proof.KI.R1Core.lean ====
/-
  The second region assembled from its three cases: what a case leaves in each written buffer, those buffers after every grid point by
  recursion on the point (an accumulator at a point is the case's update of what the point before left), the invariant and the proof data.
-/
import proofs.«406391_j32650341384625_4_alg».proof.Proof.KI.R1RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

structure Outs1 (F : FTy → Type) [FloatOps F] where
  o11 : Vec F S2000x64 .f32
  o12 : Vec F S1x1 .f32
  o13 : Vec F S1x1 .f32
  o14 : Vec F S1x1 .f32
  s0 : Vec F S1x1 .f32
  s1 : Vec F S1x1 .f32
  s2 : Vec F S1x1 .f32
  s3 : Vec F S1x1 .f32
  s4 : Vec F S1x1 .f32
  s5 : Vec F S1x1 .f32

def idleO : Vec F S1x1 .f32 := VO1_12.read (Elt F) VO1_12.junk

section Region
variable (V : (c : Dev nD) → (b : Ref sig .tc) → Buf (Elt F) ((c : Thread nD τ).loc b))

abbrev runA (c : Dev nD) (t : Fin cfg1.N) (hc0 : cond1_0 (grid1.coords t)) (hc1 : ¬cond1_1 (grid1.coords t)) :=
  kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)

def caseA (c : Dev nD) (t : Fin cfg1.N) (hc0 : cond1_0 (grid1.coords t)) (hc1 : ¬cond1_1 (grid1.coords t)) : Outs1 F where
  o11 := VO1_11.read (Elt F) (VO1_11.writes (Elt F) VO1_11.junk (runA V c t hc0 hc1).1)
  o12 := idleO
  o13 := idleO
  o14 := idleO
  s0 := VS1_0.read (Elt F) (VS1_0.writes (Elt F) VS1_0.junk (runA V c t hc0 hc1).2.1)
  s1 := VS1_1.read (Elt F) (VS1_1.writes (Elt F) VS1_1.junk (runA V c t hc0 hc1).2.2.1)
  s2 := VS1_2.read (Elt F) (VS1_2.writes (Elt F) VS1_2.junk (runA V c t hc0 hc1).2.2.2.1)
  s3 := VS1_3.read (Elt F) (VS1_3.writes (Elt F) VS1_3.junk (runA V c t hc0 hc1).2.2.2.2.1)
  s4 := VS1_4.read (Elt F) (VS1_4.writes (Elt F) VS1_4.junk (runA V c t hc0 hc1).2.2.2.2.2.1)
  s5 := VS1_5.read (Elt F) (VS1_5.writes (Elt F) VS1_5.junk (runA V c t hc0 hc1).2.2.2.2.2.2.1)

abbrev runB (c : Dev nD) (t : Fin cfg1.N) (hc0 : ¬cond1_0 (grid1.coords t)) (hc1 : ¬cond1_1 (grid1.coords t)) (p : Outs1 F) :=
  kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) p.s0 p.s1 p.s2 p.s3 p.s4 p.s5

def caseB (c : Dev nD) (t : Fin cfg1.N) (hc0 : ¬cond1_0 (grid1.coords t)) (hc1 : ¬cond1_1 (grid1.coords t)) (p : Outs1 F) : Outs1 F where
  o11 := VO1_11.read (Elt F) (VO1_11.writes (Elt F) VO1_11.junk (runB V c t hc0 hc1 p).1)
  o12 := idleO
  o13 := idleO
  o14 := idleO
  s0 := VS1_0.read (Elt F) (VS1_0.writes (Elt F) VS1_0.junk (runB V c t hc0 hc1 p).2.1)
  s1 := VS1_1.read (Elt F) (VS1_1.writes (Elt F) VS1_1.junk (runB V c t hc0 hc1 p).2.2.1)
  s2 := VS1_2.read (Elt F) (VS1_2.writes (Elt F) VS1_2.junk (runB V c t hc0 hc1 p).2.2.2.1)
  s3 := VS1_3.read (Elt F) (VS1_3.writes (Elt F) VS1_3.junk (runB V c t hc0 hc1 p).2.2.2.2.1)
  s4 := VS1_4.read (Elt F) (VS1_4.writes (Elt F) VS1_4.junk (runB V c t hc0 hc1 p).2.2.2.2.2.1)
  s5 := VS1_5.read (Elt F) (VS1_5.writes (Elt F) VS1_5.junk (runB V c t hc0 hc1 p).2.2.2.2.2.2.1)

abbrev runC (c : Dev nD) (t : Fin cfg1.N) (hc0 : ¬cond1_0 (grid1.coords t)) (hc1 : cond1_1 (grid1.coords t)) (p : Outs1 F) :=
  kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) scM1_2 (Memref.isWhole_whole _) scM1_3 (Memref.isWhole_whole _) scM1_4 (Memref.isWhole_whole _) scM1_5 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) p.s0 p.s1 p.s2 p.s3 p.s4 p.s5

def caseC (c : Dev nD) (t : Fin cfg1.N) (hc0 : ¬cond1_0 (grid1.coords t)) (hc1 : cond1_1 (grid1.coords t)) (p : Outs1 F) : Outs1 F where
  o11 := VO1_11.read (Elt F) (VO1_11.writes (Elt F) VO1_11.junk (runC V c t hc0 hc1 p).1)
  o12 := VO1_12.read (Elt F) (VO1_12.writes (Elt F) VO1_12.junk (runC V c t hc0 hc1 p).2.1)
  o13 := VO1_13.read (Elt F) (VO1_13.writes (Elt F) VO1_13.junk (runC V c t hc0 hc1 p).2.2.1)
  o14 := VO1_14.read (Elt F) (VO1_14.writes (Elt F) VO1_14.junk (runC V c t hc0 hc1 p).2.2.2.1)
  s0 := VS1_0.read (Elt F) (VS1_0.writes (Elt F) VS1_0.junk (runC V c t hc0 hc1 p).2.2.2.2.1)
  s1 := VS1_1.read (Elt F) (VS1_1.writes (Elt F) VS1_1.junk (runC V c t hc0 hc1 p).2.2.2.2.2.1)
  s2 := VS1_2.read (Elt F) (VS1_2.writes (Elt F) VS1_2.junk (runC V c t hc0 hc1 p).2.2.2.2.2.2.1)
  s3 := VS1_3.read (Elt F) (VS1_3.writes (Elt F) VS1_3.junk (runC V c t hc0 hc1 p).2.2.2.2.2.2.2.1)
  s4 := VS1_4.read (Elt F) (VS1_4.writes (Elt F) VS1_4.junk (runC V c t hc0 hc1 p).2.2.2.2.2.2.2.2.1)
  s5 := VS1_5.read (Elt F) (VS1_5.writes (Elt F) VS1_5.junk (runC V c t hc0 hc1 p).2.2.2.2.2.2.2.2.2.1)

theorem notFirst (n : ℕ) (hn : n + 1 < cfg1.N) : ¬cond1_0 (grid1.coords ⟨n + 1, hn⟩) := fun h => by
  have h' := (hcond1_0 ⟨n + 1, hn⟩).mp h
  have hN : n + 1 < 25 := lt_of_lt_of_eq hn (show cfg1.N = 25 from N_1)
  simp only at h'; omega

def outsAt1 (c : Dev nD) : (n : ℕ) → n < cfg1.N → Outs1 F
  | 0, hn => caseA V c ⟨0, hn⟩ ((hcond1_0 ⟨0, hn⟩).mpr (Nat.zero_mod _)) (fun h => absurd ((hcond1_1 ⟨0, hn⟩).mp h) (by show ¬((0 : ℕ) % 25 = 24); decide))
  | n + 1, hn =>
    if h1 : (n + 1) % 25 = 24 then
      caseC V c ⟨n + 1, hn⟩ (notFirst n hn) ((hcond1_1 ⟨n + 1, hn⟩).mpr h1) (outsAt1 c n (Nat.lt_of_succ_lt hn))
    else
      caseB V c ⟨n + 1, hn⟩ (notFirst n hn) (fun h => h1 ((hcond1_1 ⟨n + 1, hn⟩).mp h)) (outsAt1 c n (Nat.lt_of_succ_lt hn))

theorem outsAt1_A (c : Dev nD) (t : Fin cfg1.N) (h0 : t.val % 25 = 0) (hc1 : ¬cond1_1 (grid1.coords t)) :
    outsAt1 V c t.val t.isLt = caseA V c t ((hcond1_0 t).mpr h0) hc1 := by
  obtain ⟨n, hn⟩ := t
  have hN : n < 25 := lt_of_lt_of_eq hn (show cfg1.N = 25 from N_1)
  cases n with
  | zero => rfl
  | succ n => exfalso; simp only at h0; omega

theorem outsAt1_B (c : Dev nD) (t : Fin cfg1.N) (h0 : ¬t.val % 25 = 0) (h1 : ¬t.val % 25 = 24) :
    outsAt1 V c t.val t.isLt = caseB V c t (fun h => h0 ((hcond1_0 t).mp h)) (fun h => h1 ((hcond1_1 t).mp h))
      (outsAt1 V c (t.val - 1) (Nat.lt_of_le_of_lt (Nat.sub_le _ _) t.isLt)) := by
  obtain ⟨n, hn⟩ := t
  cases n with
  | zero => exact absurd (Nat.zero_mod _) h0
  | succ n => exact (dif_neg h1).trans rfl

theorem outsAt1_C (c : Dev nD) (t : Fin cfg1.N) (h0 : ¬t.val % 25 = 0) (h1 : t.val % 25 = 24) :
    outsAt1 V c t.val t.isLt = caseC V c t (fun h => h0 ((hcond1_0 t).mp h)) ((hcond1_1 t).mpr h1)
      (outsAt1 V c (t.val - 1) (Nat.lt_of_le_of_lt (Nat.sub_le _ _) t.isLt)) := by
  obtain ⟨n, hn⟩ := t
  cases n with
  | zero => exact absurd (Nat.zero_mod _) h0
  | succ n => exact (dif_pos h1).trans rfl

def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare (outsAt1 V c n hn).s0 ∗ owns (c : Thread nD τ) scM1_1 fullShare (outsAt1 V c n hn).s1 ∗ owns (c : Thread nD τ) scM1_2 fullShare (outsAt1 V c n hn).s2 ∗ owns (c : Thread nD τ) scM1_3 fullShare (outsAt1 V c n hn).s3 ∗ owns (c : Thread nD τ) scM1_4 fullShare (outsAt1 V c n hn).s4 ∗ owns (c : Thread nD τ) scM1_5 fullShare (outsAt1 V c n hn).s5) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare (outsAt1 V c n hn).s0 ∗ owns (c : Thread nD τ) scM1_1 fullShare (outsAt1 V c n hn).s1 ∗ owns (c : Thread nD τ) scM1_2 fullShare (outsAt1 V c n hn).s2 ∗ owns (c : Thread nD τ) scM1_3 fullShare (outsAt1 V c n hn).s3 ∗ owns (c : Thread nD τ) scM1_4 fullShare (outsAt1 V c n hn).s4 ∗ owns (c : Thread nD τ) scM1_5 fullShare (outsAt1 V c n hn).s5) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare (outsAt1 V c (n - 1) (by omega)).s0 ∗ owns (c : Thread nD τ) scM1_1 fullShare (outsAt1 V c (n - 1) (by omega)).s1 ∗ owns (c : Thread nD τ) scM1_2 fullShare (outsAt1 V c (n - 1) (by omega)).s2 ∗ owns (c : Thread nD τ) scM1_3 fullShare (outsAt1 V c (n - 1) (by omega)).s3 ∗ owns (c : Thread nD τ) scM1_4 fullShare (outsAt1 V c (n - 1) (by omega)).s4 ∗ owns (c : Thread nD τ) scM1_5 fullShare (outsAt1 V c (n - 1) (by omega)).s5) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => (outsAt1 V c t.val t.isLt).o11
    | ⟨12, _⟩ => (outsAt1 V c t.val t.isLt).o12
    | ⟨13, _⟩ => (outsAt1 V c t.val t.isLt).o13
    | ⟨14, _⟩ => (outsAt1 V c t.val t.isLt).o14
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = (outsAt1 V c t.val t.isLt).o11 := by dsimp only [dat1]
theorem after1_12 (c : Dev nD) (t : Fin cfg1.N) : (dat1 V c).after 12 t = (outsAt1 V c t.val t.isLt).o12 := by dsimp only [dat1]
theorem after1_13 (c : Dev nD) (t : Fin cfg1.N) : (dat1 V c).after 13 t = (outsAt1 V c t.val t.isLt).o13 := by dsimp only [dat1]
theorem after1_14 (c : Dev nD) (t : Fin cfg1.N) : (dat1 V c).after 14 t = (outsAt1 V c t.val t.isLt).o14 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t
    ∗ (dat1 V c).leavesExact 13 t
    ∗ (dat1 V c).leavesExact 14 t)

end Region

end Cert.KernelIdeal.Fr

end
-- ==== Proof.KI.R1BodyA.lean ====
/-
  The second region's body obligation at the first grid point, where the six accumulators are cleared before they are updated.
-/
import proofs.«406391_j32650341384625_4_alg».proof.Proof.KI.R1Core

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

set_option maxHeartbeats 8000000 in
theorem sound_body1_A (c : Dev nD) (t : Fin cfg1.N) (h0 : t.val % 25 = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).owesAt () t.succ = (dat1 V c).owesAt () t.castSucc from rfl]
  rw [show (dat1 V c).Φ t.succ = PhiS1 V c (t.val + 1) t.isLt from rfl, PhiS1_succ]
  have hN : t.val < 25 := lt_of_lt_of_eq t.isLt (show cfg1.N = 25 from N_1)
  have hz : t.val = 0 := by omega
  have hc0 : cond1_0 (grid1.coords t) := (hcond1_0 t).mpr h0
  have hc1 : ¬cond1_1 (grid1.coords t) := fun h => by have := (hcond1_1 t).mp h; omega
  rw [PhiS1_castSucc V c t, PhiS1_zero V c _ _ hz, PhiA1_eq]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  rw [show (dat1 V c).leavesExact 8 t = owns (c : Thread nD τ) (ms1_8 t) fullShare ((dat1 V c).after 8 t) from by
    unfold Dat.leavesExact; rw [liveAt1_8 t], after1_8]
  rw [show (dat1 V c).leavesExact 9 t = owns (c : Thread nD τ) (ms1_9 t) fullShare ((dat1 V c).after 9 t) from by
    unfold Dat.leavesExact; rw [liveAt1_9 t], after1_9]
  rw [show (dat1 V c).leavesExact 10 t = owns (c : Thread nD τ) (ms1_10 t) fullShare ((dat1 V c).after 10 t) from by
    unfold Dat.leavesExact; rw [liveAt1_10 t], after1_10]
  rw [show (dat1 V c).leavesExact 11 t = owns (c : Thread nD τ) (ms1_11 t) fullShare ((dat1 V c).after 11 t) from by
    unfold Dat.leavesExact; rw [liveAt1_11 t], after1_11]
  rw [Dat.leavesExact_idle (dat1 V c) 12 t (idleAt1_12 t hc1) (noFlush1_12 t hc1)]
  rw [Dat.leavesExact_idle (dat1 V c) 13 t (idleAt1_13 t hc1) (noFlush1_13 t hc1)]
  rw [Dat.leavesExact_idle (dat1 V c) 14 t (idleAt1_14 t hc1) (noFlush1_14 t hc1)]
  rw [outsAt1_A V c t h0 hc1]
  unfold caseA; dsimp only
  iintro ⟨⟨⟨B0, B1, B2, B3, B4, B5, B6, HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((runA V c t hc0 hc1).2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexact H12
  isplitl [H13]; · iexact H13
  isplitl [H14]; · iexact H14
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, ⟨%e11, H11⟩, H12, H13, H14, ⟨%es0, HS0⟩, ⟨%es1, HS1⟩, ⟨%es2, HS2⟩, ⟨%es3, HS3⟩, ⟨%es4, HS4⟩, ⟨%es5, HS5⟩⟩
  isplitl [B0 B1 B2 B3 B4 B5 B6 HS0 HS1 HS2 HS3 HS4 HS5 Hg]
  · isplitr [Hg]
    swap; · iexact Hg
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [HS0]
    · unfold owns; iexists _; isplitr
      swap; · iexact HS0
      ipureintro; exact View.read_writes_of_cover _ _ _ _ _ (View.cover_of_tiledL _ S1x1.size (by sl_kernel_rfl))
    isplitl [HS1]
    · unfold owns; iexists _; isplitr
      swap; · iexact HS1
      ipureintro; exact View.read_writes_of_cover _ _ _ _ _ (View.cover_of_tiledL _ S1x1.size (by sl_kernel_rfl))
    isplitl [HS2]
    · unfold owns; iexists _; isplitr
      swap; · iexact HS2
      ipureintro; exact View.read_writes_of_cover _ _ _ _ _ (View.cover_of_tiledL _ S1x1.size (by sl_kernel_rfl))
    isplitl [HS3]
    · unfold owns; iexists _; isplitr
      swap; · iexact HS3
      ipureintro; exact View.read_writes_of_cover _ _ _ _ _ (View.cover_of_tiledL _ S1x1.size (by sl_kernel_rfl))
    isplitl [HS4]
    · unfold owns; iexists _; isplitr
      swap; · iexact HS4
      ipureintro; exact View.read_writes_of_cover _ _ _ _ _ (View.cover_of_tiledL _ S1x1.size (by sl_kernel_rfl))
    unfold owns; iexists _; isplitr
    swap; · iexact HS5
    ipureintro; exact View.read_writes_of_cover _ _ _ _ _ (View.cover_of_tiledL _ S1x1.size (by sl_kernel_rfl))
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (View.cover_of_tiledL _ S2000x64.size (by sl_kernel_rfl))
  isplitl [H12]; · iexists _; iexact H12
  isplitl [H13]; · iexists _; iexact H13
  iexists _; iexact H14

end Region

end Cert.KernelIdeal.Fr

end
-- ==== Proof.KI.R1BodyB.lean ====
/-
  The second region's body obligation at a middle grid point, over what the point before left in the accumulators.
-/
import proofs.«406391_j32650341384625_4_alg».proof.Proof.KI.R1Core

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

set_option maxHeartbeats 8000000 in
theorem sound_body1_B (c : Dev nD) (t : Fin cfg1.N) (h0 : ¬t.val % 25 = 0) (h1 : ¬t.val % 25 = 24) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).owesAt () t.succ = (dat1 V c).owesAt () t.castSucc from rfl]
  rw [show (dat1 V c).Φ t.succ = PhiS1 V c (t.val + 1) t.isLt from rfl, PhiS1_succ]
  have hN : t.val < 25 := lt_of_lt_of_eq t.isLt (show cfg1.N = 25 from N_1)
  have hz : t.val ≠ 0 := fun h => h0 (by rw [h])
  have hc0 : ¬cond1_0 (grid1.coords t) := fun h => h0 ((hcond1_0 t).mp h)
  have hc1 : ¬cond1_1 (grid1.coords t) := fun h => h1 ((hcond1_1 t).mp h)
  rw [PhiS1_castSucc V c t, PhiS1_pos V c _ _ hz]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  rw [show (dat1 V c).leavesExact 8 t = owns (c : Thread nD τ) (ms1_8 t) fullShare ((dat1 V c).after 8 t) from by
    unfold Dat.leavesExact; rw [liveAt1_8 t], after1_8]
  rw [show (dat1 V c).leavesExact 9 t = owns (c : Thread nD τ) (ms1_9 t) fullShare ((dat1 V c).after 9 t) from by
    unfold Dat.leavesExact; rw [liveAt1_9 t], after1_9]
  rw [show (dat1 V c).leavesExact 10 t = owns (c : Thread nD τ) (ms1_10 t) fullShare ((dat1 V c).after 10 t) from by
    unfold Dat.leavesExact; rw [liveAt1_10 t], after1_10]
  rw [show (dat1 V c).leavesExact 11 t = owns (c : Thread nD τ) (ms1_11 t) fullShare ((dat1 V c).after 11 t) from by
    unfold Dat.leavesExact; rw [liveAt1_11 t], after1_11]
  rw [Dat.leavesExact_idle (dat1 V c) 12 t (idleAt1_12 t hc1) (noFlush1_12 t hc1)]
  rw [Dat.leavesExact_idle (dat1 V c) 13 t (idleAt1_13 t hc1) (noFlush1_13 t hc1)]
  rw [Dat.leavesExact_idle (dat1 V c) 14 t (idleAt1_14 t hc1) (noFlush1_14 t hc1)]
  rw [outsAt1_B V c t h0 h1]
  unfold caseB; dsimp only
  iintro ⟨⟨⟨B0, B1, B2, B3, B4, B5, B6, HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((runB V c t hc0 hc1 _).2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexact H12
  isplitl [H13]; · iexact H13
  isplitl [H14]; · iexact H14
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, ⟨%e11, H11⟩, H12, H13, H14, ⟨%es0, HS0⟩, ⟨%es1, HS1⟩, ⟨%es2, HS2⟩, ⟨%es3, HS3⟩, ⟨%es4, HS4⟩, ⟨%es5, HS5⟩⟩
  isplitl [B0 B1 B2 B3 B4 B5 B6 HS0 HS1 HS2 HS3 HS4 HS5 Hg]
  · isplitr [Hg]
    swap; · iexact Hg
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [HS0]
    · unfold owns; iexists _; isplitr
      swap; · iexact HS0
      ipureintro; exact View.read_writes_of_cover _ _ _ _ _ (View.cover_of_tiledL _ S1x1.size (by sl_kernel_rfl))
    isplitl [HS1]
    · unfold owns; iexists _; isplitr
      swap; · iexact HS1
      ipureintro; exact View.read_writes_of_cover _ _ _ _ _ (View.cover_of_tiledL _ S1x1.size (by sl_kernel_rfl))
    isplitl [HS2]
    · unfold owns; iexists _; isplitr
      swap; · iexact HS2
      ipureintro; exact View.read_writes_of_cover _ _ _ _ _ (View.cover_of_tiledL _ S1x1.size (by sl_kernel_rfl))
    isplitl [HS3]
    · unfold owns; iexists _; isplitr
      swap; · iexact HS3
      ipureintro; exact View.read_writes_of_cover _ _ _ _ _ (View.cover_of_tiledL _ S1x1.size (by sl_kernel_rfl))
    isplitl [HS4]
    · unfold owns; iexists _; isplitr
      swap; · iexact HS4
      ipureintro; exact View.read_writes_of_cover _ _ _ _ _ (View.cover_of_tiledL _ S1x1.size (by sl_kernel_rfl))
    unfold owns; iexists _; isplitr
    swap; · iexact HS5
    ipureintro; exact View.read_writes_of_cover _ _ _ _ _ (View.cover_of_tiledL _ S1x1.size (by sl_kernel_rfl))
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (View.cover_of_tiledL _ S2000x64.size (by sl_kernel_rfl))
  isplitl [H12]; · iexists _; iexact H12
  isplitl [H13]; · iexists _; iexact H13
  iexists _; iexact H14

end Region

end Cert.KernelIdeal.Fr

end
-- ==== Proof.KI.R1BodyC.lean ====
/-
  The second region's body obligation at the last grid point, where the three loss outputs are also written.
-/
import proofs.«406391_j32650341384625_4_alg».proof.Proof.KI.R1Core

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

set_option maxHeartbeats 8000000 in
theorem sound_body1_C (c : Dev nD) (t : Fin cfg1.N) (h0 : ¬t.val % 25 = 0) (h1 : t.val % 25 = 24) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).owesAt () t.succ = (dat1 V c).owesAt () t.castSucc from rfl]
  rw [show (dat1 V c).Φ t.succ = PhiS1 V c (t.val + 1) t.isLt from rfl, PhiS1_succ]
  have hN : t.val < 25 := lt_of_lt_of_eq t.isLt (show cfg1.N = 25 from N_1)
  have hz : t.val ≠ 0 := fun h => h0 (by rw [h])
  have hc0 : ¬cond1_0 (grid1.coords t) := fun h => h0 ((hcond1_0 t).mp h)
  have hc1 : cond1_1 (grid1.coords t) := (hcond1_1 t).mpr h1
  rw [PhiS1_castSucc V c t, PhiS1_pos V c _ _ hz]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  rw [show (dat1 V c).leavesExact 8 t = owns (c : Thread nD τ) (ms1_8 t) fullShare ((dat1 V c).after 8 t) from by
    unfold Dat.leavesExact; rw [liveAt1_8 t], after1_8]
  rw [show (dat1 V c).leavesExact 9 t = owns (c : Thread nD τ) (ms1_9 t) fullShare ((dat1 V c).after 9 t) from by
    unfold Dat.leavesExact; rw [liveAt1_9 t], after1_9]
  rw [show (dat1 V c).leavesExact 10 t = owns (c : Thread nD τ) (ms1_10 t) fullShare ((dat1 V c).after 10 t) from by
    unfold Dat.leavesExact; rw [liveAt1_10 t], after1_10]
  rw [show (dat1 V c).leavesExact 11 t = owns (c : Thread nD τ) (ms1_11 t) fullShare ((dat1 V c).after 11 t) from by
    unfold Dat.leavesExact; rw [liveAt1_11 t], after1_11]
  rw [show (dat1 V c).leavesExact 12 t = owns (c : Thread nD τ) (ms1_12 t) fullShare ((dat1 V c).after 12 t) from by
    unfold Dat.leavesExact; rw [liveAt1_12 t hc1], after1_12]
  rw [show (dat1 V c).leavesExact 13 t = owns (c : Thread nD τ) (ms1_13 t) fullShare ((dat1 V c).after 13 t) from by
    unfold Dat.leavesExact; rw [liveAt1_13 t hc1], after1_13]
  rw [show (dat1 V c).leavesExact 14 t = owns (c : Thread nD τ) (ms1_14 t) fullShare ((dat1 V c).after 14 t) from by
    unfold Dat.leavesExact; rw [liveAt1_14 t hc1], after1_14]
  rw [outsAt1_C V c t h0 h1]
  unfold caseC; dsimp only
  iintro ⟨⟨⟨B0, B1, B2, B3, B4, B5, B6, HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((runC V c t hc0 hc1 _).2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, ⟨%e11, H11⟩, ⟨%e12, H12⟩, ⟨%e13, H13⟩, ⟨%e14, H14⟩, ⟨%es0, HS0⟩, ⟨%es1, HS1⟩, ⟨%es2, HS2⟩, ⟨%es3, HS3⟩, ⟨%es4, HS4⟩, ⟨%es5, HS5⟩⟩
  isplitl [B0 B1 B2 B3 B4 B5 B6 HS0 HS1 HS2 HS3 HS4 HS5 Hg]
  · isplitr [Hg]
    swap; · iexact Hg
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [HS0]
    · unfold owns; iexists _; isplitr
      swap; · iexact HS0
      ipureintro; exact View.read_writes_of_cover _ _ _ _ _ (View.cover_of_tiledL _ S1x1.size (by sl_kernel_rfl))
    isplitl [HS1]
    · unfold owns; iexists _; isplitr
      swap; · iexact HS1
      ipureintro; exact View.read_writes_of_cover _ _ _ _ _ (View.cover_of_tiledL _ S1x1.size (by sl_kernel_rfl))
    isplitl [HS2]
    · unfold owns; iexists _; isplitr
      swap; · iexact HS2
      ipureintro; exact View.read_writes_of_cover _ _ _ _ _ (View.cover_of_tiledL _ S1x1.size (by sl_kernel_rfl))
    isplitl [HS3]
    · unfold owns; iexists _; isplitr
      swap; · iexact HS3
      ipureintro; exact View.read_writes_of_cover _ _ _ _ _ (View.cover_of_tiledL _ S1x1.size (by sl_kernel_rfl))
    isplitl [HS4]
    · unfold owns; iexists _; isplitr
      swap; · iexact HS4
      ipureintro; exact View.read_writes_of_cover _ _ _ _ _ (View.cover_of_tiledL _ S1x1.size (by sl_kernel_rfl))
    unfold owns; iexists _; isplitr
    swap; · iexact HS5
    ipureintro; exact View.read_writes_of_cover _ _ _ _ _ (View.cover_of_tiledL _ S1x1.size (by sl_kernel_rfl))
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (View.cover_of_tiledL _ S2000x64.size (by sl_kernel_rfl))
  isplitl [H12]
  · unfold owns; iexists _; isplitr
    swap; · iexact H12
    ipureintro; exact View.read_writes_of_cover _ _ _ _ _ (View.cover_of_tiledL _ S1x1.size (by sl_kernel_rfl))
  isplitl [H13]
  · unfold owns; iexists _; isplitr
    swap; · iexact H13
    ipureintro; exact View.read_writes_of_cover _ _ _ _ _ (View.cover_of_tiledL _ S1x1.size (by sl_kernel_rfl))
  unfold owns; iexists _; isplitr
  swap; · iexact H14
  ipureintro; exact View.read_writes_of_cover _ _ _ _ _ (View.cover_of_tiledL _ S1x1.size (by sl_kernel_rfl))

end Region

end Cert.KernelIdeal.Fr

end
-- ==== Proof.KI.R1.lean ====
/-
  The second region assembled: the body obligation at every point by the case the point is in, and the invariant's entry and exit.
-/
import proofs.«406391_j32650341384625_4_alg».proof.Proof.KI.R1BodyA
import proofs.«406391_j32650341384625_4_alg».proof.Proof.KI.R1BodyB
import proofs.«406391_j32650341384625_4_alg».proof.Proof.KI.R1BodyC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 25 = 0
  · exact sound_body1_A V c t h0
  · by_cases h1 : t.val % 25 = 24
    · exact sound_body1_C V c t h0 h1
    · exact sound_body1_B V c t h0 h1

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 25 := N_1; omega), PhiA1_eq]
  iintro ⟨⟨B0, B1, B2, B3, B4, B5, B6, HS0, HS1, HS2, HS3, HS4, HS5⟩, Hg⟩
  isplitr [Hg]
  swap; · iexact Hg
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [HS0]; · iexists _; iexact HS0
  isplitl [HS1]; · iexists _; iexact HS1
  isplitl [HS2]; · iexists _; iexact HS2
  isplitl [HS3]; · iexists _; iexact HS3
  isplitl [HS4]; · iexists _; iexact HS4
  iexists _; iexact HS5

end Region

end Cert.KernelIdeal.Fr

end
-- ==== Proof.KI.Run.lean ====
/-
  The kernel program's run as seven segments in order (host operations around the two regions): the buffer contents at each boundary as
  a fold from the launch memory, and the twelve argument arrays read back through the fold to their launch contents.
-/
import proofs.«406391_j32650341384625_4_alg».proof.Proof.Gen.KernelIdeal.Regions
import proofs.«406391_j32650341384625_4_alg».proof.Proof.KI.R0
import proofs.«406391_j32650341384625_4_alg».proof.Proof.KI.R1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev W2 : Dev nD → Valuation τ sig (Elt F) := fun c => StableHlo.after hostOps0_1 (W1 m ρ c)

abbrev W3 : Dev nD → Valuation τ sig (Elt F) := fun c => StableHlo.after hostOps0_2 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb

theorem W4_in (c : Dev nD) (w : Fin cfg0.W) (hin : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w hin _).trans (A_eq0 (V3 m ρ) c w))

abbrev V4 : (c : Dev nD) → (b : Ref sig .tc) → Buf (Elt F) ((c : Thread nD τ).loc b) := fun c b => W4 m ρ c b

theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps1 (W4 m ρ c)

abbrev V5 : (c : Dev nD) → (b : Ref sig .tc) → Buf (Elt F) ((c : Thread nD τ).loc b) := fun c b => W5 m ρ c b

def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb

theorem W6_in (c : Dev nD) (w : Fin cfg1.W) (hin : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hin _).trans (A_eq1 (V5 m ρ) c w))

abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps2 (W6 m ρ c)

theorem W7_of_untouched (c : Dev nD) (r : Ref sig .tc)
    (h0 : r ∉ hostOps0_W) (h1 : r ∉ hostOps0_1_W) (h2 : r ∉ hostOps0_2_W) (h4 : r ∉ hostOps1_W) (h6 : r ∉ hostOps2_W)
    (hr0 : W4 m ρ c (Proc.devRef .tc r) = W3 m ρ c (Proc.devRef .tc r))
    (hr1 : W6 m ρ c (Proc.devRef .tc r) = W5 m ρ c (Proc.devRef .tc r)) :
    W7 m ρ c (Proc.devRef .tc r) = m ((c : Thread nD τ).loc r) :=
  calc W7 m ρ c (Proc.devRef .tc r)
    _ = W6 m ρ c (Proc.devRef .tc r) := StableHlo.after_of_writes_sub hostOps2 _ hostOps2_writes h6
    _ = W5 m ρ c (Proc.devRef .tc r) := hr1
    _ = W4 m ρ c (Proc.devRef .tc r) := StableHlo.after_of_writes_sub hostOps1 _ hostOps1_writes h4
    _ = W3 m ρ c (Proc.devRef .tc r) := hr0
    _ = W2 m ρ c (Proc.devRef .tc r) := StableHlo.after_of_writes_sub hostOps0_2 _ hostOps0_2_writes h2
    _ = W1 m ρ c (Proc.devRef .tc r) := StableHlo.after_of_writes_sub hostOps0_1 _ hostOps0_1_writes h1
    _ = W0 m ρ c (Proc.devRef .tc r) := StableHlo.after_of_writes_sub hostOps0 _ hostOps0_writes h0
    _ = m ((c : Thread nD τ).loc r) := rfl

theorem W7_main_arg0 (c : Dev nD) : W7 m ρ c (Proc.devRef .tc main_arg0) = m ((c : Thread nD τ).loc main_arg0) :=
  W7_of_untouched m ρ c main_arg0 (by decide) (by decide) (by decide) (by decide) (by decide)
    (W4_in m ρ c 0 rfl) (W6_of_ne m ρ c main_arg0 (by decide))

theorem W7_main_arg1 (c : Dev nD) : W7 m ρ c (Proc.devRef .tc main_arg1) = m ((c : Thread nD τ).loc main_arg1) :=
  W7_of_untouched m ρ c main_arg1 (by decide) (by decide) (by decide) (by decide) (by decide)
    (W4_of_ne m ρ c main_arg1 (by decide)) (W6_of_ne m ρ c main_arg1 (by decide))

theorem W7_main_arg2 (c : Dev nD) : W7 m ρ c (Proc.devRef .tc main_arg2) = m ((c : Thread nD τ).loc main_arg2) :=
  W7_of_untouched m ρ c main_arg2 (by decide) (by decide) (by decide) (by decide) (by decide)
    (W4_of_ne m ρ c main_arg2 (by decide)) (W6_of_ne m ρ c main_arg2 (by decide))

theorem W7_main_arg3 (c : Dev nD) : W7 m ρ c (Proc.devRef .tc main_arg3) = m ((c : Thread nD τ).loc main_arg3) :=
  W7_of_untouched m ρ c main_arg3 (by decide) (by decide) (by decide) (by decide) (by decide)
    (W4_of_ne m ρ c main_arg3 (by decide)) (W6_of_ne m ρ c main_arg3 (by decide))

theorem W7_main_arg4 (c : Dev nD) : W7 m ρ c (Proc.devRef .tc main_arg4) = m ((c : Thread nD τ).loc main_arg4) :=
  W7_of_untouched m ρ c main_arg4 (by decide) (by decide) (by decide) (by decide) (by decide)
    (W4_of_ne m ρ c main_arg4 (by decide)) (W6_of_ne m ρ c main_arg4 (by decide))

theorem W7_main_arg5 (c : Dev nD) : W7 m ρ c (Proc.devRef .tc main_arg5) = m ((c : Thread nD τ).loc main_arg5) :=
  W7_of_untouched m ρ c main_arg5 (by decide) (by decide) (by decide) (by decide) (by decide)
    (W4_of_ne m ρ c main_arg5 (by decide)) (W6_of_ne m ρ c main_arg5 (by decide))

theorem W7_main_arg6 (c : Dev nD) : W7 m ρ c (Proc.devRef .tc main_arg6) = m ((c : Thread nD τ).loc main_arg6) :=
  W7_of_untouched m ρ c main_arg6 (by decide) (by decide) (by decide) (by decide) (by decide)
    (W4_in m ρ c 1 rfl) (W6_of_ne m ρ c main_arg6 (by decide))

theorem W7_main_arg7 (c : Dev nD) : W7 m ρ c (Proc.devRef .tc main_arg7) = m ((c : Thread nD τ).loc main_arg7) :=
  W7_of_untouched m ρ c main_arg7 (by decide) (by decide) (by decide) (by decide) (by decide)
    (W4_of_ne m ρ c main_arg7 (by decide)) (W6_of_ne m ρ c main_arg7 (by decide))

theorem W7_main_arg8 (c : Dev nD) : W7 m ρ c (Proc.devRef .tc main_arg8) = m ((c : Thread nD τ).loc main_arg8) :=
  W7_of_untouched m ρ c main_arg8 (by decide) (by decide) (by decide) (by decide) (by decide)
    (W4_of_ne m ρ c main_arg8 (by decide)) (W6_in m ρ c 7 rfl)

theorem W7_main_arg9 (c : Dev nD) : W7 m ρ c (Proc.devRef .tc main_arg9) = m ((c : Thread nD τ).loc main_arg9) :=
  W7_of_untouched m ρ c main_arg9 (by decide) (by decide) (by decide) (by decide) (by decide)
    (W4_of_ne m ρ c main_arg9 (by decide)) (W6_of_ne m ρ c main_arg9 (by decide))

theorem W7_main_arg10 (c : Dev nD) : W7 m ρ c (Proc.devRef .tc main_arg10) = m ((c : Thread nD τ).loc main_arg10) :=
  W7_of_untouched m ρ c main_arg10 (by decide) (by decide) (by decide) (by decide) (by decide)
    (W4_of_ne m ρ c main_arg10 (by decide)) (W6_in m ρ c 9 rfl)

theorem W7_main_arg11 (c : Dev nD) : W7 m ρ c (Proc.devRef .tc main_arg11) = m ((c : Thread nD τ).loc main_arg11) :=
  W7_of_untouched m ρ c main_arg11 (by decide) (by decide) (by decide) (by decide) (by decide)
    (W4_of_ne m ρ c main_arg11 (by decide)) (W6_of_ne m ρ c main_arg11 (by decide))

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W7 m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V5 m ρ) c).Φ 0 from rfl]
    refine BIBase.Entails.trans ?_ (hin1 (V5 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V5 m ρ) c).Φ (Fin.last cfg1.N) from rfl]
    refine BIBase.Entails.trans (hout1 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)) ]

theorem main_run (c : Dev nD) : main (F := F) c = Pipeline.Seg.run (segs m ρ) := (main_chain c).trans (by chain_rfl)

set_option backward.isDefEq.respectTransparency.types false in

theorem run_all : θ_run defs (onTc (τ := τ) (main (F := F))) ⟨m, fun _ => 0, ρ⟩
    (fun r => ∀ c : Dev nD, ∀ b ∈ Pipeline.ucRefs τ sig, r.2.mem ((c : Thread nD τ).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c)⟩) (run_all m ρ)

end Cert.KernelIdeal.Fr

end
-- ==== Proof.KI.Val0.lean ====
/-
  The first region's output array: entry (i, j) is (Σ_k x[i,k] · W[k,j]) · d[i]; each of the ten blocks is the matching block of that
  one function, and the blocks tile the 50000 rows.
-/
import proofs.«406391_j32650341384625_4_alg».proof.Proof.KI.R0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

theorem lhs_mm0_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem lhs_mm0_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem rhs_mm0_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem rhs_mm0_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem mm0_apply (x0 : FVec Ideal S5000x128 .f32) (x1 : FVec Ideal S128x128 .f32) (p : Fin 5000) (q : Fin 128) :
    matmul dot_S5000x128_S128x128_S5000x128_1_0_0_1_n_n (some .fp32) x0 x1 (constant (F := Ideal) S5000x128 .f32 0x00000000#32) (ix2 p q)
      = ∑ k : Fin 128, x0 (ix2 p k) * x1 (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_mm0_0 _ _
    | ⟨1, _⟩ => exact (lhs_mm0_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_mm0_0 _ _).trans hk
    | ⟨1, _⟩ => exact rhs_mm0_1 _ _)
  rw [el, er]

theorem bcast0_apply (x2 : FVec Ideal S5000x1 .f32) (p : Fin 5000) (q : Fin 128) :
    broadcastTo S5000x128 (shapeCast S5000x1 x2 shapeCasts_S5000x1_S5000x1) broadcasts_S5000x1_S5000x128 (ix2 p q) = x2 (ix2 p 0) := by
  rw [shapeCast_self]
  refine broadcastTo_apply x2 _ (ix2 p q) (ix2 p 0) fun a => ?_
  match a with
  | ⟨0, _⟩ => rfl
  | ⟨1, _⟩ => rfl

theorem pay0_apply (x0 : Vec Ideal S5000x128 .f32) (x1 : Vec Ideal S128x128 .f32) (x2 : Vec Ideal S5000x1 .f32) (p : Fin 5000) (q : Fin 128) :
    k0_pay1 x0 x1 x2 (ix2 p q) = (∑ k : Fin 128, x0 (ix2 p k) * x1 (ix2 k q)) * x2 (ix2 p 0) := by
  unfold k0_pay1
  show (truncf .bf16 (mulf (matmul dot_S5000x128_S128x128_S5000x128_1_0_0_1_n_n (some .fp32) x0 x1 (constant (F := Ideal) S5000x128 .f32 0x00000000#32))
      (broadcastTo S5000x128 (shapeCast S5000x1 x2 shapeCasts_S5000x1_S5000x1) broadcasts_S5000x1_S5000x128)) bitsLt_bf16_f32 : FVec Ideal S5000x128 .bf16) (ix2 p q) = _
  rw [truncf_apply, mulf_apply, mm0_apply, bcast0_apply]

def hs0 (A : S50000x128.Idx → EReal) (W : S128x128.Idx → EReal) (D : S50000x1.Idx → EReal) : S50000x128.Idx → EReal :=
  fun i => (∑ k : Fin 128, A (ix2 (i 0) k) * W (ix2 k (i 1))) * D (ix2 (i 0) (0 : Fin 1))

theorem hz0 : (![0, 0] : Fin 2 → Nat) = fun _ => 0 := funext fun a => by fin_cases a <;> rfl

theorem pay0_at (x0 : Vec Ideal S5000x128 .f32) (x1 : Vec Ideal S128x128 .f32) (x2 : Vec Ideal S5000x1 .f32) (j : S5000x128.Idx) :
    k0_pay1 x0 x1 x2 j = (∑ k : Fin 128, x0 (ix2 (j 0) k) * x1 (ix2 k (j 1))) * x2 (ix2 (j 0) (0 : Fin 1)) := by
  obtain ⟨p, q, rfl⟩ : ∃ (p : Fin 5000) (q : Fin 128), j = ix2 p q := ⟨j 0, j 1, eq_ix2 j⟩
  exact pay0_apply x0 x1 x2 p q

theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

section Blocks
variable (V : (c : Dev nD) → (b : Ref sig .tc) → Buf (Elt Ideal) ((c : Thread nD τ).loc b))

theorem blk0_x (c : Dev nD) (t : Fin cfg0.N) (y : S5000x128.Idx) (i : S50000x128.Idx)
    (h0 : (i 0).val = t.val * 5000 + (y 0).val) (h1 : (i 1).val = (y 1).val) :
    (iblk0 V c 0 t : Vec Ideal S5000x128 .f32) y = (V c main_arg0 : S50000x128.Idx → EReal) i := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

theorem blk0_w (c : Dev nD) (t : Fin cfg0.N) (y : S128x128.Idx) :
    (iblk0 V c 1 t : Vec Ideal S128x128 .f32) y = (V c main_arg6 : S128x128.Idx → EReal) y := by
  obtain ⟨-, -, e2, e3, -⟩ := idx_facts0 t
  unfold iblk0
  rw [View.read_apply]
  show V c main_arg6 _ = V c main_arg6 _
  congr 1
  funext a
  apply Fin.ext
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

theorem blk0_d (c : Dev nD) (t : Fin cfg0.N) (y : S5000x1.Idx) (i : S50000x1.Idx)
    (h0 : (i 0).val = t.val * 5000 + (y 0).val) (h1 : (i 1).val = (y 1).val) :
    (iblk0 V c 2 t : Vec Ideal S5000x1 .f32) y = (V c main_v15 : S50000x1.Idx → EReal) i := by
  obtain ⟨-, -, -, -, e4, e5, -⟩ := idx_facts0 t
  unfold iblk0
  rw [View.read_apply]
  show V c main_v15 _ = V c main_v15 _
  congr 1
  funext a
  apply Fin.ext
  match a with
  | ⟨0, _⟩ => show win0_2.index t (0 : Fin 2) * 5000 + 1 * (y 0).val = (i 0).val; rw [e4, h0]; omega
  | ⟨1, _⟩ => show win0_2.index t (1 : Fin 2) * 1 + 1 * (y 1).val = (i 1).val; rw [e5, h1]; omega

theorem pay0_blocks (c : Dev nD) (t : Fin cfg0.N) (j : S5000x128.Idx) (i : S50000x128.Idx)
    (h0 : (i 0).val = t.val * 5000 + (j 0).val) (h1 : (i 1).val = (j 1).val) :
    k0_pay1 (iblk0 V c 0 t) (iblk0 V c 1 t) (iblk0 V c 2 t) j = hs0 (V c main_arg0) (V c main_arg6) (V c main_v15) i := by
  rw [pay0_at]
  unfold hs0
  have hj1 : j 1 = i 1 := Fin.ext h1.symm
  rw [blk0_d V c t (ix2 (j 0) (0 : Fin 1)) (ix2 (i 0) (0 : Fin 1)) h0 rfl]
  congr 1
  refine Finset.sum_congr rfl fun k _ => ?_
  rw [blk0_x V c t (ix2 (j 0) k) (ix2 (i 0) k) h0 rfl, blk0_w V c t (ix2 k (j 1)), hj1]

theorem flushed0_eq (c : Dev nD) (t : Fin cfg0.N) :
    (dat0 (F := Ideal) V c).flushed 3 t
      = ((cfg0.win 3).blk t).view.read (Elt Ideal) (hs0 (V c main_arg0) (V c main_arg6) (V c main_v15)) := by
  show (cfg0.win 3).cut (grid0.coords t) ((dat0 V c).after 3 t) = _
  rw [after0_3]
  unfold out0_3
  rw [View.canon_unit_zero hz0]
  simp only [View.ld_unit_zero (S := S5000x128) hz0, View.ld_unit_zero (S := S128x128) hz0, View.ld_unit_zero (S := S5000x1) hz0]
  obtain ⟨-, -, -, -, -, -, e6, e7⟩ := idx_facts0 t
  funext j
  rw [View.read_apply]
  refine pay0_blocks V c t _ _ ?_ ?_
  · show win0_3.index t (0 : Fin 2) * 5000 + 1 * (j 0).val = t.val * 5000 + (j 0).val; rw [e6]; omega
  · show win0_3.index t (1 : Fin 2) * 128 + 1 * (j 1).val = (j 1).val; rw [e7]; omega

theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v16).slice (win0_3.rect t)).set ↔ _
  rw [View.set_slice_whole, Rect.mem_set_unit]
  exact Iff.rfl

theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ : ∃ t : Fin cfg0.N, t.val = (i 0).val / 5000 := ⟨⟨(i 0).val / 5000, by rw [show cfg0.N = 10 from N_0]; omega⟩, rfl⟩
  obtain ⟨-, -, -, -, -, -, e6, e7⟩ := idx_facts0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; rw [e6, ht]; omega
  | ⟨1, _⟩ => show win0_3.index t (1 : Fin 2) * 128 ≤ (i 1).val ∧ (i 1).val < win0_3.index t (1 : Fin 2) * 128 + 128; rw [e7]; omega

theorem final0 (c : Dev nD) :
    (dat0 (F := Ideal) V c).arrAt 3 cfg0.N = hs0 (V c main_arg0) (V c main_arg6) (V c main_v15) :=
  (dat0 (F := Ideal) V c).arrAt_eq_of_cover 3 (hs0 (V c main_arg0) (V c main_arg6) (V c main_v15))
    (fun t _ => flushed0_eq V c t) cover0

end Blocks

theorem hs0_apply (A : S50000x128.Idx → EReal) (W : S128x128.Idx → EReal) (D : S50000x1.Idx → EReal) (i : Fin 50000) (j : Fin 128) :
    hs0 A W D (ix2 i j) = (∑ k : Fin 128, A (ix2 i k) * W (ix2 k j)) * D (ix2 i (0 : Fin 1)) := rfl

theorem arr0 (V : (c : Dev nD) → (b : Ref sig .tc) → Buf (Elt Ideal) ((c : Thread nD τ).loc b)) (c : Dev nD) (i : Fin 50000) (j : Fin 128)
    (A : S50000x128.Idx → EReal) (W : S128x128.Idx → EReal) (D : S50000x1.Idx → EReal)
    (hA : A = V c main_arg0) (hW : W = V c main_arg6) (hD : D = V c main_v15) :
    (dat0 (F := Ideal) V c).arrAt 3 cfg0.N (ValueIdx.ix2 i j)
      = (∑ k : Fin 128, A (ValueIdx.ix2 i k) * W (ValueIdx.ix2 k j)) * D (ValueIdx.ix2 i (0 : Fin 1)) := by
  subst hA hW hD
  rw [final0]
  rfl

end Cert.KernelIdeal.Fr
-- ==== Proof.LibRowOps.lean ====
/-
  Row gathers and row scatter-adds of a matrix read at an index; both act column by column, so both commute with a slice of columns.
-/
import Idealize.ShloMosaic.PureOps.Ideal
import Idealize.ShloMosaic.Lib.ValueIdx

noncomputable section

open scoped BigOperators

namespace RowOps

open Idealize.ShloMosaic Idealize.ShloMosaic.ValueIdx

theorem colSlice_apply {α : Type} {M C C' off : Nat} (h : (⟨2, ![M, C]⟩ : Shape).Slices ![0, off] ⟨2, ![M, C']⟩)
    (x : (⟨2, ![M, C]⟩ : Shape).Idx → α) (r : Fin M) (q : Fin C') (hq : off + q.val < C) :
    extractStridedSlice ⟨2, ![M, C']⟩ ![0, off] x h (ix2 r q) = x (ix2 r ⟨off + q.val, hq⟩) := by
  unfold extractStridedSlice
  congr 1
  funext a
  match a with
  | ⟨0, _⟩ => exact Fin.ext (Nat.zero_add _)
  | ⟨1, _⟩ => rfl

section Gather
variable {α : Type}

abbrev gatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

def clampRow {w : Nat} (N : Nat) (hN : 0 < N) (b : BitVec w) : Fin N := ⟨min b.toInt.toNat (N - 1), by omega⟩

theorem gather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (gatherDims N E C wf) x idx (ix2 e q) = x (ix2 (clampRow N hN (idx (ix2 e 0))) q) := by
  unfold Host.gather
  congr 1
  funext a
  refine Fin.ext ?_
  match a with
  | ⟨0, _⟩ =>
    show (gatherDims N E C wf).start (ix2 e q) idx 0 + (gatherDims N E C wf).batchCoord (ix2 e q) 0
      + (gatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherDims N E C wf).startIndexMap from List.mem_singleton.mpr rfl)]
    have hsi : (gatherDims N E C wf).siIdx (ix2 e q) ⟨List.idxOf (0 : Fin 2) (gatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gatherDims N E C wf).start (ix2 e q) idx 1 + (gatherDims N E C wf).batchCoord (ix2 e q) 1
      + (gatherDims N E C wf).offCoord (ix2 e q) 1 = q.val
    rw [GatherDims.batchCoord_eq_zero _ _ _ List.not_mem_nil]
    unfold GatherDims.start
    rw [dif_neg (show (1 : Fin 2) ∉ (gatherDims N E C wf).startIndexMap from by
      show (1 : Fin 2) ∉ [(0 : Fin 2)]; decide)]
    simp only [Nat.add_zero, Nat.zero_add]
    rfl

theorem gather_colSlice {N E C C' off w : Nat} (hN : 0 < N)
    (wf : GatherDims.WF ⟨2, ![N, C]⟩ ⟨2, ![E, 1]⟩ ⟨2, ![E, C]⟩ [1] [0] [] [0] [] 1 ![1, C])
    (wf' : GatherDims.WF ⟨2, ![N, C']⟩ ⟨2, ![E, 1]⟩ ⟨2, ![E, C']⟩ [1] [0] [] [0] [] 1 ![1, C'])
    (hE : (⟨2, ![E, C]⟩ : Shape).Slices ![0, off] ⟨2, ![E, C']⟩)
    (hNs : (⟨2, ![N, C]⟩ : Shape).Slices ![0, off] ⟨2, ![N, C']⟩) (hoff : off + C' ≤ C)
    (x : (⟨2, ![N, C]⟩ : Shape).Idx → α) (idx : IVec ⟨2, ![E, 1]⟩ w) :
    extractStridedSlice ⟨2, ![E, C']⟩ ![0, off] (Host.gather (gatherDims N E C wf) x idx) hE
      = Host.gather (gatherDims N E C' wf') (extractStridedSlice ⟨2, ![N, C']⟩ ![0, off] x hNs) idx := by
  funext j
  obtain ⟨e, q, rfl⟩ : ∃ (e : Fin E) (q : Fin C'), j = ix2 e q := ⟨j 0, j 1, eq_ix2 j⟩
  have hq : off + q.val < C := by have := q.isLt; omega
  rw [colSlice_apply hE _ e q hq, gather_apply hN wf, gather_apply hN wf', colSlice_apply hNs _ _ q hq]

end Gather

section Scatter

abbrev scatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (q : Fin C)

theorem start_row : (scatterDims N E C wf).start (ix2 e q) idx 0 = (idx (ix2 e 0)).toInt := by
  unfold ScatterDims.start
  rw [dif_pos (show (0 : Fin 2) ∈ (scatterDims N E C wf).scatterDimsToOperandDims from List.mem_singleton.mpr rfl)]
  have hsi : (scatterDims N E C wf).siIdx (ix2 e q) ⟨List.idxOf (0 : Fin 2) (scatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem start_col : (scatterDims N E C wf).start (ix2 e q) idx 1 = 0 := by
  unfold ScatterDims.start
  rw [dif_neg (show (1 : Fin 2) ∉ (scatterDims N E C wf).scatterDimsToOperandDims from by
    show (1 : Fin 2) ∉ [(0 : Fin 2)]; decide)]

theorem window_row : (scatterDims N E C wf).window (ix2 e q) 0 = 0 := by
  unfold ScatterDims.window
  rw [dif_neg (show (0 : Fin 2) ∉ (scatterDims N E C wf).sKept from by
    show (0 : Fin 2) ∉ (List.finRange 2).filter (fun a => a ∉ [(0 : Fin 2)]); decide)]

theorem window_col : (scatterDims N E C wf).window (ix2 e q) 1 = q.val := by
  unfold ScatterDims.window
  rw [dif_pos (show (1 : Fin 2) ∈ (scatterDims N E C wf).sKept from by
    show (1 : Fin 2) ∈ (List.finRange 2).filter (fun a => a ∉ [(0 : Fin 2)]); decide)]
  rfl

theorem resultIdx?_eq_some_iff (r : Fin N) (p : Fin C) :
    (scatterDims N E C wf).resultIdx? (ix2 e q) idx = some (ix2 r p) ↔ (idx (ix2 e 0)).toInt = (r.val : Int) ∧ q = p := by
  unfold ScatterDims.resultIdx?
  have hr := r.isLt
  have hq := q.isLt
  split
  · rename_i h
    rw [Option.some.injEq]
    constructor
    · intro hf
      have h0 := congrArg (fun f : (⟨2, ![N, C]⟩ : Shape).Idx => (f 0).val) hf
      have h1 := congrArg (fun f : (⟨2, ![N, C]⟩ : Shape).Idx => (f 1).val) hf
      simp only [start_row, start_col, window_row, window_col] at h0 h1
      have hh := (h 0).1
      simp only [start_row, window_row] at hh
      refine ⟨?_, Fin.ext ?_⟩
      · have : ((idx (ix2 e 0)).toInt + ((0 : Nat) : Int)).toNat = r.val := h0
        omega
      · have : ((0 : Int) + ((q.val : Nat) : Int)).toNat = p.val := h1
        omega
    · rintro ⟨hs, rfl⟩
      funext a
      refine Fin.ext ?_
      match a with
      | ⟨0, _⟩ =>
        show ((scatterDims N E C wf).start (ix2 e q) idx 0 + ((scatterDims N E C wf).window (ix2 e q) 0 : Nat)).toNat = r.val
        rw [start_row, window_row, hs]; omega
      | ⟨1, _⟩ =>
        show ((scatterDims N E C wf).start (ix2 e q) idx 1 + ((scatterDims N E C wf).window (ix2 e q) 1 : Nat)).toNat = q.val
        rw [start_col, window_col]; omega
  · rename_i h
    constructor
    · intro hf; exact absurd hf (by simp)
    · rintro ⟨hs, rfl⟩
      refine absurd (fun a => ?_) h
      match a with
      | ⟨0, _⟩ =>
        show 0 ≤ (scatterDims N E C wf).start (ix2 e q) idx 0 + ((scatterDims N E C wf).window (ix2 e q) 0 : Nat)
          ∧ (scatterDims N E C wf).start (ix2 e q) idx 0 + ((scatterDims N E C wf).window (ix2 e q) 0 : Nat) < (N : Int)
        rw [start_row, window_row, hs]; omega
      | ⟨1, _⟩ =>
        show 0 ≤ (scatterDims N E C wf).start (ix2 e q) idx 1 + ((scatterDims N E C wf).window (ix2 e q) 1 : Nat)
          ∧ (scatterDims N E C wf).start (ix2 e q) idx 1 + ((scatterDims N E C wf).window (ix2 e q) 1 : Nat) < (C : Int)
        rw [start_col, window_col]; omega

theorem scatterAdd_apply {φ : FTy} (x : FVec Ideal ⟨2, ![N, C]⟩ φ) (upd : FVec Ideal ⟨2, ![E, C]⟩ φ) (r : Fin N) (p : Fin C) :
    Host.scatterAdd (F := Ideal) (scatterDims N E C wf) x idx upd (ix2 r p)
      = x (ix2 r p) + ∑ e ∈ Finset.univ.filter (fun e : Fin E => (idx (ix2 e 0)).toInt = (r.val : Int)), upd (ix2 e p) := by
  unfold Host.scatterAdd
  rw [Ideal.hostScatterAdd_def]
  unfold Ideal.hostScatterAdd
  congr 1
  rw [Finset.sum_filter, sum_idx2, Finset.sum_filter]
  refine Finset.sum_congr rfl fun e _ => ?_
  simp only [resultIdx?_eq_some_iff]
  by_cases hs : (idx (ix2 e 0)).toInt = (r.val : Int)
  · simp [hs]
  · simp [hs]

end Scatter

theorem scatterAdd_colSlice {N E C C' off w : Nat} {φ : FTy}
    (wf : ScatterDims.WF ⟨2, ![N, C]⟩ ⟨2, ![E, 1]⟩ ⟨2, ![E, C]⟩ [1] [0] [0] 1)
    (wf' : ScatterDims.WF ⟨2, ![N, C']⟩ ⟨2, ![E, 1]⟩ ⟨2, ![E, C']⟩ [1] [0] [0] 1)
    (hE : (⟨2, ![E, C]⟩ : Shape).Slices ![0, off] ⟨2, ![E, C']⟩)
    (hNs : (⟨2, ![N, C]⟩ : Shape).Slices ![0, off] ⟨2, ![N, C']⟩) (hoff : off + C' ≤ C)
    (x : FVec Ideal ⟨2, ![N, C]⟩ φ) (idx : IVec ⟨2, ![E, 1]⟩ w) (upd : FVec Ideal ⟨2, ![E, C]⟩ φ) :
    extractStridedSlice ⟨2, ![N, C']⟩ ![0, off] (Host.scatterAdd (F := Ideal) (scatterDims N E C wf) x idx upd) hNs
      = Host.scatterAdd (F := Ideal) (scatterDims N E C' wf') (extractStridedSlice ⟨2, ![N, C']⟩ ![0, off] x hNs) idx
          (extractStridedSlice ⟨2, ![E, C']⟩ ![0, off] upd hE) := by
  funext j
  obtain ⟨r, p, rfl⟩ : ∃ (r : Fin N) (p : Fin C'), j = ix2 r p := ⟨j 0, j 1, eq_ix2 j⟩
  have hp : off + p.val < C := by have := p.isLt; omega
  rw [colSlice_apply hNs _ r p hp, scatterAdd_apply wf, scatterAdd_apply wf', colSlice_apply hNs _ r p hp]
  congr 1
  refine Finset.sum_congr rfl fun e _ => ?_
  rw [colSlice_apply hE _ e p hp]

end RowOps

end
-- ==== Proof.Spec.lean ====
/-
  The specification over the extended reals: feat n = (Σ over edges e ending at n of (x W)(src e) · (dinv (src e) · dinv (dst e))) + b,
  logits = relu (feat Wf + bf) Wp + bp, a node's loss minus the log-softmax of its logits at its label, and three mask-weighted mean losses.
-/
import Idealize.ShloMosaic.PureOps.Ideal
import Idealize.ShloMosaic.PureOps.Ideal.Laws
import Idealize.ShloMosaic.Lib.ValueIdx
import proofs.«406391_j32650341384625_4_alg».proof.Proof.LibRowOps

noncomputable section

open scoped BigOperators

namespace GcnSpec

open Idealize.ShloMosaic Idealize.ShloMosaic.ValueIdx

def srcIdx (adj : IVec ⟨2, ![2, 800000]⟩ 32) (e : Fin 850000) : BitVec 32 :=
  if h : e.val < 800000 then adj (ix2 (0 : Fin 2) (⟨e.val, h⟩ : Fin 800000)) else BitVec.ofNat 32 (e.val - 800000)

def dstIdx (adj : IVec ⟨2, ![2, 800000]⟩ 32) (e : Fin 850000) : BitVec 32 :=
  if h : e.val < 800000 then adj (ix2 (1 : Fin 2) (⟨e.val, h⟩ : Fin 800000)) else BitVec.ofNat 32 (e.val - 800000)

def wrap (b : BitVec 32) : BitVec 32 :=
  Scalar.select (IntOp.cmpi .slt b 0#32) (IntOp.addi b 50000#32) b

def srcRow (adj : IVec ⟨2, ![2, 800000]⟩ 32) (e : Fin 850000) : Fin 50000 :=
  RowOps.clampRow 50000 (by decide) (wrap (srcIdx adj e))

def dstRow (adj : IVec ⟨2, ![2, 800000]⟩ 32) (e : Fin 850000) : Fin 50000 :=
  RowOps.clampRow 50000 (by decide) (wrap (dstIdx adj e))

def dstCol (adj : IVec ⟨2, ![2, 800000]⟩ 32) : IVec ⟨2, ![850000, 1]⟩ 32 := fun i => dstIdx adj (i 0)

theorem degDims_wf : ScatterDims.WF ⟨1, ![50000]⟩ ⟨2, ![850000, 1]⟩ ⟨1, ![850000]⟩ [] [0] [0] 1 := by decide

def degDims : ScatterDims ⟨1, ![50000]⟩ ⟨2, ![850000, 1]⟩ ⟨1, ![850000]⟩ where
  updateWindowDims := []
  insertedWindowDims := [0]
  scatterDimsToOperandDims := [0]
  indexVectorDim := 1
  wf := degDims_wf

def deg (adj : IVec ⟨2, ![2, 800000]⟩ 32) : FVec Ideal ⟨1, ![50000]⟩ .f32 :=
  Host.scatterAdd (F := Ideal) degDims (constant (F := Ideal) ⟨1, ![50000]⟩ .f32 0x00000000#32) (dstCol adj)
    (constant (F := Ideal) ⟨1, ![850000]⟩ .f32 0x3F800000#32)

def dinv (adj : IVec ⟨2, ![2, 800000]⟩ 32) (n : Fin 50000) : EReal :=
  select (cmpf .ogt (deg adj) (constant (F := Ideal) ⟨1, ![50000]⟩ .f32 0x00000000#32)) (Host.rsqrt (deg adj))
    (constant (F := Ideal) ⟨1, ![50000]⟩ .f32 0x00000000#32) (ix1 n)

theorem select_gt_rsqrt (d : EReal) :
    Scalar.select (Ideal.cmp .ogt d (Ideal.ofBits .f32 0x00000000#32)) (Ideal.rsqrt d) (Ideal.ofBits .f32 0x00000000#32)
      = if 0 < d then Ideal.rsqrt d else 0 := by
  rw [Ideal.ofBits_zero_f32]
  by_cases h : 0 < d
  · rw [if_pos h]
    have : Ideal.cmp .ogt d 0 = 1#1 := by
      unfold Ideal.cmp
      rw [decide_eq_true h]; rfl
    rw [this, select_one]
  · rw [if_neg h]
    have : Ideal.cmp .ogt d 0 = 0#1 := by
      unfold Ideal.cmp
      rw [decide_eq_false h]; rfl
    rw [this, select_zero]

theorem rsqrt_apply {s : Shape} {φ : FTy} (x : FVec Ideal s φ) (i : s.Idx) :
    Host.rsqrt x i = FloatOps.hostUnary .rsqrt (x i) := rfl

theorem select_gt_rsqrt' (d : Ideal .f32) :
    Scalar.select (FloatOps.cmpf .ogt d (Ideal.ofBits .f32 0x00000000#32)) (FloatOps.hostUnary .rsqrt d)
        (Ideal.ofBits .f32 0x00000000#32)
      = if 0 < d then Ideal.rsqrt d else 0 := by
  rw [Ideal.cmpf_def, Ideal.hostUnary_rsqrt_def]
  exact select_gt_rsqrt d

theorem rsqrt_sel_nonneg (d : EReal) : ∃ r : ℝ, 0 ≤ r ∧ (if 0 < d then Ideal.rsqrt d else 0) = (r : EReal) := by
  by_cases h : 0 < d
  · rw [if_pos h]
    induction d using EReal.rec with
    | bot => exact absurd h (not_lt_bot)
    | top => exact ⟨0, le_refl _, by rw [Ideal.rsqrt_top, EReal.coe_zero]⟩
    | coe r =>
      have hr : 0 < r := EReal.coe_pos.1 h
      refine ⟨(Real.sqrt r)⁻¹, inv_nonneg.2 (Real.sqrt_nonneg r), ?_⟩
      rw [Ideal.rsqrt_coe, if_neg (not_lt.2 hr.le), if_neg hr.ne']
  · rw [if_neg h]
    exact ⟨0, le_refl _, EReal.coe_zero.symm⟩

theorem dinv_eq (adj : IVec ⟨2, ![2, 800000]⟩ 32) (n : Fin 50000) :
    dinv adj n = if 0 < deg adj (ix1 n) then Ideal.rsqrt (deg adj (ix1 n)) else 0 := by
  unfold dinv
  generalize deg adj = dv
  rw [select_apply, cmpf_apply, constant_apply, rsqrt_apply]
  exact select_gt_rsqrt' (dv (ix1 n))

theorem dinv_nonneg_real (adj : IVec ⟨2, ![2, 800000]⟩ 32) (n : Fin 50000) :
    ∃ r : ℝ, 0 ≤ r ∧ dinv adj n = (r : EReal) := by
  rw [dinv_eq]
  exact rsqrt_sel_nonneg _

def hmat (x : (⟨2, ![50000, 128]⟩ : Shape).Idx → EReal) (Wg : (⟨2, ![128, 128]⟩ : Shape).Idx → EReal)
    (i : Fin 50000) (j : Fin 128) : EReal :=
  ∑ k : Fin 128, x (ix2 i k) * Wg (ix2 k j)

def featRef (x : (⟨2, ![50000, 128]⟩ : Shape).Idx → EReal) (adj : IVec ⟨2, ![2, 800000]⟩ 32)
    (Wg : (⟨2, ![128, 128]⟩ : Shape).Idx → EReal) (bg : (⟨1, ![128]⟩ : Shape).Idx → EReal)
    (n : Fin 50000) (j : Fin 128) : EReal :=
  (∑ e ∈ Finset.univ.filter (fun e : Fin 850000 => (dstIdx adj e).toInt = (n.val : Int)),
      hmat x Wg (srcRow adj e) j * (dinv adj (srcRow adj e) * dinv adj (dstRow adj e))) + bg (ix1 j)

def hidden (feat : Fin 50000 → Fin 128 → EReal) (Wf : (⟨2, ![128, 256]⟩ : Shape).Idx → EReal)
    (bf : (⟨1, ![256]⟩ : Shape).Idx → EReal) (i : Fin 50000) (k : Fin 256) : EReal :=
  max ((∑ k' : Fin 128, feat i k' * Wf (ix2 k' k)) + bf (ix1 k)) 0

def logits (feat : Fin 50000 → Fin 128 → EReal) (Wf : (⟨2, ![128, 256]⟩ : Shape).Idx → EReal)
    (bf : (⟨1, ![256]⟩ : Shape).Idx → EReal) (Wp : (⟨2, ![256, 64]⟩ : Shape).Idx → EReal)
    (bp : (⟨1, ![64]⟩ : Shape).Idx → EReal) (i : Fin 50000) (j : Fin 64) : EReal :=
  (∑ k : Fin 256, hidden feat Wf bf i k * Wp (ix2 k j)) + bp (ix1 j)

def rowmax (lg : Fin 64 → EReal) : EReal := Finset.univ.sup lg

def logp (lg : Fin 64 → EReal) (j : Fin 64) : EReal :=
  (lg j - rowmax lg) - Ideal.log (∑ j' : Fin 64, Ideal.exp (lg j' - rowmax lg))

def lossAt (lg : Fin 64 → EReal) (lbl : BitVec 32) : EReal :=
  - logp lg ⟨lbl.toNat % 64, Nat.mod_lt _ (by decide)⟩

def maskf (b : BitVec 32) : EReal := if b = 1#32 then 1 else 0

theorem uitofp_cmpi_eq_one (b : BitVec 32) :
    FloatOps.uitofp (F := Ideal) .f32 (IntOp.cmpi .eq b 1#32) = maskf b := by
  show (((IntOp.cmpi .eq b 1#32).toNat : ℝ) : EReal) = maskf b
  unfold maskf IntOp.cmpi
  by_cases h : b = 1#32
  · simp [h]
  · simp [h]

def meanLoss (loss mask : Fin 50000 → EReal) : EReal :=
  Ideal.div (∑ i, loss i * mask i) (∑ i, mask i)

section Results
variable (x : (⟨2, ![50000, 128]⟩ : Shape).Idx → EReal) (adj : IVec ⟨2, ![2, 800000]⟩ 32)
  (label mask : IVec ⟨1, ![50000]⟩ 32)
  (Wg : (⟨2, ![128, 128]⟩ : Shape).Idx → EReal) (bg : (⟨1, ![128]⟩ : Shape).Idx → EReal)
  (Wf : (⟨2, ![128, 256]⟩ : Shape).Idx → EReal) (bf : (⟨1, ![256]⟩ : Shape).Idx → EReal)
  (Wp : (⟨2, ![256, 64]⟩ : Shape).Idx → EReal) (bp : (⟨1, ![64]⟩ : Shape).Idx → EReal)

def specLogits : (⟨2, ![50000, 64]⟩ : Shape).Idx → EReal :=
  fun i => logits (featRef x adj Wg bg) Wf bf Wp bp (i 0) (i 1)

def specLoss (i : Fin 50000) : EReal :=
  lossAt (logits (featRef x adj Wg bg) Wf bf Wp bp i) (label (ix1 i))

def specMean : (⟨0, ![]⟩ : Shape).Idx → EReal :=
  fun _ => meanLoss (specLoss x adj label Wg bg Wf bf Wp bp) (fun i => maskf (mask (ix1 i)))

end Results

abbrev specTrain := @specMean

abbrev specDev := @specMean

abbrev specTest := @specMean

end GcnSpec

end
-- ==== Proof.KI.KHost.lean ====
/-
  The kernel program's host operations read at an index in the specification's terms: the edge lists with one self loop per node,
  the degrees and their inverse square roots, the gather of source rows summed by destination, the mask columns and reshaped biases.
-/
import proofs.«406391_j32650341384625_4_alg».proof.Proof.KI.Run
import proofs.«406391_j32650341384625_4_alg».proof.Proof.KI.Val0
import proofs.«406391_j32650341384625_4_alg».proof.Proof.Spec
import proofs.«406391_j32650341384625_4_alg».proof.Proof.LibRowOps
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.ValueIdx
open scoped BigOperators

def srcList (adj : IVec S2x800000 32) : IVec S850000 32 :=
  concatenate S850000 0
    [⟨S800000, shapeCast S800000 (extractStridedSlice S1x800000 ![0, 0] adj slices_S2x800000_S1x800000_0_0) shapeCasts_S1x800000_S800000⟩,
      ⟨S50000, iotaInDim S50000 32 0⟩]
    concatenates_S800000_S50000_S850000_d0

def dstList (adj : IVec S2x800000 32) : IVec S850000 32 :=
  concatenate S850000 0
    [⟨S800000, shapeCast S800000 (extractStridedSlice S1x800000 ![1, 0] adj slices_S2x800000_S1x800000_1_0) shapeCasts_S1x800000_S800000⟩,
      ⟨S50000, iotaInDim S50000 32 0⟩]
    concatenates_S800000_S50000_S850000_d0

theorem edgeList_apply (r : Fin 2) (off : Fin 2 → Nat) (hoff : off = ![r.val, 0]) (hs : S2x800000.Slices off S1x800000)
    (adj : IVec S2x800000 32) (e : Fin 850000) :
    concatenate S850000 0
        [⟨S800000, shapeCast S800000 (extractStridedSlice S1x800000 off adj hs) shapeCasts_S1x800000_S800000⟩,
          ⟨S50000, iotaInDim S50000 32 0⟩]
        concatenates_S800000_S50000_S850000_d0 (ix1 e)
      = if h : e.val < 800000 then adj (ix2 r (⟨e.val, h⟩ : Fin 800000)) else BitVec.ofNat 32 (e.val - 800000) := by
  subst hoff
  by_cases h : e.val < 800000
  · rw [dif_pos h]
    refine (concatenate_pair_apply_left (t := S850000) (s₁ := S800000) (s₂ := S50000) (0 : Fin 1) _ _ concatenates_S800000_S50000_S850000_d0 (ix1 e) rfl
      (ix1 (⟨e.val, h⟩ : Fin 800000)) (fun b => ?_)).trans ?_
    · match b with
      | ⟨0, _⟩ => rfl
    · refine (shapeCast_apply _ _ (ix1 (⟨e.val, h⟩ : Fin 800000)) (ix2 (0 : Fin 1) (⟨e.val, h⟩ : Fin 800000)) ?_).trans ?_
      · rw [Shape.rowMajor_val_two, Shape.rowMajor_val_one]
        show 0 * 800000 + e.val = e.val
        omega
      · refine extractStridedSlice_apply _ adj hs (ix2 (0 : Fin 1) (⟨e.val, h⟩ : Fin 800000)) (ix2 r (⟨e.val, h⟩ : Fin 800000)) (fun a => ?_)
        match a with
        | ⟨0, _⟩ => show r.val = r.val + 0; omega
        | ⟨1, _⟩ => show e.val = 0 + e.val; omega
  · rw [dif_neg h]
    have he := e.isLt
    refine (concatenate_pair_apply_right (t := S850000) (s₁ := S800000) (s₂ := S50000) (0 : Fin 1) _ _ concatenates_S800000_S50000_S850000_d0 (ix1 e) rfl rfl
      (ix1 (⟨e.val - 800000, by omega⟩ : Fin 50000)) (fun b hb => absurd (Subsingleton.elim _ _) hb) ?_).trans ?_
    · show (e.val - 800000) + 800000 = e.val
      omega
    · rfl

theorem srcList_apply (adj : IVec S2x800000 32) (e : Fin 850000) : srcList adj (ix1 e) = GcnSpec.srcIdx adj e :=
  edgeList_apply 0 _ rfl _ adj e
theorem dstList_apply (adj : IVec S2x800000 32) (e : Fin 850000) : dstList adj (ix1 e) = GcnSpec.dstIdx adj e :=
  edgeList_apply 1 _ rfl _ adj e

theorem bcast_const_1 {n : Nat} (h : S_.BroadcastsInDim (⟨1, ![n]⟩ : Shape) ![]) (b : BitVec 32) :
    broadcastInDim (⟨1, ![n]⟩ : Shape) ![] h (constant (F := Ideal) S_ .f32 b) = constant (F := Ideal) (⟨1, ![n]⟩ : Shape) .f32 b := rfl

theorem col_of_list_apply (v : IVec S850000 32) (i : S850000x1.Idx) :
    broadcastInDim S850000x1 ![0] bcast_S850000_S850000x1_0 v i = v (ix1 (i 0)) := by
  refine broadcastInDim_apply _ _ v i (ix1 (i 0)) fun a => ?_
  match a with
  | ⟨0, _⟩ => rfl

def degP (adj : IVec S2x800000 32) : FVec Ideal S50000 .f32 :=
  Host.scatterAdd (F := Ideal) scatter_S50000_S850000x1_S850000_n_0_0_1
    (broadcastInDim S50000 ![] bcast_S_S50000 (constant (F := Ideal) S_ .f32 0x00000000#32))
    (broadcastInDim S850000x1 ![0] bcast_S850000_S850000x1_0 (dstList adj))
    (broadcastInDim S850000 ![] bcast_S_S850000 (constant (F := Ideal) S_ .f32 0x3F800000#32))

theorem dstCol_eq (adj : IVec S2x800000 32) :
    broadcastInDim S850000x1 ![0] bcast_S850000_S850000x1_0 (dstList adj) = GcnSpec.dstCol adj := by
  funext i
  rw [col_of_list_apply]
  exact dstList_apply adj (i 0)

theorem degP_eq (adj : IVec S2x800000 32) : degP adj = GcnSpec.deg adj := by
  unfold degP GcnSpec.deg
  rw [dstCol_eq, bcast_const_1, bcast_const_1]
  rfl

def dinvColP (adj : IVec S2x800000 32) : FVec Ideal S50000x1 .f32 :=
  shapeCast S50000x1
    (select (cmpf .ogt (degP adj) (broadcastInDim S50000 ![] bcast_S_S50000 (constant (F := Ideal) S_ .f32 0x00000000#32)))
      (Host.rsqrt (degP adj)) (broadcastInDim S50000 ![] bcast_S_S50000 (constant (F := Ideal) S_ .f32 0x00000000#32)))
    shapeCasts_S50000_S50000x1

theorem col50000_apply {α : Type} (v : S50000.Idx → α) (i : Fin 50000) :
    shapeCast S50000x1 v shapeCasts_S50000_S50000x1 (ix2 i (0 : Fin 1)) = v (ix1 i) := by
  refine shapeCast_apply v _ (ix2 i (0 : Fin 1)) (ix1 i) ?_
  rw [Shape.rowMajor_val_one, Shape.rowMajor_val_two]
  show i.val = i.val * 1 + 0
  omega

theorem dinvColP_apply (adj : IVec S2x800000 32) (i : Fin 50000) : dinvColP adj (ix2 i (0 : Fin 1)) = GcnSpec.dinv adj i := by
  unfold dinvColP
  rw [col50000_apply, degP_eq, bcast_const_1]
  unfold GcnSpec.dinv
  generalize GcnSpec.deg adj = D
  rfl

section Stretch0
variable (X : Valuation τ sig (Elt Ideal))

theorem host0_v5 : StableHlo.after (hostOps0 (F := Ideal)) X (Proc.devRef .tc main_v5) = srcList (X (Proc.devRef .tc main_arg1)) := by
  after_results
  unfold srcList
  rfl

theorem host0_v6 : StableHlo.after (hostOps0 (F := Ideal)) X (Proc.devRef .tc main_v6) = dstList (X (Proc.devRef .tc main_arg1)) := by
  after_results
  unfold dstList
  rfl

theorem host0_v12 : StableHlo.after (hostOps0 (F := Ideal)) X (Proc.devRef .tc main_v12)
    = cmpf .ogt (degP (X (Proc.devRef .tc main_arg1))) (broadcastInDim S50000 ![] bcast_S_S50000 (constant (F := Ideal) S_ .f32 0x00000000#32)) := by
  after_results
  unfold degP dstList
  rfl

theorem host0_v13 : StableHlo.after (hostOps0 (F := Ideal)) X (Proc.devRef .tc main_v13) = Host.rsqrt (degP (X (Proc.devRef .tc main_arg1))) := by
  after_results
  unfold degP dstList
  rfl

theorem host0_cst2 : StableHlo.after (hostOps0 (F := Ideal)) X (Proc.devRef .tc main_cst_2) = constant (F := Ideal) S_ .f32 0x00000000#32 := by
  after_results

theorem host01_v14 : StableHlo.after (hostOps0_1 (F := Ideal)) X (Proc.devRef .tc main_v14)
    = select (X (Proc.devRef .tc main_v12)) (X (Proc.devRef .tc main_v13)) (broadcastInDim S50000 ![] bcast_S_S50000 (X (Proc.devRef .tc main_cst_2))) := by
  after_results
  rfl

theorem host02_v15 : StableHlo.after (hostOps0_2 (F := Ideal)) X (Proc.devRef .tc main_v15)
    = shapeCast S50000x1 (X (Proc.devRef .tc main_v14)) shapeCasts_S50000_S50000x1 := by
  after_results
  rfl

theorem host0_v15 :
    StableHlo.after (hostOps0_2 (F := Ideal)) (StableHlo.after (hostOps0_1 (F := Ideal)) (StableHlo.after (hostOps0 (F := Ideal)) X)) (Proc.devRef .tc main_v15)
      = dinvColP (X (Proc.devRef .tc main_arg1)) := by
  rw [host02_v15, host01_v14, host0_v12, host0_v13, host0_cst2]
  unfold dinvColP
  rfl

end Stretch0

theorem col_of_list_apply' (v : IVec S850000 32) (e : Fin 850000) :
    broadcastInDim S850000x1 ![0] bcast_S850000_S850000x1_0 v (ix2 e (0 : Fin 1)) = v (ix1 e) :=
  col_of_list_apply v (ix2 e (0 : Fin 1))

def aggP (v5 v6 : IVec S850000 32) (h : FVec Ideal S50000x128 .bf16) : FVec Ideal S50000x128 .f32 :=
  Host.scatterAdd (F := Ideal) scatter_S50000x128_S850000x1_S850000x128_1_0_0_1
    (broadcastInDim S50000x128 ![] bcast_S_S50000x128 (constant (F := Ideal) S_ .f32 0x00000000#32))
    (broadcastInDim S850000x1 ![0] bcast_S850000_S850000x1_0 v6)
    (extf .f32 (Host.gather gather_S50000x128_S850000x1_S850000x128_1_0_n_n_0_1_1128 h
      (broadcastInDim S850000x1 ![0] bcast_S850000_S850000x1_0
        (select (cmpi .slt v5 (broadcastInDim S850000 ![] bcast_S_S850000 (constantI S_ 32 0#32)))
          (addi v5 (broadcastInDim S850000 ![] bcast_S_S850000 (constantI S_ 32 50000#32))) v5))) bitsLt_bf16_f32)

theorem wrapped_apply (v5 : IVec S850000 32) (e : Fin 850000) :
    (select (cmpi .slt v5 (broadcastInDim S850000 ![] bcast_S_S850000 (constantI S_ 32 0#32)))
      (addi v5 (broadcastInDim S850000 ![] bcast_S_S850000 (constantI S_ 32 50000#32))) v5) (ix1 e) = GcnSpec.wrap (v5 (ix1 e)) := rfl

theorem aggP_apply (v5 v6 : IVec S850000 32) (h : FVec Ideal S50000x128 .bf16) (n : Fin 50000) (j : Fin 128) :
    aggP v5 v6 h (ix2 n j)
      = ∑ e ∈ Finset.univ.filter (fun e : Fin 850000 => (v6 (ix1 e)).toInt = (n.val : Int)),
          h (ix2 (RowOps.clampRow 50000 (by decide) (GcnSpec.wrap (v5 (ix1 e)))) j) := by
  unfold aggP
  refine (RowOps.scatterAdd_apply (N := 50000) (E := 850000) (C := 128) scatter_S50000x128_S850000x1_S850000x128_1_0_0_1_wf _ _ _ n j).trans ?_
  rw [show broadcastInDim S50000x128 ![] bcast_S_S50000x128 (constant (F := Ideal) S_ .f32 0x00000000#32) (ix2 n j) = (0 : EReal) from Ideal.ofBits_zero_f32, zero_add]
  refine Finset.sum_congr (Finset.filter_congr fun e _ => by rw [col_of_list_apply']) fun e _ => ?_
  rw [extf_apply]
  refine (RowOps.gather_apply (N := 50000) (E := 850000) (C := 128) (by decide) gather_S50000x128_S850000x1_S850000x128_1_0_n_n_0_1_1128_wf h _ e j).trans ?_
  rewrite [col_of_list_apply']
  exact congrArg (fun r => h (ix2 (RowOps.clampRow 50000 (by decide) r) j)) (wrapped_apply v5 e)

section Stretch1
variable (Y : Valuation τ sig (Elt Ideal))

theorem host1_v27 : StableHlo.after (hostOps1 (F := Ideal)) Y (Proc.devRef .tc main_v27)
    = aggP (Y (Proc.devRef .tc main_v5)) (Y (Proc.devRef .tc main_v6)) (Y (Proc.devRef .tc main_v16)) := by
  after_results
  unfold aggP
  rfl

end Stretch1

def maskColP (t : IVec S50000 32) : FVec Ideal S50000x1 .f32 :=
  shapeCast S50000x1 (uitofp (F := Ideal) .f32 (cmpi .eq t (broadcastInDim S50000 ![] bcast_S_S50000 (constantI S_ 32 1#32)))) shapeCasts_S50000_S50000x1

theorem maskColP_apply (t : IVec S50000 32) (i : Fin 50000) : maskColP t (ix2 i (0 : Fin 1)) = GcnSpec.maskf (t (ix1 i)) := by
  unfold maskColP
  rw [col50000_apply]
  exact GcnSpec.uitofp_cmpi_eq_one (t (ix1 i))

section Stretch1b
variable (Y : Valuation τ sig (Elt Ideal))

theorem host1_v28 : StableHlo.after (hostOps1 (F := Ideal)) Y (Proc.devRef .tc main_v28)
    = shapeCast S50000x1 (Y (Proc.devRef .tc main_arg2)) shapeCasts_S50000_S50000x1 := by
  after_results
  rfl

theorem host1_v32 : StableHlo.after (hostOps1 (F := Ideal)) Y (Proc.devRef .tc main_v32) = maskColP (Y (Proc.devRef .tc main_arg3)) := by
  after_results
  unfold maskColP
  rfl
theorem host1_v36 : StableHlo.after (hostOps1 (F := Ideal)) Y (Proc.devRef .tc main_v36) = maskColP (Y (Proc.devRef .tc main_arg4)) := by
  after_results
  unfold maskColP
  rfl
theorem host1_v40 : StableHlo.after (hostOps1 (F := Ideal)) Y (Proc.devRef .tc main_v40) = maskColP (Y (Proc.devRef .tc main_arg5)) := by
  after_results
  unfold maskColP
  rfl

theorem host1_v41 : StableHlo.after (hostOps1 (F := Ideal)) Y (Proc.devRef .tc main_v41)
    = shapeCast S1x128 (Y (Proc.devRef .tc main_arg7)) shapeCasts_S128_S1x128 := by
  after_results
  rfl
theorem host1_v42 : StableHlo.after (hostOps1 (F := Ideal)) Y (Proc.devRef .tc main_v42)
    = shapeCast S1x256 (Y (Proc.devRef .tc main_arg9)) shapeCasts_S256_S1x256 := by
  after_results
  rfl
theorem host1_v43 : StableHlo.after (hostOps1 (F := Ideal)) Y (Proc.devRef .tc main_v43)
    = shapeCast S1x64 (Y (Proc.devRef .tc main_arg11)) shapeCasts_S64_S1x64 := by
  after_results
  rfl

end Stretch1b

section Stretch2
variable (Z : Valuation τ sig (Elt Ideal))

theorem host2_v45 : StableHlo.after (hostOps2 (F := Ideal)) Z (Proc.devRef .tc main_v45)
    = shapeCast S_ (Z (Proc.devRef .tc main_v44_1)) shapeCasts_S1x1_S_ := by
  after_results
  rfl
theorem host2_v46 : StableHlo.after (hostOps2 (F := Ideal)) Z (Proc.devRef .tc main_v46)
    = shapeCast S_ (Z (Proc.devRef .tc main_v44_2)) shapeCasts_S1x1_S_ := by
  after_results
  rfl
theorem host2_v47 : StableHlo.after (hostOps2 (F := Ideal)) Z (Proc.devRef .tc main_v47)
    = shapeCast S_ (Z (Proc.devRef .tc main_v44_3)) shapeCasts_S1x1_S_ := by
  after_results
  rfl

theorem scalar_of_11 {α : Type} (v : S1x1.Idx → α) : shapeCast S_ v shapeCasts_S1x1_S_ ix0 = v (ix2 (0 : Fin 1) (0 : Fin 1)) := by
  refine shapeCast_apply v _ ix0 (ix2 (0 : Fin 1) (0 : Fin 1)) ?_
  rw [Shape.rowMajor_val_two]
  have h0 := (S_.rowMajor ix0).isLt
  show 0 * 1 + 0 = (S_.rowMajor ix0).val
  have : S_.numel = 1 := by decide
  omega

end Stretch2

section Boundaries
variable (m : (ℓ : Loc nD τ sig) → Buf (Elt Ideal) ℓ) (ρ : Dev nD → PrngReg) (c : Dev nD)

theorem W3_of_untouched (r : Ref sig .tc) (h0 : r ∉ hostOps0_W) (h1 : r ∉ hostOps0_1_W) (h2 : r ∉ hostOps0_2_W) :
    W3 m ρ c (Proc.devRef .tc r) = m ((c : Thread nD τ).loc r) :=
  calc W3 m ρ c (Proc.devRef .tc r)
    _ = W2 m ρ c (Proc.devRef .tc r) := StableHlo.after_of_writes_sub hostOps0_2 _ hostOps0_2_writes h2
    _ = W1 m ρ c (Proc.devRef .tc r) := StableHlo.after_of_writes_sub hostOps0_1 _ hostOps0_1_writes h1
    _ = W0 m ρ c (Proc.devRef .tc r) := StableHlo.after_of_writes_sub hostOps0 _ hostOps0_writes h0
    _ = m ((c : Thread nD τ).loc r) := rfl

theorem W5_of_untouched (r : Ref sig .tc) (h0 : r ∉ hostOps0_W) (h1 : r ∉ hostOps0_1_W) (h2 : r ∉ hostOps0_2_W) (h4 : r ∉ hostOps1_W)
    (hr0 : W4 m ρ c (Proc.devRef .tc r) = W3 m ρ c (Proc.devRef .tc r)) :
    W5 m ρ c (Proc.devRef .tc r) = m ((c : Thread nD τ).loc r) :=
  ((StableHlo.after_of_writes_sub hostOps1 _ hostOps1_writes h4).trans hr0).trans (W3_of_untouched m ρ c r h0 h1 h2)

theorem V3_arg0 : V3 m ρ c main_arg0 = m ((c : Thread nD τ).loc main_arg0) := W3_of_untouched m ρ c main_arg0 (by decide) (by decide) (by decide)
theorem V3_arg6 : V3 m ρ c main_arg6 = m ((c : Thread nD τ).loc main_arg6) := W3_of_untouched m ρ c main_arg6 (by decide) (by decide) (by decide)

theorem W4_arg (r : Ref sig .tc) (h0 : r ∉ hostOps0_W) (h1 : r ∉ hostOps0_1_W) (h2 : r ∉ hostOps0_2_W)
    (hr0 : W4 m ρ c (Proc.devRef .tc r) = W3 m ρ c (Proc.devRef .tc r)) :
    W4 m ρ c (Proc.devRef .tc r) = m ((c : Thread nD τ).loc r) := hr0.trans (W3_of_untouched m ρ c r h0 h1 h2)

theorem V3_v15_eq : V3 m ρ c main_v15 = dinvColP (m ((c : Thread nD τ).loc main_arg1)) := host0_v15 (W0 m ρ c)

theorem V5_v15_eq : V5 m ρ c main_v15 = dinvColP (m ((c : Thread nD τ).loc main_arg1)) :=
  calc W5 m ρ c (Proc.devRef .tc main_v15)
    _ = W4 m ρ c (Proc.devRef .tc main_v15) := StableHlo.after_of_writes_sub hostOps1 _ hostOps1_writes (by decide)
    _ = W3 m ρ c (Proc.devRef .tc main_v15) := W4_in m ρ c 2 rfl
    _ = dinvColP (m ((c : Thread nD τ).loc main_arg1)) := V3_v15_eq m ρ c

theorem V3_v15_apply (adj : IVec S2x800000 32) (hadj : adj = m ((c : Thread nD τ).loc main_arg1)) (i : Fin 50000) :
    (V3 m ρ c main_v15 : S50000x1.Idx → EReal) (ix2 i (0 : Fin 1)) = GcnSpec.dinv adj i := by
  subst hadj
  rw [V3_v15_eq]
  exact dinvColP_apply _ i
theorem V5_v15_apply (adj : IVec S2x800000 32) (hadj : adj = m ((c : Thread nD τ).loc main_arg1)) (i : Fin 50000) :
    (V5 m ρ c main_v15 : S50000x1.Idx → EReal) (ix2 i (0 : Fin 1)) = GcnSpec.dinv adj i := by
  subst hadj
  rw [V5_v15_eq]
  exact dinvColP_apply _ i

theorem W4_v5 : W4 m ρ c (Proc.devRef .tc main_v5) = srcList (m ((c : Thread nD τ).loc main_arg1)) :=
  calc W4 m ρ c (Proc.devRef .tc main_v5)
    _ = W3 m ρ c (Proc.devRef .tc main_v5) := W4_of_ne m ρ c main_v5 (by decide)
    _ = W2 m ρ c (Proc.devRef .tc main_v5) := StableHlo.after_of_writes_sub hostOps0_2 _ hostOps0_2_writes (by decide)
    _ = W1 m ρ c (Proc.devRef .tc main_v5) := StableHlo.after_of_writes_sub hostOps0_1 _ hostOps0_1_writes (by decide)
    _ = srcList (m ((c : Thread nD τ).loc main_arg1)) := host0_v5 (W0 m ρ c)
theorem W4_v6 : W4 m ρ c (Proc.devRef .tc main_v6) = dstList (m ((c : Thread nD τ).loc main_arg1)) :=
  calc W4 m ρ c (Proc.devRef .tc main_v6)
    _ = W3 m ρ c (Proc.devRef .tc main_v6) := W4_of_ne m ρ c main_v6 (by decide)
    _ = W2 m ρ c (Proc.devRef .tc main_v6) := StableHlo.after_of_writes_sub hostOps0_2 _ hostOps0_2_writes (by decide)
    _ = W1 m ρ c (Proc.devRef .tc main_v6) := StableHlo.after_of_writes_sub hostOps0_1 _ hostOps0_1_writes (by decide)
    _ = dstList (m ((c : Thread nD τ).loc main_arg1)) := host0_v6 (W0 m ρ c)

theorem W4_v16 : W4 m ρ c (Proc.devRef .tc main_v16)
    = hs0 (m ((c : Thread nD τ).loc main_arg0)) (m ((c : Thread nD τ).loc main_arg6)) (dinvColP (m ((c : Thread nD τ).loc main_arg1))) := by
  refine (W4_arr m ρ c 3).trans ?_
  rw [final0, V3_arg0, V3_arg6, V3_v15_eq]

theorem V5_v27_eq : V5 m ρ c main_v27
    = aggP (srcList (m ((c : Thread nD τ).loc main_arg1))) (dstList (m ((c : Thread nD τ).loc main_arg1)))
        (hs0 (m ((c : Thread nD τ).loc main_arg0)) (m ((c : Thread nD τ).loc main_arg6)) (dinvColP (m ((c : Thread nD τ).loc main_arg1)))) := by
  refine (host1_v27 (W4 m ρ c)).trans ?_
  rw [W4_v5, W4_v6, W4_v16]

theorem V5_v27_apply (x : S50000x128.Idx → EReal) (adj : IVec S2x800000 32) (Wg : S128x128.Idx → EReal)
    (hx : x = m ((c : Thread nD τ).loc main_arg0)) (hadj : adj = m ((c : Thread nD τ).loc main_arg1)) (hWg : Wg = m ((c : Thread nD τ).loc main_arg6))
    (n : Fin 50000) (j : Fin 128) :
    (V5 m ρ c main_v27 : S50000x128.Idx → EReal) (ix2 n j)
      = ∑ e ∈ Finset.univ.filter (fun e : Fin 850000 => (GcnSpec.dstIdx adj e).toInt = (n.val : Int)),
          GcnSpec.hmat x Wg (GcnSpec.srcRow adj e) j * GcnSpec.dinv adj (GcnSpec.srcRow adj e) := by
  subst hx hadj hWg
  rw [V5_v27_eq]
  refine (aggP_apply _ _ _ n j).trans ?_
  refine Finset.sum_congr (Finset.filter_congr fun e _ => by rw [dstList_apply]) fun e _ => ?_
  rw [srcList_apply]
  refine (hs0_apply _ _ _ _ j).trans ?_
  rw [dinvColP_apply]
  rfl

theorem W4_plain_arg (r : Ref sig .tc) (h0 : r ∉ hostOps0_W) (h1 : r ∉ hostOps0_1_W) (h2 : r ∉ hostOps0_2_W)
    (hw : ∀ w, Pipeline.arrRef spec0 w ≠ r) : W4 m ρ c (Proc.devRef .tc r) = m ((c : Thread nD τ).loc r) :=
  W4_arg m ρ c r h0 h1 h2 (W4_of_ne m ρ c r hw)

theorem V5_v28_apply (label : IVec S50000 32) (hl : label = m ((c : Thread nD τ).loc main_arg2)) (i : Fin 50000) :
    (V5 m ρ c main_v28 : S50000x1.Idx → BitVec 32) (ix2 i (0 : Fin 1)) = label (ix1 i) := by
  subst hl
  rw [show V5 m ρ c main_v28 = _ from host1_v28 (W4 m ρ c), W4_plain_arg m ρ c main_arg2 (by decide) (by decide) (by decide) (by decide)]
  exact col50000_apply _ i

theorem V5_v32_apply (t : IVec S50000 32) (ht : t = m ((c : Thread nD τ).loc main_arg3)) (i : Fin 50000) :
    (V5 m ρ c main_v32 : S50000x1.Idx → EReal) (ix2 i (0 : Fin 1)) = GcnSpec.maskf (t (ix1 i)) := by
  subst ht
  rw [show V5 m ρ c main_v32 = _ from host1_v32 (W4 m ρ c), W4_plain_arg m ρ c main_arg3 (by decide) (by decide) (by decide) (by decide)]
  exact maskColP_apply _ i
theorem V5_v36_apply (t : IVec S50000 32) (ht : t = m ((c : Thread nD τ).loc main_arg4)) (i : Fin 50000) :
    (V5 m ρ c main_v36 : S50000x1.Idx → EReal) (ix2 i (0 : Fin 1)) = GcnSpec.maskf (t (ix1 i)) := by
  subst ht
  rw [show V5 m ρ c main_v36 = _ from host1_v36 (W4 m ρ c), W4_plain_arg m ρ c main_arg4 (by decide) (by decide) (by decide) (by decide)]
  exact maskColP_apply _ i
theorem V5_v40_apply (t : IVec S50000 32) (ht : t = m ((c : Thread nD τ).loc main_arg5)) (i : Fin 50000) :
    (V5 m ρ c main_v40 : S50000x1.Idx → EReal) (ix2 i (0 : Fin 1)) = GcnSpec.maskf (t (ix1 i)) := by
  subst ht
  rw [show V5 m ρ c main_v40 = _ from host1_v40 (W4 m ρ c), W4_plain_arg m ρ c main_arg5 (by decide) (by decide) (by decide) (by decide)]
  exact maskColP_apply _ i

theorem V5_v41_apply (b : S128.Idx → EReal) (hb : b = m ((c : Thread nD τ).loc main_arg7)) (k : Fin 128) :
    (V5 m ρ c main_v41 : S1x128.Idx → EReal) (ix2 (0 : Fin 1) k) = b (ix1 k) := by
  subst hb
  rw [show V5 m ρ c main_v41 = _ from host1_v41 (W4 m ρ c), W4_plain_arg m ρ c main_arg7 (by decide) (by decide) (by decide) (by decide)]
  exact shapeCast_a_1a_apply _ _ (0 : Fin 1) k
theorem V5_v42_apply (b : S256.Idx → EReal) (hb : b = m ((c : Thread nD τ).loc main_arg9)) (k : Fin 256) :
    (V5 m ρ c main_v42 : S1x256.Idx → EReal) (ix2 (0 : Fin 1) k) = b (ix1 k) := by
  subst hb
  rw [show V5 m ρ c main_v42 = _ from host1_v42 (W4 m ρ c), W4_plain_arg m ρ c main_arg9 (by decide) (by decide) (by decide) (by decide)]
  exact shapeCast_a_1a_apply _ _ (0 : Fin 1) k
theorem V5_v43_apply (b : S64.Idx → EReal) (hb : b = m ((c : Thread nD τ).loc main_arg11)) (k : Fin 64) :
    (V5 m ρ c main_v43 : S1x64.Idx → EReal) (ix2 (0 : Fin 1) k) = b (ix1 k) := by
  subst hb
  rw [show V5 m ρ c main_v43 = _ from host1_v43 (W4 m ρ c), W4_plain_arg m ρ c main_arg11 (by decide) (by decide) (by decide) (by decide)]
  exact shapeCast_a_1a_apply _ _ (0 : Fin 1) k

theorem V5_arg8 : V5 m ρ c main_arg8 = m ((c : Thread nD τ).loc main_arg8) :=
  W5_of_untouched m ρ c main_arg8 (by decide) (by decide) (by decide) (by decide) (W4_of_ne m ρ c main_arg8 (by decide))
theorem V5_arg10 : V5 m ρ c main_arg10 = m ((c : Thread nD τ).loc main_arg10) :=
  W5_of_untouched m ρ c main_arg10 (by decide) (by decide) (by decide) (by decide) (W4_of_ne m ρ c main_arg10 (by decide))

theorem W7_v44_0 : W7 m ρ c (Proc.devRef .tc main_v44_0) = (dat1 (V5 m ρ) c).arrAt 11 cfg1.N :=
  (StableHlo.after_of_writes_sub hostOps2 _ hostOps2_writes (by decide)).trans (W6_arr m ρ c 11)

theorem W7_v45 : (W7 m ρ c (Proc.devRef .tc main_v45) : S_.Idx → EReal) ix0
    = ((dat1 (V5 m ρ) c).arrAt 12 cfg1.N : S1x1.Idx → EReal) (ix2 (0 : Fin 1) (0 : Fin 1)) := by
  rw [show W7 m ρ c (Proc.devRef .tc main_v45) = _ from host2_v45 (W6 m ρ c), scalar_of_11]
  exact congrFun (W6_arr m ρ c 12) _
theorem W7_v46 : (W7 m ρ c (Proc.devRef .tc main_v46) : S_.Idx → EReal) ix0
    = ((dat1 (V5 m ρ) c).arrAt 13 cfg1.N : S1x1.Idx → EReal) (ix2 (0 : Fin 1) (0 : Fin 1)) := by
  rw [show W7 m ρ c (Proc.devRef .tc main_v46) = _ from host2_v46 (W6 m ρ c), scalar_of_11]
  exact congrFun (W6_arr m ρ c 13) _
theorem W7_v47 : (W7 m ρ c (Proc.devRef .tc main_v47) : S_.Idx → EReal) ix0
    = ((dat1 (V5 m ρ) c).arrAt 14 cfg1.N : S1x1.Idx → EReal) (ix2 (0 : Fin 1) (0 : Fin 1)) := by
  rw [show W7 m ρ c (Proc.devRef .tc main_v47) = _ from host2_v47 (W6 m ρ c), scalar_of_11]
  exact congrFun (W6_arr m ρ c 14) _

end Boundaries

end Cert.KernelIdeal.Fr
-- ==== Proof.KI.Pieces1.lean ====
/-
  Each buffer the second region's body writes is stored whole, so it ends at its last store's value: read here as the body's own
  arithmetic on the loaded blocks, in each of the three control cases.
-/
import proofs.«406391_j32650341384625_4_alg».proof.Proof.KI.R1RunC
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → ℕ) = fun _ => 0 := by funext a; fin_cases a <;> rfl

section Pieces
variable (c : Dev nD) (i : grid1.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S2000x1 .i32) (harg4 : arg4.IsWhole) (arg5 : Memref sig .tc .vmem S2000x1 .f32) (harg5 : arg5.IsWhole) (arg6 : Memref sig .tc .vmem S2000x1 .f32) (harg6 : arg6.IsWhole) (arg7 : Memref sig .tc .vmem S2000x1 .f32) (harg7 : arg7.IsWhole) (arg8 : Memref sig .tc .vmem S128x256 .f32) (harg8 : arg8.IsWhole) (arg9 : Memref sig .tc .vmem S1x256 .f32) (harg9 : arg9.IsWhole) (arg10 : Memref sig .tc .vmem S256x64 .f32) (harg10 : arg10.IsWhole) (arg11 : Memref sig .tc .vmem S1x64 .f32) (harg11 : arg11.IsWhole) (arg12 : Memref sig .tc .vmem S2000x64 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (arg18 : Memref sig .tc .vmem S1x1 .f32) (harg18 : arg18.IsWhole) (arg19 : Memref sig .tc .vmem S1x1 .f32) (harg19 : arg19.IsWhole) (arg20 : Memref sig .tc .vmem S1x1 .f32) (harg20 : arg20.IsWhole) (arg21 : Memref sig .tc .vmem S1x1 .f32) (harg21 : arg21.IsWhole)

section CaseA
variable (hc0 : cond1_0 i) (hc1 : ¬cond1_1 i)
    (x0 : Vec F S2000x128 .f32) (x1 : Vec F S2000x1 .f32) (x2 : Vec F S1x128 .f32) (x3 : Vec F S2000x1 .i32) (x4 : Vec F S2000x1 .f32) (x5 : Vec F S2000x1 .f32) (x6 : Vec F S2000x1 .f32) (x7 : Vec F S128x256 .f32) (x8 : Vec F S1x256 .f32) (x9 : Vec F S256x64 .f32) (x10 : Vec F S1x64 .f32)

set_option maxHeartbeats 2000000 in
theorem pieceA_o11 :
    VO1_11.read (Elt F) (VO1_11.writes (Elt F) VO1_11.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10).1)
      = k1_pay11 x0 x1 x2 x7 x8 x9 x10 := by
  rw [View.read_writes_eq_canon _ _ _ (View.cover_of_tiledL _ S2000x64.size (by sl_kernel_rfl))]
  unfold kernelRun1_A
  dsimp only
  sl_unfold_words
  first | rw [View.canon_unit_zero hz2] | rw [View.canon_cons_unit_zero hz2]
  simp only [View.readAt_eq_ld, Memref.IsWhole.read_unread, View.ld_unit_zero (S := S2000x128) hz2, View.ld_unit_zero (S := S2000x1) hz2, View.ld_unit_zero (S := S1x128) hz2, View.ld_unit_zero (S := S128x256) hz2, View.ld_unit_zero (S := S1x256) hz2, View.ld_unit_zero (S := S256x64) hz2, View.ld_unit_zero (S := S1x64) hz2, View.ld_unit_zero (S := S2000x64) hz2, View.ld_unit_zero (S := S1x1) hz2,
    View.readCov_unit_zero (S := S1x1) _ hz2, View.canon_unit_zero (S := S1x1) hz2, View.canon_cons_unit_zero (S := S1x1) hz2]

set_option maxHeartbeats 2000000 in
theorem pieceA_s0 :
    VS1_0.read (Elt F) (VS1_0.writes (Elt F) VS1_0.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10).2.1)
      = k1_pay18 (k1_pay11 x0 x1 x2 x7 x8 x9 x10) (k1_pay12 x0 x1 x2 x7 x8 x9 x10) (k1_pay13 x0 x1 x2 x7 x8 x9 x10) x3 x4 (k1_pay5 (F := F)) := by
  rw [View.read_writes_eq_canon _ _ _ (View.cover_of_tiledL _ S1x1.size (by sl_kernel_rfl))]
  unfold kernelRun1_A
  dsimp only
  sl_unfold_words
  first | rw [View.canon_unit_zero hz2] | rw [View.canon_cons_unit_zero hz2]
  simp only [View.readAt_eq_ld, Memref.IsWhole.read_unread, View.ld_unit_zero (S := S2000x128) hz2, View.ld_unit_zero (S := S2000x1) hz2, View.ld_unit_zero (S := S1x128) hz2, View.ld_unit_zero (S := S128x256) hz2, View.ld_unit_zero (S := S1x256) hz2, View.ld_unit_zero (S := S256x64) hz2, View.ld_unit_zero (S := S1x64) hz2, View.ld_unit_zero (S := S2000x64) hz2, View.ld_unit_zero (S := S1x1) hz2,
    View.readCov_unit_zero (S := S1x1) _ hz2, View.canon_unit_zero (S := S1x1) hz2, View.canon_cons_unit_zero (S := S1x1) hz2]

set_option maxHeartbeats 2000000 in
theorem pieceA_s1 :
    VS1_1.read (Elt F) (VS1_1.writes (Elt F) VS1_1.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10).2.2.1)
      = k1_pay20 (k1_pay6 (F := F)) (k1_pay19 x4) := by
  rw [View.read_writes_eq_canon _ _ _ (View.cover_of_tiledL _ S1x1.size (by sl_kernel_rfl))]
  unfold kernelRun1_A
  dsimp only
  sl_unfold_words
  first | rw [View.canon_unit_zero hz2] | rw [View.canon_cons_unit_zero hz2]
  simp only [View.readAt_eq_ld, Memref.IsWhole.read_unread, View.ld_unit_zero (S := S2000x128) hz2, View.ld_unit_zero (S := S2000x1) hz2, View.ld_unit_zero (S := S1x128) hz2, View.ld_unit_zero (S := S128x256) hz2, View.ld_unit_zero (S := S1x256) hz2, View.ld_unit_zero (S := S256x64) hz2, View.ld_unit_zero (S := S1x64) hz2, View.ld_unit_zero (S := S2000x64) hz2, View.ld_unit_zero (S := S1x1) hz2,
    View.readCov_unit_zero (S := S1x1) _ hz2, View.canon_unit_zero (S := S1x1) hz2, View.canon_cons_unit_zero (S := S1x1) hz2]

set_option maxHeartbeats 2000000 in
theorem pieceA_s2 :
    VS1_2.read (Elt F) (VS1_2.writes (Elt F) VS1_2.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10).2.2.2.1)
      = k1_pay21 (k1_pay14 (k1_pay11 x0 x1 x2 x7 x8 x9 x10) (k1_pay12 x0 x1 x2 x7 x8 x9 x10) (k1_pay13 x0 x1 x2 x7 x8 x9 x10) x3) (k1_pay16 x5) (k1_pay7 (F := F)) := by
  rw [View.read_writes_eq_canon _ _ _ (View.cover_of_tiledL _ S1x1.size (by sl_kernel_rfl))]
  unfold kernelRun1_A
  dsimp only
  sl_unfold_words
  first | rw [View.canon_unit_zero hz2] | rw [View.canon_cons_unit_zero hz2]
  simp only [View.readAt_eq_ld, Memref.IsWhole.read_unread, View.ld_unit_zero (S := S2000x128) hz2, View.ld_unit_zero (S := S2000x1) hz2, View.ld_unit_zero (S := S1x128) hz2, View.ld_unit_zero (S := S128x256) hz2, View.ld_unit_zero (S := S1x256) hz2, View.ld_unit_zero (S := S256x64) hz2, View.ld_unit_zero (S := S1x64) hz2, View.ld_unit_zero (S := S2000x64) hz2, View.ld_unit_zero (S := S1x1) hz2,
    View.readCov_unit_zero (S := S1x1) _ hz2, View.canon_unit_zero (S := S1x1) hz2, View.canon_cons_unit_zero (S := S1x1) hz2]

set_option maxHeartbeats 2000000 in
theorem pieceA_s3 :
    VS1_3.read (Elt F) (VS1_3.writes (Elt F) VS1_3.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10).2.2.2.2.1)
      = k1_pay22 (k1_pay16 x5) (k1_pay8 (F := F)) := by
  rw [View.read_writes_eq_canon _ _ _ (View.cover_of_tiledL _ S1x1.size (by sl_kernel_rfl))]
  unfold kernelRun1_A
  dsimp only
  sl_unfold_words
  first | rw [View.canon_unit_zero hz2] | rw [View.canon_cons_unit_zero hz2]
  simp only [View.readAt_eq_ld, Memref.IsWhole.read_unread, View.ld_unit_zero (S := S2000x128) hz2, View.ld_unit_zero (S := S2000x1) hz2, View.ld_unit_zero (S := S1x128) hz2, View.ld_unit_zero (S := S128x256) hz2, View.ld_unit_zero (S := S1x256) hz2, View.ld_unit_zero (S := S256x64) hz2, View.ld_unit_zero (S := S1x64) hz2, View.ld_unit_zero (S := S2000x64) hz2, View.ld_unit_zero (S := S1x1) hz2,
    View.readCov_unit_zero (S := S1x1) _ hz2, View.canon_unit_zero (S := S1x1) hz2, View.canon_cons_unit_zero (S := S1x1) hz2]

set_option maxHeartbeats 2000000 in
theorem pieceA_s4 :
    VS1_4.read (Elt F) (VS1_4.writes (Elt F) VS1_4.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10).2.2.2.2.2.1)
      = k1_pay23 (k1_pay14 (k1_pay11 x0 x1 x2 x7 x8 x9 x10) (k1_pay12 x0 x1 x2 x7 x8 x9 x10) (k1_pay13 x0 x1 x2 x7 x8 x9 x10) x3) (k1_pay17 x6) (k1_pay9 (F := F)) := by
  rw [View.read_writes_eq_canon _ _ _ (View.cover_of_tiledL _ S1x1.size (by sl_kernel_rfl))]
  unfold kernelRun1_A
  dsimp only
  sl_unfold_words
  first | rw [View.canon_unit_zero hz2] | rw [View.canon_cons_unit_zero hz2]
  simp only [View.readAt_eq_ld, Memref.IsWhole.read_unread, View.ld_unit_zero (S := S2000x128) hz2, View.ld_unit_zero (S := S2000x1) hz2, View.ld_unit_zero (S := S1x128) hz2, View.ld_unit_zero (S := S128x256) hz2, View.ld_unit_zero (S := S1x256) hz2, View.ld_unit_zero (S := S256x64) hz2, View.ld_unit_zero (S := S1x64) hz2, View.ld_unit_zero (S := S2000x64) hz2, View.ld_unit_zero (S := S1x1) hz2,
    View.readCov_unit_zero (S := S1x1) _ hz2, View.canon_unit_zero (S := S1x1) hz2, View.canon_cons_unit_zero (S := S1x1) hz2]

set_option maxHeartbeats 2000000 in
theorem pieceA_s5 :
    VS1_5.read (Elt F) (VS1_5.writes (Elt F) VS1_5.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10).2.2.2.2.2.2.1)
      = k1_pay1 (k1_pay17 x6) (k1_pay10 (F := F)) := by
  rw [View.read_writes_eq_canon _ _ _ (View.cover_of_tiledL _ S1x1.size (by sl_kernel_rfl))]
  unfold kernelRun1_A
  dsimp only
  sl_unfold_words
  first | rw [View.canon_unit_zero hz2] | rw [View.canon_cons_unit_zero hz2]
  simp only [View.readAt_eq_ld, Memref.IsWhole.read_unread, View.ld_unit_zero (S := S2000x128) hz2, View.ld_unit_zero (S := S2000x1) hz2, View.ld_unit_zero (S := S1x128) hz2, View.ld_unit_zero (S := S128x256) hz2, View.ld_unit_zero (S := S1x256) hz2, View.ld_unit_zero (S := S256x64) hz2, View.ld_unit_zero (S := S1x64) hz2, View.ld_unit_zero (S := S2000x64) hz2, View.ld_unit_zero (S := S1x1) hz2,
    View.readCov_unit_zero (S := S1x1) _ hz2, View.canon_unit_zero (S := S1x1) hz2, View.canon_cons_unit_zero (S := S1x1) hz2]

end CaseA

section CaseB
variable (hc0 : ¬cond1_0 i) (hc1 : ¬cond1_1 i)
    (x0 : Vec F S2000x128 .f32) (x1 : Vec F S2000x1 .f32) (x2 : Vec F S1x128 .f32) (x3 : Vec F S2000x1 .i32) (x4 : Vec F S2000x1 .f32) (x5 : Vec F S2000x1 .f32) (x6 : Vec F S2000x1 .f32) (x7 : Vec F S128x256 .f32) (x8 : Vec F S1x256 .f32) (x9 : Vec F S256x64 .f32) (x10 : Vec F S1x64 .f32) (xs0 xs1 xs2 xs3 xs4 xs5 : Vec F S1x1 .f32)

set_option maxHeartbeats 2000000 in
theorem pieceB_o11 :
    VO1_11.read (Elt F) (VO1_11.writes (Elt F) VO1_11.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2 xs3 xs4 xs5).1)
      = k1_pay11 x0 x1 x2 x7 x8 x9 x10 := by
  rw [View.read_writes_eq_canon _ _ _ (View.cover_of_tiledL _ S2000x64.size (by sl_kernel_rfl))]
  unfold kernelRun1_B
  dsimp only
  sl_unfold_words
  first | rw [View.canon_unit_zero hz2] | rw [View.canon_cons_unit_zero hz2]
  simp only [View.readAt_eq_ld, Memref.IsWhole.read_unread, View.ld_unit_zero (S := S2000x128) hz2, View.ld_unit_zero (S := S2000x1) hz2, View.ld_unit_zero (S := S1x128) hz2, View.ld_unit_zero (S := S128x256) hz2, View.ld_unit_zero (S := S1x256) hz2, View.ld_unit_zero (S := S256x64) hz2, View.ld_unit_zero (S := S1x64) hz2, View.ld_unit_zero (S := S2000x64) hz2, View.ld_unit_zero (S := S1x1) hz2,
    View.readCov_unit_zero (S := S1x1) _ hz2, View.canon_unit_zero (S := S1x1) hz2, View.canon_cons_unit_zero (S := S1x1) hz2]

set_option maxHeartbeats 2000000 in
theorem pieceB_s0 :
    VS1_0.read (Elt F) (VS1_0.writes (Elt F) VS1_0.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2 xs3 xs4 xs5).2.1)
      = k1_pay18 (k1_pay11 x0 x1 x2 x7 x8 x9 x10) (k1_pay12 x0 x1 x2 x7 x8 x9 x10) (k1_pay13 x0 x1 x2 x7 x8 x9 x10) x3 x4 xs0 := by
  rw [View.read_writes_eq_canon _ _ _ (View.cover_of_tiledL _ S1x1.size (by sl_kernel_rfl))]
  unfold kernelRun1_B
  dsimp only
  sl_unfold_words
  first | rw [View.canon_unit_zero hz2] | rw [View.canon_cons_unit_zero hz2]
  simp only [View.readAt_eq_ld, Memref.IsWhole.read_unread, View.ld_unit_zero (S := S2000x128) hz2, View.ld_unit_zero (S := S2000x1) hz2, View.ld_unit_zero (S := S1x128) hz2, View.ld_unit_zero (S := S128x256) hz2, View.ld_unit_zero (S := S1x256) hz2, View.ld_unit_zero (S := S256x64) hz2, View.ld_unit_zero (S := S1x64) hz2, View.ld_unit_zero (S := S2000x64) hz2, View.ld_unit_zero (S := S1x1) hz2,
    View.readCov_unit_zero (S := S1x1) _ hz2, View.canon_unit_zero (S := S1x1) hz2, View.canon_cons_unit_zero (S := S1x1) hz2]

set_option maxHeartbeats 2000000 in
theorem pieceB_s1 :
    VS1_1.read (Elt F) (VS1_1.writes (Elt F) VS1_1.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2 xs3 xs4 xs5).2.2.1)
      = k1_pay20 xs1 (k1_pay19 x4) := by
  rw [View.read_writes_eq_canon _ _ _ (View.cover_of_tiledL _ S1x1.size (by sl_kernel_rfl))]
  unfold kernelRun1_B
  dsimp only
  sl_unfold_words
  first | rw [View.canon_unit_zero hz2] | rw [View.canon_cons_unit_zero hz2]
  simp only [View.readAt_eq_ld, Memref.IsWhole.read_unread, View.ld_unit_zero (S := S2000x128) hz2, View.ld_unit_zero (S := S2000x1) hz2, View.ld_unit_zero (S := S1x128) hz2, View.ld_unit_zero (S := S128x256) hz2, View.ld_unit_zero (S := S1x256) hz2, View.ld_unit_zero (S := S256x64) hz2, View.ld_unit_zero (S := S1x64) hz2, View.ld_unit_zero (S := S2000x64) hz2, View.ld_unit_zero (S := S1x1) hz2,
    View.readCov_unit_zero (S := S1x1) _ hz2, View.canon_unit_zero (S := S1x1) hz2, View.canon_cons_unit_zero (S := S1x1) hz2]

set_option maxHeartbeats 2000000 in
theorem pieceB_s2 :
    VS1_2.read (Elt F) (VS1_2.writes (Elt F) VS1_2.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2 xs3 xs4 xs5).2.2.2.1)
      = k1_pay21 (k1_pay14 (k1_pay11 x0 x1 x2 x7 x8 x9 x10) (k1_pay12 x0 x1 x2 x7 x8 x9 x10) (k1_pay13 x0 x1 x2 x7 x8 x9 x10) x3) (k1_pay16 x5) xs2 := by
  rw [View.read_writes_eq_canon _ _ _ (View.cover_of_tiledL _ S1x1.size (by sl_kernel_rfl))]
  unfold kernelRun1_B
  dsimp only
  sl_unfold_words
  first | rw [View.canon_unit_zero hz2] | rw [View.canon_cons_unit_zero hz2]
  simp only [View.readAt_eq_ld, Memref.IsWhole.read_unread, View.ld_unit_zero (S := S2000x128) hz2, View.ld_unit_zero (S := S2000x1) hz2, View.ld_unit_zero (S := S1x128) hz2, View.ld_unit_zero (S := S128x256) hz2, View.ld_unit_zero (S := S1x256) hz2, View.ld_unit_zero (S := S256x64) hz2, View.ld_unit_zero (S := S1x64) hz2, View.ld_unit_zero (S := S2000x64) hz2, View.ld_unit_zero (S := S1x1) hz2,
    View.readCov_unit_zero (S := S1x1) _ hz2, View.canon_unit_zero (S := S1x1) hz2, View.canon_cons_unit_zero (S := S1x1) hz2]

set_option maxHeartbeats 2000000 in
theorem pieceB_s3 :
    VS1_3.read (Elt F) (VS1_3.writes (Elt F) VS1_3.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2 xs3 xs4 xs5).2.2.2.2.1)
      = k1_pay22 (k1_pay16 x5) xs3 := by
  rw [View.read_writes_eq_canon _ _ _ (View.cover_of_tiledL _ S1x1.size (by sl_kernel_rfl))]
  unfold kernelRun1_B
  dsimp only
  sl_unfold_words
  first | rw [View.canon_unit_zero hz2] | rw [View.canon_cons_unit_zero hz2]
  simp only [View.readAt_eq_ld, Memref.IsWhole.read_unread, View.ld_unit_zero (S := S2000x128) hz2, View.ld_unit_zero (S := S2000x1) hz2, View.ld_unit_zero (S := S1x128) hz2, View.ld_unit_zero (S := S128x256) hz2, View.ld_unit_zero (S := S1x256) hz2, View.ld_unit_zero (S := S256x64) hz2, View.ld_unit_zero (S := S1x64) hz2, View.ld_unit_zero (S := S2000x64) hz2, View.ld_unit_zero (S := S1x1) hz2,
    View.readCov_unit_zero (S := S1x1) _ hz2, View.canon_unit_zero (S := S1x1) hz2, View.canon_cons_unit_zero (S := S1x1) hz2]

set_option maxHeartbeats 2000000 in
theorem pieceB_s4 :
    VS1_4.read (Elt F) (VS1_4.writes (Elt F) VS1_4.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2 xs3 xs4 xs5).2.2.2.2.2.1)
      = k1_pay23 (k1_pay14 (k1_pay11 x0 x1 x2 x7 x8 x9 x10) (k1_pay12 x0 x1 x2 x7 x8 x9 x10) (k1_pay13 x0 x1 x2 x7 x8 x9 x10) x3) (k1_pay17 x6) xs4 := by
  rw [View.read_writes_eq_canon _ _ _ (View.cover_of_tiledL _ S1x1.size (by sl_kernel_rfl))]
  unfold kernelRun1_B
  dsimp only
  sl_unfold_words
  first | rw [View.canon_unit_zero hz2] | rw [View.canon_cons_unit_zero hz2]
  simp only [View.readAt_eq_ld, Memref.IsWhole.read_unread, View.ld_unit_zero (S := S2000x128) hz2, View.ld_unit_zero (S := S2000x1) hz2, View.ld_unit_zero (S := S1x128) hz2, View.ld_unit_zero (S := S128x256) hz2, View.ld_unit_zero (S := S1x256) hz2, View.ld_unit_zero (S := S256x64) hz2, View.ld_unit_zero (S := S1x64) hz2, View.ld_unit_zero (S := S2000x64) hz2, View.ld_unit_zero (S := S1x1) hz2,
    View.readCov_unit_zero (S := S1x1) _ hz2, View.canon_unit_zero (S := S1x1) hz2, View.canon_cons_unit_zero (S := S1x1) hz2]

set_option maxHeartbeats 2000000 in
theorem pieceB_s5 :
    VS1_5.read (Elt F) (VS1_5.writes (Elt F) VS1_5.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2 xs3 xs4 xs5).2.2.2.2.2.2.1)
      = k1_pay1 (k1_pay17 x6) xs5 := by
  rw [View.read_writes_eq_canon _ _ _ (View.cover_of_tiledL _ S1x1.size (by sl_kernel_rfl))]
  unfold kernelRun1_B
  dsimp only
  sl_unfold_words
  first | rw [View.canon_unit_zero hz2] | rw [View.canon_cons_unit_zero hz2]
  simp only [View.readAt_eq_ld, Memref.IsWhole.read_unread, View.ld_unit_zero (S := S2000x128) hz2, View.ld_unit_zero (S := S2000x1) hz2, View.ld_unit_zero (S := S1x128) hz2, View.ld_unit_zero (S := S128x256) hz2, View.ld_unit_zero (S := S1x256) hz2, View.ld_unit_zero (S := S256x64) hz2, View.ld_unit_zero (S := S1x64) hz2, View.ld_unit_zero (S := S2000x64) hz2, View.ld_unit_zero (S := S1x1) hz2,
    View.readCov_unit_zero (S := S1x1) _ hz2, View.canon_unit_zero (S := S1x1) hz2, View.canon_cons_unit_zero (S := S1x1) hz2]

end CaseB

section CaseC
variable (hc0 : ¬cond1_0 i) (hc1 : cond1_1 i)
    (x0 : Vec F S2000x128 .f32) (x1 : Vec F S2000x1 .f32) (x2 : Vec F S1x128 .f32) (x3 : Vec F S2000x1 .i32) (x4 : Vec F S2000x1 .f32) (x5 : Vec F S2000x1 .f32) (x6 : Vec F S2000x1 .f32) (x7 : Vec F S128x256 .f32) (x8 : Vec F S1x256 .f32) (x9 : Vec F S256x64 .f32) (x10 : Vec F S1x64 .f32) (xs0 xs1 xs2 xs3 xs4 xs5 : Vec F S1x1 .f32)

set_option maxHeartbeats 2000000 in
theorem pieceC_o11 :
    VO1_11.read (Elt F) (VO1_11.writes (Elt F) VO1_11.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2 xs3 xs4 xs5).1)
      = k1_pay11 x0 x1 x2 x7 x8 x9 x10 := by
  rw [View.read_writes_eq_canon _ _ _ (View.cover_of_tiledL _ S2000x64.size (by sl_kernel_rfl))]
  unfold kernelRun1_C
  dsimp only
  sl_unfold_words
  first | rw [View.canon_unit_zero hz2] | rw [View.canon_cons_unit_zero hz2]
  simp only [View.readAt_eq_ld, Memref.IsWhole.read_unread, View.ld_unit_zero (S := S2000x128) hz2, View.ld_unit_zero (S := S2000x1) hz2, View.ld_unit_zero (S := S1x128) hz2, View.ld_unit_zero (S := S128x256) hz2, View.ld_unit_zero (S := S1x256) hz2, View.ld_unit_zero (S := S256x64) hz2, View.ld_unit_zero (S := S1x64) hz2, View.ld_unit_zero (S := S2000x64) hz2, View.ld_unit_zero (S := S1x1) hz2,
    View.readCov_unit_zero (S := S1x1) _ hz2, View.canon_unit_zero (S := S1x1) hz2, View.canon_cons_unit_zero (S := S1x1) hz2]

set_option maxHeartbeats 2000000 in
theorem pieceC_o12 :
    VO1_12.read (Elt F) (VO1_12.writes (Elt F) VO1_12.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2 xs3 xs4 xs5).2.1)
      = k1_pay2 (k1_pay18 (k1_pay11 x0 x1 x2 x7 x8 x9 x10) (k1_pay12 x0 x1 x2 x7 x8 x9 x10) (k1_pay13 x0 x1 x2 x7 x8 x9 x10) x3 x4 xs0) (k1_pay20 xs1 (k1_pay19 x4)) := by
  rw [View.read_writes_eq_canon _ _ _ (View.cover_of_tiledL _ S1x1.size (by sl_kernel_rfl))]
  unfold kernelRun1_C
  dsimp only
  sl_unfold_words
  first | rw [View.canon_unit_zero hz2] | rw [View.canon_cons_unit_zero hz2]
  simp only [View.readAt_eq_ld, Memref.IsWhole.read_unread, View.ld_unit_zero (S := S2000x128) hz2, View.ld_unit_zero (S := S2000x1) hz2, View.ld_unit_zero (S := S1x128) hz2, View.ld_unit_zero (S := S128x256) hz2, View.ld_unit_zero (S := S1x256) hz2, View.ld_unit_zero (S := S256x64) hz2, View.ld_unit_zero (S := S1x64) hz2, View.ld_unit_zero (S := S2000x64) hz2, View.ld_unit_zero (S := S1x1) hz2,
    View.readCov_unit_zero (S := S1x1) _ hz2, View.canon_unit_zero (S := S1x1) hz2, View.canon_cons_unit_zero (S := S1x1) hz2]

set_option maxHeartbeats 2000000 in
theorem pieceC_o13 :
    VO1_13.read (Elt F) (VO1_13.writes (Elt F) VO1_13.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2 xs3 xs4 xs5).2.2.1)
      = k1_pay3 (k1_pay21 (k1_pay14 (k1_pay11 x0 x1 x2 x7 x8 x9 x10) (k1_pay12 x0 x1 x2 x7 x8 x9 x10) (k1_pay13 x0 x1 x2 x7 x8 x9 x10) x3) (k1_pay16 x5) xs2) (k1_pay22 (k1_pay16 x5) xs3) := by
  rw [View.read_writes_eq_canon _ _ _ (View.cover_of_tiledL _ S1x1.size (by sl_kernel_rfl))]
  unfold kernelRun1_C
  dsimp only
  sl_unfold_words
  first | rw [View.canon_unit_zero hz2] | rw [View.canon_cons_unit_zero hz2]
  simp only [View.readAt_eq_ld, Memref.IsWhole.read_unread, View.ld_unit_zero (S := S2000x128) hz2, View.ld_unit_zero (S := S2000x1) hz2, View.ld_unit_zero (S := S1x128) hz2, View.ld_unit_zero (S := S128x256) hz2, View.ld_unit_zero (S := S1x256) hz2, View.ld_unit_zero (S := S256x64) hz2, View.ld_unit_zero (S := S1x64) hz2, View.ld_unit_zero (S := S2000x64) hz2, View.ld_unit_zero (S := S1x1) hz2,
    View.readCov_unit_zero (S := S1x1) _ hz2, View.canon_unit_zero (S := S1x1) hz2, View.canon_cons_unit_zero (S := S1x1) hz2]

set_option maxHeartbeats 2000000 in
theorem pieceC_o14 :
    VO1_14.read (Elt F) (VO1_14.writes (Elt F) VO1_14.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2 xs3 xs4 xs5).2.2.2.1)
      = k1_pay4 (k1_pay23 (k1_pay14 (k1_pay11 x0 x1 x2 x7 x8 x9 x10) (k1_pay12 x0 x1 x2 x7 x8 x9 x10) (k1_pay13 x0 x1 x2 x7 x8 x9 x10) x3) (k1_pay17 x6) xs4) (k1_pay1 (k1_pay17 x6) xs5) := by
  rw [View.read_writes_eq_canon _ _ _ (View.cover_of_tiledL _ S1x1.size (by sl_kernel_rfl))]
  unfold kernelRun1_C
  dsimp only
  sl_unfold_words
  first | rw [View.canon_unit_zero hz2] | rw [View.canon_cons_unit_zero hz2]
  simp only [View.readAt_eq_ld, Memref.IsWhole.read_unread, View.ld_unit_zero (S := S2000x128) hz2, View.ld_unit_zero (S := S2000x1) hz2, View.ld_unit_zero (S := S1x128) hz2, View.ld_unit_zero (S := S128x256) hz2, View.ld_unit_zero (S := S1x256) hz2, View.ld_unit_zero (S := S256x64) hz2, View.ld_unit_zero (S := S1x64) hz2, View.ld_unit_zero (S := S2000x64) hz2, View.ld_unit_zero (S := S1x1) hz2,
    View.readCov_unit_zero (S := S1x1) _ hz2, View.canon_unit_zero (S := S1x1) hz2, View.canon_cons_unit_zero (S := S1x1) hz2]

set_option maxHeartbeats 2000000 in
theorem pieceC_s0 :
    VS1_0.read (Elt F) (VS1_0.writes (Elt F) VS1_0.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2 xs3 xs4 xs5).2.2.2.2.1)
      = k1_pay18 (k1_pay11 x0 x1 x2 x7 x8 x9 x10) (k1_pay12 x0 x1 x2 x7 x8 x9 x10) (k1_pay13 x0 x1 x2 x7 x8 x9 x10) x3 x4 xs0 := by
  rw [View.read_writes_eq_canon _ _ _ (View.cover_of_tiledL _ S1x1.size (by sl_kernel_rfl))]
  unfold kernelRun1_C
  dsimp only
  sl_unfold_words
  first | rw [View.canon_unit_zero hz2] | rw [View.canon_cons_unit_zero hz2]
  simp only [View.readAt_eq_ld, Memref.IsWhole.read_unread, View.ld_unit_zero (S := S2000x128) hz2, View.ld_unit_zero (S := S2000x1) hz2, View.ld_unit_zero (S := S1x128) hz2, View.ld_unit_zero (S := S128x256) hz2, View.ld_unit_zero (S := S1x256) hz2, View.ld_unit_zero (S := S256x64) hz2, View.ld_unit_zero (S := S1x64) hz2, View.ld_unit_zero (S := S2000x64) hz2, View.ld_unit_zero (S := S1x1) hz2,
    View.readCov_unit_zero (S := S1x1) _ hz2, View.canon_unit_zero (S := S1x1) hz2, View.canon_cons_unit_zero (S := S1x1) hz2]

set_option maxHeartbeats 2000000 in
theorem pieceC_s1 :
    VS1_1.read (Elt F) (VS1_1.writes (Elt F) VS1_1.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2 xs3 xs4 xs5).2.2.2.2.2.1)
      = k1_pay20 xs1 (k1_pay19 x4) := by
  rw [View.read_writes_eq_canon _ _ _ (View.cover_of_tiledL _ S1x1.size (by sl_kernel_rfl))]
  unfold kernelRun1_C
  dsimp only
  sl_unfold_words
  first | rw [View.canon_unit_zero hz2] | rw [View.canon_cons_unit_zero hz2]
  simp only [View.readAt_eq_ld, Memref.IsWhole.read_unread, View.ld_unit_zero (S := S2000x128) hz2, View.ld_unit_zero (S := S2000x1) hz2, View.ld_unit_zero (S := S1x128) hz2, View.ld_unit_zero (S := S128x256) hz2, View.ld_unit_zero (S := S1x256) hz2, View.ld_unit_zero (S := S256x64) hz2, View.ld_unit_zero (S := S1x64) hz2, View.ld_unit_zero (S := S2000x64) hz2, View.ld_unit_zero (S := S1x1) hz2,
    View.readCov_unit_zero (S := S1x1) _ hz2, View.canon_unit_zero (S := S1x1) hz2, View.canon_cons_unit_zero (S := S1x1) hz2]

set_option maxHeartbeats 2000000 in
theorem pieceC_s2 :
    VS1_2.read (Elt F) (VS1_2.writes (Elt F) VS1_2.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2 xs3 xs4 xs5).2.2.2.2.2.2.1)
      = k1_pay21 (k1_pay14 (k1_pay11 x0 x1 x2 x7 x8 x9 x10) (k1_pay12 x0 x1 x2 x7 x8 x9 x10) (k1_pay13 x0 x1 x2 x7 x8 x9 x10) x3) (k1_pay16 x5) xs2 := by
  rw [View.read_writes_eq_canon _ _ _ (View.cover_of_tiledL _ S1x1.size (by sl_kernel_rfl))]
  unfold kernelRun1_C
  dsimp only
  sl_unfold_words
  first | rw [View.canon_unit_zero hz2] | rw [View.canon_cons_unit_zero hz2]
  simp only [View.readAt_eq_ld, Memref.IsWhole.read_unread, View.ld_unit_zero (S := S2000x128) hz2, View.ld_unit_zero (S := S2000x1) hz2, View.ld_unit_zero (S := S1x128) hz2, View.ld_unit_zero (S := S128x256) hz2, View.ld_unit_zero (S := S1x256) hz2, View.ld_unit_zero (S := S256x64) hz2, View.ld_unit_zero (S := S1x64) hz2, View.ld_unit_zero (S := S2000x64) hz2, View.ld_unit_zero (S := S1x1) hz2,
    View.readCov_unit_zero (S := S1x1) _ hz2, View.canon_unit_zero (S := S1x1) hz2, View.canon_cons_unit_zero (S := S1x1) hz2]

set_option maxHeartbeats 2000000 in
theorem pieceC_s3 :
    VS1_3.read (Elt F) (VS1_3.writes (Elt F) VS1_3.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2 xs3 xs4 xs5).2.2.2.2.2.2.2.1)
      = k1_pay22 (k1_pay16 x5) xs3 := by
  rw [View.read_writes_eq_canon _ _ _ (View.cover_of_tiledL _ S1x1.size (by sl_kernel_rfl))]
  unfold kernelRun1_C
  dsimp only
  sl_unfold_words
  first | rw [View.canon_unit_zero hz2] | rw [View.canon_cons_unit_zero hz2]
  simp only [View.readAt_eq_ld, Memref.IsWhole.read_unread, View.ld_unit_zero (S := S2000x128) hz2, View.ld_unit_zero (S := S2000x1) hz2, View.ld_unit_zero (S := S1x128) hz2, View.ld_unit_zero (S := S128x256) hz2, View.ld_unit_zero (S := S1x256) hz2, View.ld_unit_zero (S := S256x64) hz2, View.ld_unit_zero (S := S1x64) hz2, View.ld_unit_zero (S := S2000x64) hz2, View.ld_unit_zero (S := S1x1) hz2,
    View.readCov_unit_zero (S := S1x1) _ hz2, View.canon_unit_zero (S := S1x1) hz2, View.canon_cons_unit_zero (S := S1x1) hz2]

set_option maxHeartbeats 2000000 in
theorem pieceC_s4 :
    VS1_4.read (Elt F) (VS1_4.writes (Elt F) VS1_4.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2 xs3 xs4 xs5).2.2.2.2.2.2.2.2.1)
      = k1_pay23 (k1_pay14 (k1_pay11 x0 x1 x2 x7 x8 x9 x10) (k1_pay12 x0 x1 x2 x7 x8 x9 x10) (k1_pay13 x0 x1 x2 x7 x8 x9 x10) x3) (k1_pay17 x6) xs4 := by
  rw [View.read_writes_eq_canon _ _ _ (View.cover_of_tiledL _ S1x1.size (by sl_kernel_rfl))]
  unfold kernelRun1_C
  dsimp only
  sl_unfold_words
  first | rw [View.canon_unit_zero hz2] | rw [View.canon_cons_unit_zero hz2]
  simp only [View.readAt_eq_ld, Memref.IsWhole.read_unread, View.ld_unit_zero (S := S2000x128) hz2, View.ld_unit_zero (S := S2000x1) hz2, View.ld_unit_zero (S := S1x128) hz2, View.ld_unit_zero (S := S128x256) hz2, View.ld_unit_zero (S := S1x256) hz2, View.ld_unit_zero (S := S256x64) hz2, View.ld_unit_zero (S := S1x64) hz2, View.ld_unit_zero (S := S2000x64) hz2, View.ld_unit_zero (S := S1x1) hz2,
    View.readCov_unit_zero (S := S1x1) _ hz2, View.canon_unit_zero (S := S1x1) hz2, View.canon_cons_unit_zero (S := S1x1) hz2]

set_option maxHeartbeats 2000000 in
theorem pieceC_s5 :
    VS1_5.read (Elt F) (VS1_5.writes (Elt F) VS1_5.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2 xs3 xs4 xs5).2.2.2.2.2.2.2.2.2.1)
      = k1_pay1 (k1_pay17 x6) xs5 := by
  rw [View.read_writes_eq_canon _ _ _ (View.cover_of_tiledL _ S1x1.size (by sl_kernel_rfl))]
  unfold kernelRun1_C
  dsimp only
  sl_unfold_words
  first | rw [View.canon_unit_zero hz2] | rw [View.canon_cons_unit_zero hz2]
  simp only [View.readAt_eq_ld, Memref.IsWhole.read_unread, View.ld_unit_zero (S := S2000x128) hz2, View.ld_unit_zero (S := S2000x1) hz2, View.ld_unit_zero (S := S1x128) hz2, View.ld_unit_zero (S := S128x256) hz2, View.ld_unit_zero (S := S1x256) hz2, View.ld_unit_zero (S := S256x64) hz2, View.ld_unit_zero (S := S1x64) hz2, View.ld_unit_zero (S := S2000x64) hz2, View.ld_unit_zero (S := S1x1) hz2,
    View.readCov_unit_zero (S := S1x1) _ hz2, View.canon_unit_zero (S := S1x1) hz2, View.canon_cons_unit_zero (S := S1x1) hz2]

end CaseC
end Pieces

end Cert.KernelIdeal.Fr

end
-- ==== Proof.KI.Val1a.lean ====
/-
  What the second region's written buffers hold after each grid point, as the body's arithmetic on that point's blocks and on what
  the point before left in the accumulators.
-/
import proofs.«406391_j32650341384625_4_alg».proof.Proof.KI.R1Core
import proofs.«406391_j32650341384625_4_alg».proof.Proof.KI.Pieces1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

theorem hc1_of_first (t : Fin cfg1.N) (h0 : t.val % 25 = 0) : ¬cond1_1 (grid1.coords t) := fun h => by
  have h' := (hcond1_1 t).mp h
  have hN : t.val < 25 := lt_of_lt_of_eq t.isLt (show cfg1.N = 25 from N_1)
  omega

set_option maxHeartbeats 1000000 in
theorem outs_o11 (c : Dev nD) (t : Fin cfg1.N) :
    (outsAt1 V c t.val t.isLt).o11 = k1_pay11 (iblk1 V c 0 t) (iblk1 V c 1 t) (iblk1 V c 2 t) (iblk1 V c 7 t) (iblk1 V c 8 t) (iblk1 V c 9 t) (iblk1 V c 10 t) := by
  by_cases h0 : t.val % 25 = 0
  · have hc1 := hc1_of_first t h0
    rw [outsAt1_A V c t h0 hc1]; unfold caseA; dsimp only
    exact pieceA_o11 (F := F) ..
  · by_cases h1 : t.val % 25 = 24
    ·
      rw [outsAt1_C V c t h0 h1]; unfold caseC; dsimp only
      exact pieceC_o11 (F := F) ..
    ·
      rw [outsAt1_B V c t h0 h1]; unfold caseB; dsimp only
      exact pieceB_o11 (F := F) ..

set_option maxHeartbeats 1000000 in
theorem outs_s0_first (c : Dev nD) (t : Fin cfg1.N) (h0 : t.val % 25 = 0) :
    (outsAt1 V c t.val t.isLt).s0 = k1_pay18 (k1_pay11 (iblk1 V c 0 t) (iblk1 V c 1 t) (iblk1 V c 2 t) (iblk1 V c 7 t) (iblk1 V c 8 t) (iblk1 V c 9 t) (iblk1 V c 10 t)) (k1_pay12 (iblk1 V c 0 t) (iblk1 V c 1 t) (iblk1 V c 2 t) (iblk1 V c 7 t) (iblk1 V c 8 t) (iblk1 V c 9 t) (iblk1 V c 10 t)) (k1_pay13 (iblk1 V c 0 t) (iblk1 V c 1 t) (iblk1 V c 2 t) (iblk1 V c 7 t) (iblk1 V c 8 t) (iblk1 V c 9 t) (iblk1 V c 10 t)) (iblk1 V c 3 t) (iblk1 V c 4 t) (k1_pay5 (F := F)) := by
  have hc1 := hc1_of_first t h0
  rw [outsAt1_A V c t h0 hc1]; unfold caseA; dsimp only
  exact pieceA_s0 (F := F) ..

set_option maxHeartbeats 1000000 in
theorem outs_s0_later (c : Dev nD) (t : Fin cfg1.N) (h0 : ¬t.val % 25 = 0) :
    (outsAt1 V c t.val t.isLt).s0 = k1_pay18 (k1_pay11 (iblk1 V c 0 t) (iblk1 V c 1 t) (iblk1 V c 2 t) (iblk1 V c 7 t) (iblk1 V c 8 t) (iblk1 V c 9 t) (iblk1 V c 10 t)) (k1_pay12 (iblk1 V c 0 t) (iblk1 V c 1 t) (iblk1 V c 2 t) (iblk1 V c 7 t) (iblk1 V c 8 t) (iblk1 V c 9 t) (iblk1 V c 10 t)) (k1_pay13 (iblk1 V c 0 t) (iblk1 V c 1 t) (iblk1 V c 2 t) (iblk1 V c 7 t) (iblk1 V c 8 t) (iblk1 V c 9 t) (iblk1 V c 10 t)) (iblk1 V c 3 t) (iblk1 V c 4 t) (outsAt1 V c (t.val - 1) (Nat.lt_of_le_of_lt (Nat.sub_le _ _) t.isLt)).s0 := by
  by_cases h1 : t.val % 25 = 24
  ·
    rw [outsAt1_C V c t h0 h1]; unfold caseC; dsimp only
    exact pieceC_s0 (F := F) ..
  ·
    rw [outsAt1_B V c t h0 h1]; unfold caseB; dsimp only
    exact pieceB_s0 (F := F) ..

set_option maxHeartbeats 1000000 in
theorem outs_s1_first (c : Dev nD) (t : Fin cfg1.N) (h0 : t.val % 25 = 0) :
    (outsAt1 V c t.val t.isLt).s1 = k1_pay20 (k1_pay6 (F := F)) (k1_pay19 (iblk1 V c 4 t)) := by
  have hc1 := hc1_of_first t h0
  rw [outsAt1_A V c t h0 hc1]; unfold caseA; dsimp only
  exact pieceA_s1 (F := F) ..

set_option maxHeartbeats 1000000 in
theorem outs_s1_later (c : Dev nD) (t : Fin cfg1.N) (h0 : ¬t.val % 25 = 0) :
    (outsAt1 V c t.val t.isLt).s1 = k1_pay20 (outsAt1 V c (t.val - 1) (Nat.lt_of_le_of_lt (Nat.sub_le _ _) t.isLt)).s1 (k1_pay19 (iblk1 V c 4 t)) := by
  by_cases h1 : t.val % 25 = 24
  ·
    rw [outsAt1_C V c t h0 h1]; unfold caseC; dsimp only
    exact pieceC_s1 (F := F) ..
  ·
    rw [outsAt1_B V c t h0 h1]; unfold caseB; dsimp only
    exact pieceB_s1 (F := F) ..

set_option maxHeartbeats 1000000 in
theorem outs_s2_first (c : Dev nD) (t : Fin cfg1.N) (h0 : t.val % 25 = 0) :
    (outsAt1 V c t.val t.isLt).s2 = k1_pay21 (k1_pay14 (k1_pay11 (iblk1 V c 0 t) (iblk1 V c 1 t) (iblk1 V c 2 t) (iblk1 V c 7 t) (iblk1 V c 8 t) (iblk1 V c 9 t) (iblk1 V c 10 t)) (k1_pay12 (iblk1 V c 0 t) (iblk1 V c 1 t) (iblk1 V c 2 t) (iblk1 V c 7 t) (iblk1 V c 8 t) (iblk1 V c 9 t) (iblk1 V c 10 t)) (k1_pay13 (iblk1 V c 0 t) (iblk1 V c 1 t) (iblk1 V c 2 t) (iblk1 V c 7 t) (iblk1 V c 8 t) (iblk1 V c 9 t) (iblk1 V c 10 t)) (iblk1 V c 3 t)) (k1_pay16 (iblk1 V c 5 t)) (k1_pay7 (F := F)) := by
  have hc1 := hc1_of_first t h0
  rw [outsAt1_A V c t h0 hc1]; unfold caseA; dsimp only
  exact pieceA_s2 (F := F) ..

set_option maxHeartbeats 1000000 in
theorem outs_s2_later (c : Dev nD) (t : Fin cfg1.N) (h0 : ¬t.val % 25 = 0) :
    (outsAt1 V c t.val t.isLt).s2 = k1_pay21 (k1_pay14 (k1_pay11 (iblk1 V c 0 t) (iblk1 V c 1 t) (iblk1 V c 2 t) (iblk1 V c 7 t) (iblk1 V c 8 t) (iblk1 V c 9 t) (iblk1 V c 10 t)) (k1_pay12 (iblk1 V c 0 t) (iblk1 V c 1 t) (iblk1 V c 2 t) (iblk1 V c 7 t) (iblk1 V c 8 t) (iblk1 V c 9 t) (iblk1 V c 10 t)) (k1_pay13 (iblk1 V c 0 t) (iblk1 V c 1 t) (iblk1 V c 2 t) (iblk1 V c 7 t) (iblk1 V c 8 t) (iblk1 V c 9 t) (iblk1 V c 10 t)) (iblk1 V c 3 t)) (k1_pay16 (iblk1 V c 5 t)) (outsAt1 V c (t.val - 1) (Nat.lt_of_le_of_lt (Nat.sub_le _ _) t.isLt)).s2 := by
  by_cases h1 : t.val % 25 = 24
  ·
    rw [outsAt1_C V c t h0 h1]; unfold caseC; dsimp only
    exact pieceC_s2 (F := F) ..
  ·
    rw [outsAt1_B V c t h0 h1]; unfold caseB; dsimp only
    exact pieceB_s2 (F := F) ..

set_option maxHeartbeats 1000000 in
theorem outs_s3_first (c : Dev nD) (t : Fin cfg1.N) (h0 : t.val % 25 = 0) :
    (outsAt1 V c t.val t.isLt).s3 = k1_pay22 (k1_pay16 (iblk1 V c 5 t)) (k1_pay8 (F := F)) := by
  have hc1 := hc1_of_first t h0
  rw [outsAt1_A V c t h0 hc1]; unfold caseA; dsimp only
  exact pieceA_s3 (F := F) ..

set_option maxHeartbeats 1000000 in
theorem outs_s3_later (c : Dev nD) (t : Fin cfg1.N) (h0 : ¬t.val % 25 = 0) :
    (outsAt1 V c t.val t.isLt).s3 = k1_pay22 (k1_pay16 (iblk1 V c 5 t)) (outsAt1 V c (t.val - 1) (Nat.lt_of_le_of_lt (Nat.sub_le _ _) t.isLt)).s3 := by
  by_cases h1 : t.val % 25 = 24
  ·
    rw [outsAt1_C V c t h0 h1]; unfold caseC; dsimp only
    exact pieceC_s3 (F := F) ..
  ·
    rw [outsAt1_B V c t h0 h1]; unfold caseB; dsimp only
    exact pieceB_s3 (F := F) ..

set_option maxHeartbeats 1000000 in
theorem outs_s4_first (c : Dev nD) (t : Fin cfg1.N) (h0 : t.val % 25 = 0) :
    (outsAt1 V c t.val t.isLt).s4 = k1_pay23 (k1_pay14 (k1_pay11 (iblk1 V c 0 t) (iblk1 V c 1 t) (iblk1 V c 2 t) (iblk1 V c 7 t) (iblk1 V c 8 t) (iblk1 V c 9 t) (iblk1 V c 10 t)) (k1_pay12 (iblk1 V c 0 t) (iblk1 V c 1 t) (iblk1 V c 2 t) (iblk1 V c 7 t) (iblk1 V c 8 t) (iblk1 V c 9 t) (iblk1 V c 10 t)) (k1_pay13 (iblk1 V c 0 t) (iblk1 V c 1 t) (iblk1 V c 2 t) (iblk1 V c 7 t) (iblk1 V c 8 t) (iblk1 V c 9 t) (iblk1 V c 10 t)) (iblk1 V c 3 t)) (k1_pay17 (iblk1 V c 6 t)) (k1_pay9 (F := F)) := by
  have hc1 := hc1_of_first t h0
  rw [outsAt1_A V c t h0 hc1]; unfold caseA; dsimp only
  exact pieceA_s4 (F := F) ..

set_option maxHeartbeats 1000000 in
theorem outs_s4_later (c : Dev nD) (t : Fin cfg1.N) (h0 : ¬t.val % 25 = 0) :
    (outsAt1 V c t.val t.isLt).s4 = k1_pay23 (k1_pay14 (k1_pay11 (iblk1 V c 0 t) (iblk1 V c 1 t) (iblk1 V c 2 t) (iblk1 V c 7 t) (iblk1 V c 8 t) (iblk1 V c 9 t) (iblk1 V c 10 t)) (k1_pay12 (iblk1 V c 0 t) (iblk1 V c 1 t) (iblk1 V c 2 t) (iblk1 V c 7 t) (iblk1 V c 8 t) (iblk1 V c 9 t) (iblk1 V c 10 t)) (k1_pay13 (iblk1 V c 0 t) (iblk1 V c 1 t) (iblk1 V c 2 t) (iblk1 V c 7 t) (iblk1 V c 8 t) (iblk1 V c 9 t) (iblk1 V c 10 t)) (iblk1 V c 3 t)) (k1_pay17 (iblk1 V c 6 t)) (outsAt1 V c (t.val - 1) (Nat.lt_of_le_of_lt (Nat.sub_le _ _) t.isLt)).s4 := by
  by_cases h1 : t.val % 25 = 24
  ·
    rw [outsAt1_C V c t h0 h1]; unfold caseC; dsimp only
    exact pieceC_s4 (F := F) ..
  ·
    rw [outsAt1_B V c t h0 h1]; unfold caseB; dsimp only
    exact pieceB_s4 (F := F) ..

set_option maxHeartbeats 1000000 in
theorem outs_s5_first (c : Dev nD) (t : Fin cfg1.N) (h0 : t.val % 25 = 0) :
    (outsAt1 V c t.val t.isLt).s5 = k1_pay1 (k1_pay17 (iblk1 V c 6 t)) (k1_pay10 (F := F)) := by
  have hc1 := hc1_of_first t h0
  rw [outsAt1_A V c t h0 hc1]; unfold caseA; dsimp only
  exact pieceA_s5 (F := F) ..

set_option maxHeartbeats 1000000 in
theorem outs_s5_later (c : Dev nD) (t : Fin cfg1.N) (h0 : ¬t.val % 25 = 0) :
    (outsAt1 V c t.val t.isLt).s5 = k1_pay1 (k1_pay17 (iblk1 V c 6 t)) (outsAt1 V c (t.val - 1) (Nat.lt_of_le_of_lt (Nat.sub_le _ _) t.isLt)).s5 := by
  by_cases h1 : t.val % 25 = 24
  ·
    rw [outsAt1_C V c t h0 h1]; unfold caseC; dsimp only
    exact pieceC_s5 (F := F) ..
  ·
    rw [outsAt1_B V c t h0 h1]; unfold caseB; dsimp only
    exact pieceB_s5 (F := F) ..

set_option maxHeartbeats 1000000 in
theorem outs_o12_last (c : Dev nD) (t : Fin cfg1.N) (h0 : ¬t.val % 25 = 0) (h1 : t.val % 25 = 24) :
    (outsAt1 V c t.val t.isLt).o12 = k1_pay2 (outsAt1 V c t.val t.isLt).s0 (outsAt1 V c t.val t.isLt).s1 := by
  rw [outsAt1_C V c t h0 h1]; unfold caseC; dsimp only
  exact (pieceC_o12 (F := F) ..).trans (congrArg₂ (k1_pay2 (F := F)) (pieceC_s0 (F := F) ..).symm (pieceC_s1 (F := F) ..).symm)

set_option maxHeartbeats 1000000 in
theorem outs_o13_last (c : Dev nD) (t : Fin cfg1.N) (h0 : ¬t.val % 25 = 0) (h1 : t.val % 25 = 24) :
    (outsAt1 V c t.val t.isLt).o13 = k1_pay3 (outsAt1 V c t.val t.isLt).s2 (outsAt1 V c t.val t.isLt).s3 := by
  rw [outsAt1_C V c t h0 h1]; unfold caseC; dsimp only
  exact (pieceC_o13 (F := F) ..).trans (congrArg₂ (k1_pay3 (F := F)) (pieceC_s2 (F := F) ..).symm (pieceC_s3 (F := F) ..).symm)

set_option maxHeartbeats 1000000 in
theorem outs_o14_last (c : Dev nD) (t : Fin cfg1.N) (h0 : ¬t.val % 25 = 0) (h1 : t.val % 25 = 24) :
    (outsAt1 V c t.val t.isLt).o14 = k1_pay4 (outsAt1 V c t.val t.isLt).s4 (outsAt1 V c t.val t.isLt).s5 := by
  rw [outsAt1_C V c t h0 h1]; unfold caseC; dsimp only
  exact (pieceC_o14 (F := F) ..).trans (congrArg₂ (k1_pay4 (F := F)) (pieceC_s4 (F := F) ..).symm (pieceC_s5 (F := F) ..).symm)

end Region

end Cert.KernelIdeal.Fr

end
-- ==== Proof.KI.Pay1.lean ====
/-
  The second region's arithmetic read at an index over the extended reals: the class scores of a row, the row maximum and sum of
  exponentials of the log-softmax, the row loss as a one-hot sum over 64 lanes, and the six running sums with their three quotients.
-/
import proofs.«406391_j32650341384625_4_alg».proof.Proof.Gen.KernelIdeal.Skeleton
import proofs.«406391_j32650341384625_4_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Cert.KernelIdeal Cert.KernelIdeal.Gen
open Idealize.ShloMosaic Idealize.SL.Sem
open Idealize.ShloMosaic.ValueIdx
open scoped BigOperators

theorem bcast_col_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem cast_col_apply {α : Type} {a : ℕ} (v : (⟨1, ![a]⟩ : Shape).Idx → α) (h : (⟨1, ![a]⟩ : Shape).ShapeCasts ⟨2, ![a, 1]⟩)
    (p : Fin a) : shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

theorem scalar_zero : (Scalar.ofBits (F := Ideal) .f32 0x00000000#32) = (0 : EReal) := Ideal.ofBits_zero_f32

theorem lhs_mm1_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_mm1_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs_mm1_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_mm1_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

theorem mm1_apply (x0 : FVec Ideal S2000x128 .f32) (x1 : FVec Ideal S128x256 .f32) (p : Fin 2000) (q : Fin 256) :
    matmul dot_S2000x128_S128x256_S2000x256_1_0_0_1_n_n (some .fp32) x0 x1 (constant (F := Ideal) S2000x256 .f32 0x00000000#32) (ix2 p q)
      = ∑ k : Fin 128, x0 (ix2 p k) * x1 (ix2 k q) := by
  simp only [matmul]
  rw [Ideal.matmul_constant_zero_apply, ← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ix2 p q) ((ValueIdx.contrEquiv1 dot_S2000x128_S128x256_S2000x256_1_0_0_1_n_n 128 rfl rfl).symm k) = ix2 p k := funext fun a => Fin.ext (by
    match a with
    | ⟨0, _⟩ => exact lhs_mm1_0 _ _
    | ⟨1, _⟩ => exact (lhs_mm1_1 _ _).trans hk)
  have er : dot_S2000x128_S128x256_S2000x256_1_0_0_1_n_n.rhsIdx (ix2 p q) ((ValueIdx.contrEquiv1 dot_S2000x128_S128x256_S2000x256_1_0_0_1_n_n 128 rfl rfl).symm k) = ix2 k q := funext fun a => Fin.ext (by
    match a with
    | ⟨0, _⟩ => exact (rhs_mm1_0 _ _).trans hk
    | ⟨1, _⟩ => exact rhs_mm1_1 _ _)
  rw [el, er]

theorem lhs_mm2_0 (i : S2000x64.Idx) (q : dot_S2000x256_S256x64_S2000x64_1_0_0_1_n_n.contr.Idx) :
    (dot_S2000x256_S256x64_S2000x64_1_0_0_1_n_n.lhsIdx i q 0).val = (i 0).val := by
  unfold DotDims.lhsIdx
  rw [dif_neg (show ¬(0 : Fin S2000x256.rank) ∈ dot_S2000x256_S256x64_S2000x64_1_0_0_1_n_n.lhsBatch by decide), dif_pos (show (0 : Fin S2000x256.rank) ∈ dot_S2000x256_S256x64_S2000x64_1_0_0_1_n_n.lhsNonContracting by decide)]
  rfl
theorem lhs_mm2_1 (i : S2000x64.Idx) (q : dot_S2000x256_S256x64_S2000x64_1_0_0_1_n_n.contr.Idx) :
    (dot_S2000x256_S256x64_S2000x64_1_0_0_1_n_n.lhsIdx i q 1).val = (q ⟨0, by decide⟩).val :=
  dot_S2000x256_S256x64_S2000x64_1_0_0_1_n_n.lhsIdx_val_of_single rfl i q
theorem rhs_mm2_0 (i : S2000x64.Idx) (q : dot_S2000x256_S256x64_S2000x64_1_0_0_1_n_n.contr.Idx) :
    (dot_S2000x256_S256x64_S2000x64_1_0_0_1_n_n.rhsIdx i q 0).val = (q ⟨0, by decide⟩).val :=
  dot_S2000x256_S256x64_S2000x64_1_0_0_1_n_n.rhsIdx_val_of_single rfl i q
theorem rhs_mm2_1 (i : S2000x64.Idx) (q : dot_S2000x256_S256x64_S2000x64_1_0_0_1_n_n.contr.Idx) :
    (dot_S2000x256_S256x64_S2000x64_1_0_0_1_n_n.rhsIdx i q 1).val = (i 1).val := by
  unfold DotDims.rhsIdx
  rw [dif_neg (show ¬(1 : Fin S256x64.rank) ∈ dot_S2000x256_S256x64_S2000x64_1_0_0_1_n_n.rhsBatch by decide), dif_pos (show (1 : Fin S256x64.rank) ∈ dot_S2000x256_S256x64_S2000x64_1_0_0_1_n_n.rhsNonContracting by decide)]
  rfl

theorem mm2_apply (x0 : FVec Ideal S2000x256 .f32) (x1 : FVec Ideal S256x64 .f32) (p : Fin 2000) (q : Fin 64) :
    matmul dot_S2000x256_S256x64_S2000x64_1_0_0_1_n_n (some .fp32) x0 x1 (constant (F := Ideal) S2000x64 .f32 0x00000000#32) (ix2 p q)
      = ∑ k : Fin 256, x0 (ix2 p k) * x1 (ix2 k q) := by
  simp only [matmul]
  rw [Ideal.matmul_constant_zero_apply, ← Equiv.sum_comp (ValueIdx.contrEquiv1 dot_S2000x256_S256x64_S2000x64_1_0_0_1_n_n 256 rfl rfl).symm]
  refine Finset.sum_congr rfl fun k _ => ?_
  have hk := ValueIdx.contrEquiv1_symm_val dot_S2000x256_S256x64_S2000x64_1_0_0_1_n_n 256 rfl rfl k
  have el : dot_S2000x256_S256x64_S2000x64_1_0_0_1_n_n.lhsIdx (ix2 p q) ((ValueIdx.contrEquiv1 dot_S2000x256_S256x64_S2000x64_1_0_0_1_n_n 256 rfl rfl).symm k) = ix2 p k := funext fun a => Fin.ext (by
    match a with
    | ⟨0, _⟩ => exact lhs_mm2_0 _ _
    | ⟨1, _⟩ => exact (lhs_mm2_1 _ _).trans hk)
  have er : dot_S2000x256_S256x64_S2000x64_1_0_0_1_n_n.rhsIdx (ix2 p q) ((ValueIdx.contrEquiv1 dot_S2000x256_S256x64_S2000x64_1_0_0_1_n_n 256 rfl rfl).symm k) = ix2 k q := funext fun a => Fin.ext (by
    match a with
    | ⟨0, _⟩ => exact (rhs_mm2_0 _ _).trans hk
    | ⟨1, _⟩ => exact rhs_mm2_1 _ _)
  rw [el, er]

theorem pay11_apply (v3 : Vec Ideal S2000x128 .f32) (v5 : Vec Ideal S2000x1 .f32) (v9 : Vec Ideal S1x128 .f32) (v13 : Vec Ideal S128x256 .f32)
    (v15 : Vec Ideal S1x256 .f32) (v21 : Vec Ideal S256x64 .f32) (v23 : Vec Ideal S1x64 .f32) (p : Fin 2000) (q : Fin 64) :
    k1_pay11 v3 v5 v9 v13 v15 v21 v23 (ix2 p q)
      = (∑ k : Fin 256, max ((∑ k' : Fin 128, (v3 (ix2 p k') * v5 (ix2 p (0 : Fin 1)) + v9 (ix2 (0 : Fin 1) k')) * v13 (ix2 k' k)) + v15 (ix2 (0 : Fin 1) k)) 0
          * v21 (ix2 k q)) + v23 (ix2 (0 : Fin 1) q) := by
  unfold k1_pay11
  simp only [shapeCast_self]
  rw [addf_apply, mm2_apply, broadcastTo_1b_ab_apply]
  congr 1
  refine Finset.sum_congr rfl fun k _ => ?_
  rw [maximumf_apply, addf_apply, mm1_apply, broadcastTo_1b_ab_apply, broadcast_apply, scalar_zero]
  congr 2
  congr 1
  refine Finset.sum_congr rfl fun k' _ => ?_
  rw [addf_apply, mulf_apply, bcast_col_apply, broadcastTo_1b_ab_apply]

theorem ofBits_neg_inf_f32 : Ideal.ofBits .f32 0xFF800000#32 = (⊥ : EReal) := by simp [Ideal.ofBits, Ideal.ieee]

theorem lift_row (p : Fin 2000) (q : Fin 64) : reduces_S2000x64_S2000.lift (ix1 p) q = ix2 p q := by
  funext c; apply Fin.ext
  match c with
  | ⟨0, _⟩ => rfl
  | ⟨1, _⟩ => rfl

theorem rowsum_apply (src : FVec Ideal S2000x64 .f32) (hφ : FKind.Formats .f32)
    (hacc : (0x00000000#32 : BitVec 32) = FKind.add.neutral .f32 hφ) (p : Fin 2000) :
    multiReduction .add [1] S2000 src 0x00000000#32 reduces_S2000x64_S2000 hφ hacc (ix1 p) = ∑ q : Fin 64, src (ix2 p q) :=
  (Ideal.multiReduction_add_single src _ reduces_S2000x64_S2000 hφ hacc (ix1 p)).trans
    (Finset.sum_congr rfl fun q _ => congrArg src (lift_row p q))

theorem rowmax_apply (src : FVec Ideal S2000x64 .f32) (hφ : FKind.Formats .f32)
    (hacc : (0xFF800000#32 : BitVec 32) = FKind.maximumf.neutral .f32 hφ) (p : Fin 2000) :
    multiReduction .maximumf [1] S2000 src 0xFF800000#32 reduces_S2000x64_S2000 hφ hacc (ix1 p)
      = Finset.univ.sup (fun q : Fin 64 => src (ix2 p q)) := by
  refine (Ideal.multiReduction_maximumf_single src _ reduces_S2000x64_S2000 hφ hacc (ix1 p)).trans ?_
  have e : (src ∘ reduces_S2000x64_S2000.lift (ix1 p)) = fun q : Fin 64 => src (ix2 p q) :=
    funext fun q => congrArg src (lift_row p q)
  refine (congrArg (fun f : Fin 64 → EReal => (Finset.univ : Finset (Fin 64)).fold max (Ideal.ofBits .f32 0xFF800000#32) f) e).trans ?_
  show (Finset.univ : Finset (Fin 64)).fold max (Ideal.ofBits .f32 0xFF800000#32) (fun q : Fin 64 => src (ix2 p q)) = _
  rw [ofBits_neg_inf_f32]
  rfl

theorem exp_apply {s : Shape} (x : FVec Ideal s .f32) (i : s.Idx) : exp x i = Ideal.exp (x i) := rfl
theorem log_apply {s : Shape} (x : FVec Ideal s .f32) (i : s.Idx) : log x i = Ideal.log (x i) := rfl

theorem pay12_apply (v3 : Vec Ideal S2000x128 .f32) (v5 : Vec Ideal S2000x1 .f32) (v9 : Vec Ideal S1x128 .f32) (v13 : Vec Ideal S128x256 .f32)
    (v15 : Vec Ideal S1x256 .f32) (v21 : Vec Ideal S256x64 .f32) (v23 : Vec Ideal S1x64 .f32) (p : Fin 2000) :
    k1_pay12 v3 v5 v9 v13 v15 v21 v23 (ix2 p (0 : Fin 1))
      = Finset.univ.sup (fun q : Fin 64 => k1_pay11 v3 v5 v9 v13 v15 v21 v23 (ix2 p q)) := by
  unfold k1_pay12
  refine (cast_col_apply _ _ p).trans ?_
  exact rowmax_apply _ _ _ p

theorem pay13_apply (v3 : Vec Ideal S2000x128 .f32) (v5 : Vec Ideal S2000x1 .f32) (v9 : Vec Ideal S1x128 .f32) (v13 : Vec Ideal S128x256 .f32)
    (v15 : Vec Ideal S1x256 .f32) (v21 : Vec Ideal S256x64 .f32) (v23 : Vec Ideal S1x64 .f32) (p : Fin 2000) :
    k1_pay13 v3 v5 v9 v13 v15 v21 v23 (ix1 p)
      = ∑ q : Fin 64, Ideal.exp (k1_pay11 v3 v5 v9 v13 v15 v21 v23 (ix2 p q) - k1_pay12 v3 v5 v9 v13 v15 v21 v23 (ix2 p (0 : Fin 1))) := by
  unfold k1_pay13
  refine (rowsum_apply _ _ _ p).trans ?_
  refine Finset.sum_congr rfl fun q _ => ?_
  rw [exp_apply, subf_apply, bcast_col_apply]

theorem pay14_apply (v26 : FVec Ideal S2000x64 .f32) (v29 : FVec Ideal S2000x1 .f32) (v33 : FVec Ideal S2000 .f32) (v40 : Vec Ideal S2000x1 .i32)
    (p : Fin 2000) :
    k1_pay14 v26 v29 v33 v40 (ix2 p (0 : Fin 1))
      = 0 - ∑ q : Fin 64, (if BitVec.ofNat 32 q.val = v40 (ix2 p (0 : Fin 1))
          then (v26 (ix2 p q) - v29 (ix2 p (0 : Fin 1))) - Ideal.log (v33 (ix1 p)) else 0) := by
  unfold k1_pay14
  simp only [shapeCast_self]
  rw [subf_apply, broadcast_apply, scalar_zero, cast_col_apply]
  congr 1
  refine (rowsum_apply _ _ _ p).trans ?_
  refine Finset.sum_congr rfl fun q _ => ?_
  rw [select_apply, broadcast_apply, subf_apply, subf_apply, bcast_col_apply, bcast_col_apply, log_apply, cast_col_apply]
  show Scalar.select (IntOp.cmpi .eq (iota .tc S2000x64 32 [1] iota_S2000x64_d1_w32 (ix2 p q)) (broadcastTo S2000x64 v40 broadcasts_S2000x1_S2000x64 (ix2 p q))) _ _ = _
  rw [iota_single_apply, bcast_col_apply]
  show (if BitVec.ofBool (BitVec.ofNat 32 q.val == v40 (ix2 p (0 : Fin 1))) = 1 then _ else _) = _
  by_cases h : BitVec.ofNat 32 q.val = v40 (ix2 p (0 : Fin 1))
  · have hb : (BitVec.ofNat 32 q.val == v40 (ix2 p (0 : Fin 1))) = true := beq_iff_eq.mpr h
    rw [hb, if_pos h, if_pos (by decide)]
  · have hb : (BitVec.ofNat 32 q.val == v40 (ix2 p (0 : Fin 1))) = false := beq_eq_false_iff_ne.mpr h
    rw [hb, if_neg h, if_neg (by decide)]

theorem idx11 (i : S1x1.Idx) : i = ix2 (0 : Fin 1) (0 : Fin 1) := by
  funext a; apply Fin.ext
  match a with
  | ⟨0, _⟩ => have := idx2_lt0 i; show (i 0).val = 0; omega
  | ⟨1, _⟩ => have := idx2_lt1 i; show (i 1).val = 0; omega

theorem coltotal (v : FVec Ideal S2000x1 .f32) (hφ : FKind.Formats .f32)
    (hacc : (0x00000000#32 : BitVec 32) = FKind.add.neutral .f32 hφ) :
    extractAt ![0, 0, 0] (shapeCast S1x1x1 (multiReduction .add [1, 2] S1 (shapeCast S1x2000x1 v shapeCasts_S2000x1_S1x2000x1)
        0x00000000#32 reduces_S1x2000x1_S1 hφ hacc) shapeCasts_S1_S1x1x1) inpos_S1x1x1_p0_0_0
      = ∑ r : Fin 2000, v (ix2 r (0 : Fin 1)) := by
  unfold extractAt
  show multiReduction .add [1, 2] S1 (shapeCast S1x2000x1 v shapeCasts_S2000x1_S1x2000x1) 0x00000000#32 reduces_S1x2000x1_S1 hφ hacc
      (Shape.reshapeEquiv shapeCasts_S1_S1x1x1 _) = _
  refine (Ideal.multiReduction_add_total _ _ reduces_S1x2000x1_S1 (fun b => by fin_cases b; rfl) hφ hacc _).trans ?_
  show ∑ i : S1x2000x1.Idx, v (Shape.reshapeEquiv shapeCasts_S2000x1_S1x2000x1 i) = _
  rw [Equiv.sum_comp (Shape.reshapeEquiv shapeCasts_S2000x1_S1x2000x1) v, sum_idx2]
  refine Finset.sum_congr rfl fun r _ => ?_
  exact Fin.sum_univ_one _

theorem pay1_apply (v56 : FVec Ideal S2000x1 .f32) (v110 : Vec Ideal S1x1 .f32) :
    k1_pay1 v56 v110 (ix2 (0 : Fin 1) (0 : Fin 1)) = v110 (ix2 (0 : Fin 1) (0 : Fin 1)) + ∑ r : Fin 2000, v56 (ix2 r (0 : Fin 1)) := by
  unfold k1_pay1
  simp only [shapeCast_self]
  rw [addf_apply, broadcast_apply]
  exact congrArg (_ + ·) (coltotal _ _ _)

theorem pay2_apply (v123 v124 : Vec Ideal S1x1 .f32) :
    k1_pay2 v123 v124 (ix2 (0 : Fin 1) (0 : Fin 1)) = Ideal.div (v123 (ix2 (0 : Fin 1) (0 : Fin 1))) (v124 (ix2 (0 : Fin 1) (0 : Fin 1))) := rfl
theorem pay3_apply (v127 v128 : Vec Ideal S1x1 .f32) :
    k1_pay3 v127 v128 (ix2 (0 : Fin 1) (0 : Fin 1)) = Ideal.div (v127 (ix2 (0 : Fin 1) (0 : Fin 1))) (v128 (ix2 (0 : Fin 1) (0 : Fin 1))) := rfl
theorem pay4_apply (v131 v132 : Vec Ideal S1x1 .f32) :
    k1_pay4 v131 v132 (ix2 (0 : Fin 1) (0 : Fin 1)) = Ideal.div (v131 (ix2 (0 : Fin 1) (0 : Fin 1))) (v132 (ix2 (0 : Fin 1) (0 : Fin 1))) := rfl

theorem pay5_apply : (k1_pay5 (F := Ideal)) (ix2 (0 : Fin 1) (0 : Fin 1)) = (0 : EReal) := by
  unfold k1_pay5; simp only [shapeCast_self]; rw [broadcast_apply, scalar_zero]
theorem pay6_apply : (k1_pay6 (F := Ideal)) (ix2 (0 : Fin 1) (0 : Fin 1)) = (0 : EReal) := by
  unfold k1_pay6; simp only [shapeCast_self]; rw [broadcast_apply, scalar_zero]
theorem pay7_apply : (k1_pay7 (F := Ideal)) (ix2 (0 : Fin 1) (0 : Fin 1)) = (0 : EReal) := by
  unfold k1_pay7; simp only [shapeCast_self]; rw [broadcast_apply, scalar_zero]
theorem pay8_apply : (k1_pay8 (F := Ideal)) (ix2 (0 : Fin 1) (0 : Fin 1)) = (0 : EReal) := by
  unfold k1_pay8; simp only [shapeCast_self]; rw [broadcast_apply, scalar_zero]
theorem pay9_apply : (k1_pay9 (F := Ideal)) (ix2 (0 : Fin 1) (0 : Fin 1)) = (0 : EReal) := by
  unfold k1_pay9; simp only [shapeCast_self]; rw [broadcast_apply, scalar_zero]
theorem pay10_apply : (k1_pay10 (F := Ideal)) (ix2 (0 : Fin 1) (0 : Fin 1)) = (0 : EReal) := by
  unfold k1_pay10; simp only [shapeCast_self]; rw [broadcast_apply, scalar_zero]

theorem pay15_eq (v51 : Vec Ideal S2000x1 .f32) : k1_pay15 v51 = v51 := by
  unfold k1_pay15; exact shapeCast_self _ _
theorem pay16_eq (v53 : Vec Ideal S2000x1 .f32) : k1_pay16 v53 = v53 := by
  unfold k1_pay16; exact shapeCast_self _ _
theorem pay17_eq (v55 : Vec Ideal S2000x1 .f32) : k1_pay17 v55 = v55 := by
  unfold k1_pay17; exact shapeCast_self _ _

theorem pay18_apply (v26 : FVec Ideal S2000x64 .f32) (v29 : FVec Ideal S2000x1 .f32) (v33 : FVec Ideal S2000 .f32) (v40 : Vec Ideal S2000x1 .i32)
    (v51 : Vec Ideal S2000x1 .f32) (v57 : Vec Ideal S1x1 .f32) :
    k1_pay18 v26 v29 v33 v40 v51 v57 (ix2 (0 : Fin 1) (0 : Fin 1))
      = v57 (ix2 (0 : Fin 1) (0 : Fin 1)) + ∑ r : Fin 2000, k1_pay14 v26 v29 v33 v40 (ix2 r (0 : Fin 1)) * v51 (ix2 r (0 : Fin 1)) := by
  unfold k1_pay18
  simp only [shapeCast_self, pay15_eq]
  rw [addf_apply, broadcast_apply]
  exact congrArg (_ + ·) (coltotal _ _ _)

theorem pay19_apply (v51 : Vec Ideal S2000x1 .f32) :
    k1_pay19 v51 (ix2 (0 : Fin 1) (0 : Fin 1)) = ∑ r : Fin 2000, v51 (ix2 r (0 : Fin 1)) := by
  unfold k1_pay19
  simp only [pay15_eq]
  rw [broadcast_apply]
  exact coltotal _ _ _

theorem pay20_apply (v68 : Vec Ideal S1x1 .f32) (v73 : FVec Ideal S1x1 .f32) :
    k1_pay20 v68 v73 (ix2 (0 : Fin 1) (0 : Fin 1)) = v68 (ix2 (0 : Fin 1) (0 : Fin 1)) + v73 (ix2 (0 : Fin 1) (0 : Fin 1)) := by
  unfold k1_pay20
  simp only [shapeCast_self]
  rw [addf_apply]

theorem pay21_apply (v50 v54 : FVec Ideal S2000x1 .f32) (v78 : Vec Ideal S1x1 .f32) :
    k1_pay21 v50 v54 v78 (ix2 (0 : Fin 1) (0 : Fin 1))
      = v78 (ix2 (0 : Fin 1) (0 : Fin 1)) + ∑ r : Fin 2000, v50 (ix2 r (0 : Fin 1)) * v54 (ix2 r (0 : Fin 1)) := by
  unfold k1_pay21
  simp only [shapeCast_self]
  rw [addf_apply, broadcast_apply]
  exact congrArg (_ + ·) (coltotal _ _ _)

theorem pay22_apply (v54 : FVec Ideal S2000x1 .f32) (v89 : Vec Ideal S1x1 .f32) :
    k1_pay22 v54 v89 (ix2 (0 : Fin 1) (0 : Fin 1)) = v89 (ix2 (0 : Fin 1) (0 : Fin 1)) + ∑ r : Fin 2000, v54 (ix2 r (0 : Fin 1)) := by
  unfold k1_pay22
  simp only [shapeCast_self]
  rw [addf_apply, broadcast_apply]
  exact congrArg (_ + ·) (coltotal _ _ _)

theorem pay23_apply (v50 v56 : FVec Ideal S2000x1 .f32) (v99 : Vec Ideal S1x1 .f32) :
    k1_pay23 v50 v56 v99 (ix2 (0 : Fin 1) (0 : Fin 1))
      = v99 (ix2 (0 : Fin 1) (0 : Fin 1)) + ∑ r : Fin 2000, v50 (ix2 r (0 : Fin 1)) * v56 (ix2 r (0 : Fin 1)) := by
  unfold k1_pay23
  simp only [shapeCast_self]
  rw [addf_apply, broadcast_apply]
  exact congrArg (_ + ·) (coltotal _ _ _)

theorem toNat_lt_of_toInt (l : BitVec 32) (hl : 0 ≤ l.toInt ∧ l.toInt < 64) : l.toNat < 64 := by
  have h := l.isLt
  rw [BitVec.toInt_eq_toNat_cond] at hl
  split at hl <;> omega

theorem lane_eq_iff (l : BitVec 32) (hn : l.toNat < 64) (q : Fin 64) :
    BitVec.ofNat 32 q.val = l ↔ q = ⟨l.toNat, hn⟩ := by
  constructor
  · intro h
    apply Fin.ext
    have e := congrArg BitVec.toNat h
    rw [BitVec.toNat_ofNat] at e
    have hq := q.isLt
    show q.val = l.toNat
    omega
  · intro h
    apply BitVec.eq_of_toNat_eq
    rw [BitVec.toNat_ofNat, h]
    show l.toNat % 2 ^ 32 = l.toNat
    exact Nat.mod_eq_of_lt l.isLt

theorem onehot_sum (l : BitVec 32) (hl : 0 ≤ l.toInt ∧ l.toInt < 64) (f : Fin 64 → EReal) :
    ∑ q : Fin 64, (if BitVec.ofNat 32 q.val = l then f q else 0) = f ⟨l.toNat % 64, Nat.mod_lt _ (by decide)⟩ := by
  have hn := toNat_lt_of_toInt l hl
  have hm : (⟨l.toNat % 64, Nat.mod_lt _ (by decide)⟩ : Fin 64) = ⟨l.toNat, hn⟩ := Fin.ext (Nat.mod_eq_of_lt hn)
  rw [hm, Finset.sum_eq_single (⟨l.toNat, hn⟩ : Fin 64)]
  · rw [if_pos ((lane_eq_iff l hn _).mpr rfl)]
  · intro q _ hq
    rw [if_neg (fun h => hq ((lane_eq_iff l hn q).mp h))]
  · intro h; exact absurd (Finset.mem_univ _) h

theorem pay14_loss (v26 : FVec Ideal S2000x64 .f32) (v29 : FVec Ideal S2000x1 .f32) (v33 : FVec Ideal S2000 .f32) (v40 : Vec Ideal S2000x1 .i32)
    (p : Fin 2000) (hl : 0 ≤ (v40 (ix2 p (0 : Fin 1)) : BitVec 32).toInt ∧ (v40 (ix2 p (0 : Fin 1)) : BitVec 32).toInt < 64)
    (h29 : v29 (ix2 p (0 : Fin 1)) = GcnSpec.rowmax (fun q => v26 (ix2 p q)))
    (h33 : v33 (ix1 p) = ∑ q : Fin 64, Ideal.exp (v26 (ix2 p q) - GcnSpec.rowmax (fun q => v26 (ix2 p q)))) :
    k1_pay14 v26 v29 v33 v40 (ix2 p (0 : Fin 1)) = GcnSpec.lossAt (fun q => v26 (ix2 p q)) (v40 (ix2 p (0 : Fin 1))) := by
  rw [pay14_apply, onehot_sum _ hl, h29, h33, zero_sub]
  rfl

end Cert.KernelIdeal.Fr
-- ==== Proof.Alg.lean ====
/-
  Sums of extended reals: a nonnegative real factor distributes over a finite sum, a one-hot sum over the 64 classes picks one term,
  a sum over 50000 rows is the sum over 25 tiles of sums over 2000 rows, and a running sum over the tiles ends at the total.
-/
import Mathlib.Data.EReal.Operations
import Mathlib.Data.EReal.Inv
import Mathlib.Algebra.BigOperators.Fin
import Mathlib.Algebra.BigOperators.Group.Finset.Piecewise
import Mathlib.Data.Fintype.BigOperators
import Mathlib.Logic.Equiv.Fin.Basic

open scoped BigOperators

namespace GcnAlg

theorem add_mul_nonneg_real (y z : EReal) (r : ℝ) (hr : 0 ≤ r) :
    (y + z) * (r : EReal) = y * (r : EReal) + z * (r : EReal) :=
  EReal.right_distrib_of_nonneg_of_ne_top (EReal.coe_nonneg.mpr hr) (EReal.coe_ne_top r) y z

theorem sum_mul_nonneg_real {ι : Type*} (s : Finset ι) (f : ι → EReal) (r : ℝ) (hr : 0 ≤ r) :
    (∑ e ∈ s, f e) * (r : EReal) = ∑ e ∈ s, f e * (r : EReal) := by
  classical
  induction s using Finset.induction_on with
  | empty => simp
  | insert a s ha ih =>
    rw [Finset.sum_insert ha, Finset.sum_insert ha, add_mul_nonneg_real _ _ r hr, ih]

theorem mul_sum_nonneg_real {ι : Type*} (s : Finset ι) (f : ι → EReal) (r : ℝ) (hr : 0 ≤ r) :
    (r : EReal) * (∑ e ∈ s, f e) = ∑ e ∈ s, (r : EReal) * f e := by
  rw [mul_comm, sum_mul_nonneg_real s f r hr]
  exact Finset.sum_congr rfl fun e _ => mul_comm _ _

theorem gcn_norm {ι : Type*} (s : Finset ι) (a p : ι → EReal) (c b : EReal) (r : ℝ) (hr : 0 ≤ r)
    (hc : c = (r : EReal)) :
    (∑ e ∈ s, a e * p e) * c + b = (∑ e ∈ s, a e * (p e * c)) + b := by
  subst hc
  rw [sum_mul_nonneg_real s _ r hr]
  simp only [mul_assoc]

theorem sum_onehot (lg : Fin 64 → EReal) (l : Fin 64) :
    ∑ j : Fin 64, (if j = l then lg j else 0) = lg l := by
  rw [Finset.sum_ite_eq' Finset.univ l lg, if_pos (Finset.mem_univ l)]

theorem sum_onehot' (lg : Fin 64 → EReal) (l : Fin 64) :
    ∑ j : Fin 64, (if l = j then lg j else 0) = lg l := by
  rw [Finset.sum_ite_eq Finset.univ l lg, if_pos (Finset.mem_univ l)]

def tileRow (t : Fin 25) (r : Fin 2000) : Fin 50000 :=
  ⟨2000 * t.val + r.val, by have := t.isLt; have := r.isLt; omega⟩

@[simp] theorem tileRow_val (t : Fin 25) (r : Fin 2000) : (tileRow t r).val = 2000 * t.val + r.val := rfl

def tileEquiv : Fin 25 × Fin 2000 ≃ Fin 50000 where
  toFun p := tileRow p.1 p.2
  invFun i := (⟨i.val / 2000, by have := i.isLt; omega⟩, ⟨i.val % 2000, by omega⟩)
  left_inv p := by
    obtain ⟨t, r⟩ := p
    have := t.isLt; have := r.isLt
    apply Prod.ext <;> apply Fin.ext <;> simp only [tileRow_val] <;> omega
  right_inv i := by
    apply Fin.ext
    simp only [tileRow_val]
    omega

theorem sum_tiles {M : Type*} [AddCommMonoid M] (f : Fin 50000 → M) :
    ∑ i : Fin 50000, f i = ∑ t : Fin 25, ∑ r : Fin 2000, f ⟨2000 * t.val + r.val, by
      have := t.isLt; have := r.isLt; omega⟩ := by
  rw [← Equiv.sum_comp tileEquiv f, Fintype.sum_prod_type]
  rfl

noncomputable def accT (g : Fin 25 → EReal) : ℕ → EReal
  | 0 => 0 + g 0
  | n + 1 => accT g n + (if h : n + 1 < 25 then g ⟨n + 1, h⟩ else 0)

@[simp] theorem accT_zero (g : Fin 25 → EReal) : accT g 0 = 0 + g 0 := rfl

theorem accT_succ (g : Fin 25 → EReal) (n : ℕ) (h : n + 1 < 25) :
    accT g (n + 1) = accT g n + g ⟨n + 1, h⟩ := by
  simp only [accT, dif_pos h]

theorem accT_eq_sum_range (g : Fin 25 → EReal) (n : ℕ) :
    accT g n = ∑ k ∈ Finset.range (n + 1), (if h : k < 25 then g ⟨k, h⟩ else 0) := by
  induction n with
  | zero => simp [accT]
  | succ n ih => rw [Finset.sum_range_succ, ← ih]; rfl

theorem accT_last (g : Fin 25 → EReal) : accT g 24 = ∑ t : Fin 25, g t := by
  rw [accT_eq_sum_range, ← Fin.sum_univ_eq_sum_range (fun k => if h : k < 25 then g ⟨k, h⟩ else 0) 25]
  exact Finset.sum_congr rfl fun t _ => by simp only [dif_pos t.isLt, Fin.eta]

theorem acc_eq_accT (g : Fin 25 → EReal) (acc : ℕ → EReal) (h0 : acc 0 = 0 + g 0)
    (hs : ∀ (n : ℕ) (h : n + 1 < 25), acc (n + 1) = acc n + g ⟨n + 1, h⟩) :
    ∀ n : ℕ, n < 25 → acc n = accT g n := by
  intro n
  induction n with
  | zero => intro _; rw [h0]; rfl
  | succ n ih => intro h; rw [hs n h, ih (by omega), accT_succ g n h]

theorem acc_last (g : Fin 25 → EReal) (acc : ℕ → EReal) (h0 : acc 0 = 0 + g 0)
    (hs : ∀ (n : ℕ) (h : n + 1 < 25), acc (n + 1) = acc n + g ⟨n + 1, h⟩) :
    acc 24 = ∑ t : Fin 25, g t := by
  rw [acc_eq_accT g acc h0 hs 24 (by omega), accT_last]

theorem max_bot (x : EReal) : max ⊥ x = x := max_bot_left x

theorem max_bot' (x : EReal) : max x ⊥ = x := max_bot_right x

end GcnAlg
-- ==== Proof.KI.Blocks1.lean ====
/-
  The second region's blocks read at an index: point t holds rows 2000·t … 2000·t + 1999 of each row-blocked array and the whole of
  each small one; the 25 logits blocks tile the 50000 rows, and each loss scalar's one block is written at the last point only.
-/
import proofs.«406391_j32650341384625_4_alg».proof.Proof.KI.R1Core
import proofs.«406391_j32650341384625_4_alg».proof.Proof.Alg
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

def tile1 (t : Fin cfg1.N) : Fin 25 := ⟨t.val, lt_of_lt_of_eq t.isLt (show cfg1.N = 25 from N_1)⟩
@[simp] theorem tile1_val (t : Fin cfg1.N) : (tile1 t).val = t.val := rfl

def point1 (s : Fin 25) : Fin cfg1.N := ⟨s.val, lt_of_lt_of_eq s.isLt (show cfg1.N = 25 from N_1).symm⟩
@[simp] theorem point1_val (s : Fin 25) : (point1 s).val = s.val := rfl
@[simp] theorem tile1_point1 (s : Fin 25) : tile1 (point1 s) = s := Fin.ext rfl
@[simp] theorem point1_tile1 (t : Fin cfg1.N) : point1 (tile1 t) = t := Fin.ext rfl

def last1 : Fin cfg1.N := point1 24
@[simp] theorem last1_val : (last1).val = 24 := rfl

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = t.val ∧ win1_3.index t (1 : Fin 2) = 0 :=
  (by decide +kernel : ∀ t : Fin grid1.N, _)
theorem idx1_4 : ∀ t : Fin cfg1.N, win1_4.index t (0 : Fin 2) = t.val ∧ win1_4.index t (1 : Fin 2) = 0 :=
  (by decide +kernel : ∀ t : Fin grid1.N, _)
theorem idx1_5 : ∀ t : Fin cfg1.N, win1_5.index t (0 : Fin 2) = t.val ∧ win1_5.index t (1 : Fin 2) = 0 :=
  (by decide +kernel : ∀ t : Fin grid1.N, _)
theorem idx1_6 : ∀ t : Fin cfg1.N, win1_6.index t (0 : Fin 2) = t.val ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_9 : ∀ t : Fin cfg1.N, win1_9.index t (0 : Fin 2) = 0 ∧ win1_9.index t (1 : Fin 2) = 0 :=
  (by decide +kernel : ∀ t : Fin grid1.N, _)
theorem idx1_10 : ∀ t : Fin cfg1.N, win1_10.index t (0 : Fin 2) = 0 ∧ win1_10.index t (1 : Fin 2) = 0 :=
  (by decide +kernel : ∀ t : Fin grid1.N, _)
theorem idx1_11 : ∀ t : Fin cfg1.N, win1_11.index t (0 : Fin 2) = t.val ∧ win1_11.index t (1 : Fin 2) = 0 :=
  (by decide +kernel : ∀ t : Fin grid1.N, _)
theorem idx1_12 : ∀ t : Fin cfg1.N, win1_12.index t (0 : Fin 2) = 0 ∧ win1_12.index t (1 : Fin 2) = 0 :=
  (by decide +kernel : ∀ t : Fin grid1.N, _)
theorem idx1_13 : ∀ t : Fin cfg1.N, win1_13.index t (0 : Fin 2) = 0 ∧ win1_13.index t (1 : Fin 2) = 0 :=
  (by decide +kernel : ∀ t : Fin grid1.N, _)
theorem idx1_14 : ∀ t : Fin cfg1.N, win1_14.index t (0 : Fin 2) = 0 ∧ win1_14.index t (1 : Fin 2) = 0 :=
  (by decide +kernel : ∀ t : Fin grid1.N, _)

theorem idx_facts1 (t : Fin cfg1.N) :
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = t.val ∧ win1_5.index t (1 : Fin 2) = 0)
    ∧ (win1_6.index t (0 : Fin 2) = t.val ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = t.val ∧ win1_11.index t (1 : Fin 2) = 0)
    ∧ (win1_12.index t (0 : Fin 2) = 0 ∧ win1_12.index t (1 : Fin 2) = 0)
    ∧ (win1_13.index t (0 : Fin 2) = 0 ∧ win1_13.index t (1 : Fin 2) = 0)
    ∧ (win1_14.index t (0 : Fin 2) = 0 ∧ win1_14.index t (1 : Fin 2) = 0) :=
  ⟨idx1_0 t, idx1_1 t, idx1_2 t, idx1_3 t, idx1_4 t, idx1_5 t, idx1_6 t, idx1_7 t, idx1_8 t, idx1_9 t, idx1_10 t,
    idx1_11 t, idx1_12 t, idx1_13 t, idx1_14 t⟩

section Blocks
variable (V : (c : Dev nD) → (b : Ref sig .tc) → Buf (Elt F) ((c : Thread nD τ).loc b))

theorem blk1_0 (c : Dev nD) (t : Fin cfg1.N) (r : Fin 2000) (k : Fin 128)
    (A : Vec F S50000x128 .f32) (hA : A = V c main_v27) :
    (iblk1 V c 0 t : Vec F S2000x128 .f32) (ix2 r k) = A (ix2 (GcnAlg.tileRow (tile1 t) r) k) := by
  obtain ⟨e0, e1⟩ := idx1_0 t
  subst hA
  unfold iblk1
  rw [View.read_apply]
  show V c main_v27 _ = V c main_v27 _
  congr 1
  funext a
  apply Fin.ext
  match a with
  | ⟨0, _⟩ => show win1_0.index t (0 : Fin 2) * 2000 + 1 * r.val = 2000 * t.val + r.val; rw [e0]; omega
  | ⟨1, _⟩ => show win1_0.index t (1 : Fin 2) * 128 + 1 * k.val = k.val; rw [e1]; omega

theorem blk1_1 (c : Dev nD) (t : Fin cfg1.N) (r : Fin 2000)
    (A : Vec F S50000x1 .f32) (hA : A = V c main_v15) :
    (iblk1 V c 1 t : Vec F S2000x1 .f32) (ix2 r (0 : Fin 1)) = A (ix2 (GcnAlg.tileRow (tile1 t) r) (0 : Fin 1)) := by
  obtain ⟨e0, e1⟩ := idx1_1 t
  subst hA
  unfold iblk1
  rw [View.read_apply]
  show V c main_v15 _ = V c main_v15 _
  congr 1
  funext a
  apply Fin.ext
  match a with
  | ⟨0, _⟩ => show win1_1.index t (0 : Fin 2) * 2000 + 1 * r.val = 2000 * t.val + r.val; rw [e0]; omega
  | ⟨1, _⟩ => show win1_1.index t (1 : Fin 2) * 1 + 1 * 0 = 0; rw [e1]

theorem blk1_3 (c : Dev nD) (t : Fin cfg1.N) (r : Fin 2000)
    (A : Vec F S50000x1 .i32) (hA : A = V c main_v28) :
    (iblk1 V c 3 t : Vec F S2000x1 .i32) (ix2 r (0 : Fin 1)) = A (ix2 (GcnAlg.tileRow (tile1 t) r) (0 : Fin 1)) := by
  obtain ⟨e0, e1⟩ := idx1_3 t
  subst hA
  unfold iblk1
  rw [View.read_apply]
  show V c main_v28 _ = V c main_v28 _
  congr 1
  funext a
  apply Fin.ext
  match a with
  | ⟨0, _⟩ => show win1_3.index t (0 : Fin 2) * 2000 + 1 * r.val = 2000 * t.val + r.val; rw [e0]; omega
  | ⟨1, _⟩ => show win1_3.index t (1 : Fin 2) * 1 + 1 * 0 = 0; rw [e1]

theorem blk1_4 (c : Dev nD) (t : Fin cfg1.N) (r : Fin 2000)
    (A : Vec F S50000x1 .f32) (hA : A = V c main_v32) :
    (iblk1 V c 4 t : Vec F S2000x1 .f32) (ix2 r (0 : Fin 1)) = A (ix2 (GcnAlg.tileRow (tile1 t) r) (0 : Fin 1)) := by
  obtain ⟨e0, e1⟩ := idx1_4 t
  subst hA
  unfold iblk1
  rw [View.read_apply]
  show V c main_v32 _ = V c main_v32 _
  congr 1
  funext a
  apply Fin.ext
  match a with
  | ⟨0, _⟩ => show win1_4.index t (0 : Fin 2) * 2000 + 1 * r.val = 2000 * t.val + r.val; rw [e0]; omega
  | ⟨1, _⟩ => show win1_4.index t (1 : Fin 2) * 1 + 1 * 0 = 0; rw [e1]

theorem blk1_5 (c : Dev nD) (t : Fin cfg1.N) (r : Fin 2000)
    (A : Vec F S50000x1 .f32) (hA : A = V c main_v36) :
    (iblk1 V c 5 t : Vec F S2000x1 .f32) (ix2 r (0 : Fin 1)) = A (ix2 (GcnAlg.tileRow (tile1 t) r) (0 : Fin 1)) := by
  obtain ⟨e0, e1⟩ := idx1_5 t
  subst hA
  unfold iblk1
  rw [View.read_apply]
  show V c main_v36 _ = V c main_v36 _
  congr 1
  funext a
  apply Fin.ext
  match a with
  | ⟨0, _⟩ => show win1_5.index t (0 : Fin 2) * 2000 + 1 * r.val = 2000 * t.val + r.val; rw [e0]; omega
  | ⟨1, _⟩ => show win1_5.index t (1 : Fin 2) * 1 + 1 * 0 = 0; rw [e1]

theorem blk1_6 (c : Dev nD) (t : Fin cfg1.N) (r : Fin 2000)
    (A : Vec F S50000x1 .f32) (hA : A = V c main_v40) :
    (iblk1 V c 6 t : Vec F S2000x1 .f32) (ix2 r (0 : Fin 1)) = A (ix2 (GcnAlg.tileRow (tile1 t) r) (0 : Fin 1)) := by
  obtain ⟨e0, e1⟩ := idx1_6 t
  subst hA
  unfold iblk1
  rw [View.read_apply]
  show V c main_v40 _ = V c main_v40 _
  congr 1
  funext a
  apply Fin.ext
  match a with
  | ⟨0, _⟩ => show win1_6.index t (0 : Fin 2) * 2000 + 1 * r.val = 2000 * t.val + r.val; rw [e0]; omega
  | ⟨1, _⟩ => show win1_6.index t (1 : Fin 2) * 1 + 1 * 0 = 0; rw [e1]

theorem blk1_2 (c : Dev nD) (t : Fin cfg1.N) (A : Vec F S1x128 .f32) (hA : A = V c main_v41) :
    (iblk1 V c 2 t : Vec F S1x128 .f32) = A := by
  obtain ⟨e0, e1⟩ := idx1_2 t
  subst hA
  funext y
  unfold iblk1
  rw [View.read_apply]
  show V c main_v41 _ = V c main_v41 y
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

theorem blk1_7 (c : Dev nD) (t : Fin cfg1.N) (A : Vec F S128x256 .f32) (hA : A = V c main_arg8) :
    (iblk1 V c 7 t : Vec F S128x256 .f32) = A := by
  obtain ⟨e0, e1⟩ := idx1_7 t
  subst hA
  funext y
  unfold iblk1
  rw [View.read_apply]
  show V c main_arg8 _ = V c main_arg8 y
  congr 1
  funext a
  apply Fin.ext
  match a with
  | ⟨0, _⟩ => show win1_7.index t (0 : Fin 2) * 128 + 1 * (y 0).val = (y 0).val; rw [e0]; omega
  | ⟨1, _⟩ => show win1_7.index t (1 : Fin 2) * 256 + 1 * (y 1).val = (y 1).val; rw [e1]; omega

theorem blk1_8 (c : Dev nD) (t : Fin cfg1.N) (A : Vec F S1x256 .f32) (hA : A = V c main_v42) :
    (iblk1 V c 8 t : Vec F S1x256 .f32) = A := by
  obtain ⟨e0, e1⟩ := idx1_8 t
  subst hA
  funext y
  unfold iblk1
  rw [View.read_apply]
  show V c main_v42 _ = V c main_v42 y
  congr 1
  funext a
  apply Fin.ext
  match a with
  | ⟨0, _⟩ => show win1_8.index t (0 : Fin 2) * 1 + 1 * (y 0).val = (y 0).val; rw [e0]; omega
  | ⟨1, _⟩ => show win1_8.index t (1 : Fin 2) * 256 + 1 * (y 1).val = (y 1).val; rw [e1]; omega

theorem blk1_9 (c : Dev nD) (t : Fin cfg1.N) (A : Vec F S256x64 .f32) (hA : A = V c main_arg10) :
    (iblk1 V c 9 t : Vec F S256x64 .f32) = A := by
  obtain ⟨e0, e1⟩ := idx1_9 t
  subst hA
  funext y
  unfold iblk1
  rw [View.read_apply]
  show V c main_arg10 _ = V c main_arg10 y
  congr 1
  funext a
  apply Fin.ext
  match a with
  | ⟨0, _⟩ => show win1_9.index t (0 : Fin 2) * 256 + 1 * (y 0).val = (y 0).val; rw [e0]; omega
  | ⟨1, _⟩ => show win1_9.index t (1 : Fin 2) * 64 + 1 * (y 1).val = (y 1).val; rw [e1]; omega

theorem blk1_10 (c : Dev nD) (t : Fin cfg1.N) (A : Vec F S1x64 .f32) (hA : A = V c main_v43) :
    (iblk1 V c 10 t : Vec F S1x64 .f32) = A := by
  obtain ⟨e0, e1⟩ := idx1_10 t
  subst hA
  funext y
  unfold iblk1
  rw [View.read_apply]
  show V c main_v43 _ = V c main_v43 y
  congr 1
  funext a
  apply Fin.ext
  match a with
  | ⟨0, _⟩ => show win1_10.index t (0 : Fin 2) * 1 + 1 * (y 0).val = (y 0).val; rw [e0]; omega
  | ⟨1, _⟩ => show win1_10.index t (1 : Fin 2) * 64 + 1 * (y 1).val = (y 1).val; rw [e1]; omega

end Blocks

theorem mem_blk1_11 (t : Fin cfg1.N) (i : S50000x64.Idx) :
    i ∈ ((cfg1.win 11).blk t).view.set ↔ ∀ a : Fin 2, win1_11.index t a * S2000x64.size a ≤ (i a).val ∧ (i a).val < win1_11.index t a * S2000x64.size a + S2000x64.size a := by
  show i ∈ ((View.whole main_v44_0).slice (win1_11.rect t)).set ↔ _
  rw [View.set_slice_whole, Rect.mem_set_unit]
  exact Iff.rfl

theorem mem_blk1_11_tile (s : Fin 25) (r : Fin 2000) (j : Fin 64) :
    (ix2 (GcnAlg.tileRow s r) j : S50000x64.Idx) ∈ ((cfg1.win 11).blk (point1 s)).view.set := by
  obtain ⟨e0, e1⟩ := idx1_11 (point1 s)
  have hr := r.isLt; have hj := j.isLt
  rw [mem_blk1_11]
  intro a
  match a with
  | ⟨0, _⟩ => show win1_11.index (point1 s) (0 : Fin 2) * 2000 ≤ 2000 * s.val + r.val ∧ 2000 * s.val + r.val < win1_11.index (point1 s) (0 : Fin 2) * 2000 + 2000; rw [e0, point1_val]; omega
  | ⟨1, _⟩ => show win1_11.index (point1 s) (1 : Fin 2) * 64 ≤ j.val ∧ j.val < win1_11.index (point1 s) (1 : Fin 2) * 64 + 64; rw [e1]; omega

theorem cover1_11 (i : S50000x64.Idx) :
    ∃ t : Fin cfg1.N, (cfg1.win 11).flush t = true ∧ i ∈ ((cfg1.win 11).blk t).view.set := by
  have hi0 : (i 0).val < 50000 := (i 0).isLt
  have hi1 : (i 1).val < 64 := (i 1).isLt
  obtain ⟨t, ht⟩ : ∃ t : Fin cfg1.N, t.val = (i 0).val / 2000 := ⟨⟨(i 0).val / 2000, by rw [show cfg1.N = 25 from N_1]; omega⟩, rfl⟩
  obtain ⟨e0, e1⟩ := idx1_11 t
  refine ⟨t, flush1_11 t, ?_⟩
  rw [mem_blk1_11]
  intro a
  match a with
  | ⟨0, _⟩ => show win1_11.index t (0 : Fin 2) * 2000 ≤ (i 0).val ∧ (i 0).val < win1_11.index t (0 : Fin 2) * 2000 + 2000; rw [e0, ht]; omega
  | ⟨1, _⟩ => show win1_11.index t (1 : Fin 2) * 64 ≤ (i 1).val ∧ (i 1).val < win1_11.index t (1 : Fin 2) * 64 + 64; rw [e1]; omega

theorem read_blk1_11 (t : Fin cfg1.N) (G : Vec F S50000x64 .f32) (r : Fin 2000) (j : Fin 64) :
    (((cfg1.win 11).blk t).view.read (Elt F) G : Vec F S2000x64 .f32) (ix2 r j) = G (ix2 (GcnAlg.tileRow (tile1 t) r) j) := by
  obtain ⟨e0, e1⟩ := idx1_11 t
  rw [View.read_apply]
  show G _ = G _
  congr 1
  funext a
  apply Fin.ext
  match a with
  | ⟨0, _⟩ => show win1_11.index t (0 : Fin 2) * 2000 + 1 * r.val = 2000 * t.val + r.val; rw [e0]; omega
  | ⟨1, _⟩ => show win1_11.index t (1 : Fin 2) * 64 + 1 * j.val = j.val; rw [e1]; omega

theorem flush1_12_last : (cfg1.win 12).flush last1 = true := (flush1_12 last1).mpr rfl
theorem flush1_13_last : (cfg1.win 13).flush last1 = true := (flush1_13 last1).mpr rfl
theorem flush1_14_last : (cfg1.win 14).flush last1 = true := (flush1_14 last1).mpr rfl

theorem eq_last1_of_flush1_12 (t : Fin cfg1.N) (h : (cfg1.win 12).flush t = true) : t = last1 :=
  Fin.ext (by have h1 := (flush1_12 t).mp h; have h2 : t.val < 25 := (tile1 t).isLt; show t.val = 24; omega)
theorem eq_last1_of_flush1_13 (t : Fin cfg1.N) (h : (cfg1.win 13).flush t = true) : t = last1 :=
  Fin.ext (by have h1 := (flush1_13 t).mp h; have h2 : t.val < 25 := (tile1 t).isLt; show t.val = 24; omega)
theorem eq_last1_of_flush1_14 (t : Fin cfg1.N) (h : (cfg1.win 14).flush t = true) : t = last1 :=
  Fin.ext (by have h1 := (flush1_14 t).mp h; have h2 : t.val < 25 := (tile1 t).isLt; show t.val = 24; omega)

theorem mem_blk1_12 (t : Fin cfg1.N) (i : S1x1.Idx) : i ∈ ((cfg1.win 12).blk t).view.set := by
  obtain ⟨e0, e1⟩ := idx1_12 t
  have hi0 : (i 0).val < 1 := (i 0).isLt
  have hi1 : (i 1).val < 1 := (i 1).isLt
  show i ∈ ((View.whole main_v44_1).slice (win1_12.rect t)).set
  rw [View.set_slice_whole, Rect.mem_set_unit]
  intro a
  match a with
  | ⟨0, _⟩ => show win1_12.index t (0 : Fin 2) * 1 ≤ (i 0).val ∧ (i 0).val < win1_12.index t (0 : Fin 2) * 1 + 1; rw [e0]; omega
  | ⟨1, _⟩ => show win1_12.index t (1 : Fin 2) * 1 ≤ (i 1).val ∧ (i 1).val < win1_12.index t (1 : Fin 2) * 1 + 1; rw [e1]; omega
theorem mem_blk1_13 (t : Fin cfg1.N) (i : S1x1.Idx) : i ∈ ((cfg1.win 13).blk t).view.set := by
  obtain ⟨e0, e1⟩ := idx1_13 t
  have hi0 : (i 0).val < 1 := (i 0).isLt
  have hi1 : (i 1).val < 1 := (i 1).isLt
  show i ∈ ((View.whole main_v44_2).slice (win1_13.rect t)).set
  rw [View.set_slice_whole, Rect.mem_set_unit]
  intro a
  match a with
  | ⟨0, _⟩ => show win1_13.index t (0 : Fin 2) * 1 ≤ (i 0).val ∧ (i 0).val < win1_13.index t (0 : Fin 2) * 1 + 1; rw [e0]; omega
  | ⟨1, _⟩ => show win1_13.index t (1 : Fin 2) * 1 ≤ (i 1).val ∧ (i 1).val < win1_13.index t (1 : Fin 2) * 1 + 1; rw [e1]; omega
theorem mem_blk1_14 (t : Fin cfg1.N) (i : S1x1.Idx) : i ∈ ((cfg1.win 14).blk t).view.set := by
  obtain ⟨e0, e1⟩ := idx1_14 t
  have hi0 : (i 0).val < 1 := (i 0).isLt
  have hi1 : (i 1).val < 1 := (i 1).isLt
  show i ∈ ((View.whole main_v44_3).slice (win1_14.rect t)).set
  rw [View.set_slice_whole, Rect.mem_set_unit]
  intro a
  match a with
  | ⟨0, _⟩ => show win1_14.index t (0 : Fin 2) * 1 ≤ (i 0).val ∧ (i 0).val < win1_14.index t (0 : Fin 2) * 1 + 1; rw [e0]; omega
  | ⟨1, _⟩ => show win1_14.index t (1 : Fin 2) * 1 ≤ (i 1).val ∧ (i 1).val < win1_14.index t (1 : Fin 2) * 1 + 1; rw [e1]; omega

theorem cover1_12 (i : S1x1.Idx) : ∃ t : Fin cfg1.N, (cfg1.win 12).flush t = true ∧ i ∈ ((cfg1.win 12).blk t).view.set :=
  ⟨last1, flush1_12_last, mem_blk1_12 last1 i⟩
theorem cover1_13 (i : S1x1.Idx) : ∃ t : Fin cfg1.N, (cfg1.win 13).flush t = true ∧ i ∈ ((cfg1.win 13).blk t).view.set :=
  ⟨last1, flush1_13_last, mem_blk1_13 last1 i⟩
theorem cover1_14 (i : S1x1.Idx) : ∃ t : Fin cfg1.N, (cfg1.win 14).flush t = true ∧ i ∈ ((cfg1.win 14).blk t).view.set :=
  ⟨last1, flush1_14_last, mem_blk1_14 last1 i⟩

theorem read_blk1_12 (t : Fin cfg1.N) (G : Vec F S1x1 .f32) :
    (((cfg1.win 12).blk t).view.read (Elt F) G : Vec F S1x1 .f32) = G := by
  obtain ⟨e0, e1⟩ := idx1_12 t
  funext y
  rw [View.read_apply]
  show G _ = G y
  congr 1
  funext a
  apply Fin.ext
  match a with
  | ⟨0, _⟩ => show win1_12.index t (0 : Fin 2) * 1 + 1 * (y 0).val = (y 0).val; rw [e0]; omega
  | ⟨1, _⟩ => show win1_12.index t (1 : Fin 2) * 1 + 1 * (y 1).val = (y 1).val; rw [e1]; omega
theorem read_blk1_13 (t : Fin cfg1.N) (G : Vec F S1x1 .f32) :
    (((cfg1.win 13).blk t).view.read (Elt F) G : Vec F S1x1 .f32) = G := by
  obtain ⟨e0, e1⟩ := idx1_13 t
  funext y
  rw [View.read_apply]
  show G _ = G y
  congr 1
  funext a
  apply Fin.ext
  match a with
  | ⟨0, _⟩ => show win1_13.index t (0 : Fin 2) * 1 + 1 * (y 0).val = (y 0).val; rw [e0]; omega
  | ⟨1, _⟩ => show win1_13.index t (1 : Fin 2) * 1 + 1 * (y 1).val = (y 1).val; rw [e1]; omega
theorem read_blk1_14 (t : Fin cfg1.N) (G : Vec F S1x1 .f32) :
    (((cfg1.win 14).blk t).view.read (Elt F) G : Vec F S1x1 .f32) = G := by
  obtain ⟨e0, e1⟩ := idx1_14 t
  funext y
  rw [View.read_apply]
  show G _ = G y
  congr 1
  funext a
  apply Fin.ext
  match a with
  | ⟨0, _⟩ => show win1_14.index t (0 : Fin 2) * 1 + 1 * (y 0).val = (y 0).val; rw [e0]; omega
  | ⟨1, _⟩ => show win1_14.index t (1 : Fin 2) * 1 + 1 * (y 1).val = (y 1).val; rw [e1]; omega

end Cert.KernelIdeal.Fr

end
-- ==== Proof.KI.Val1b.lean ====
/-
  The second region's accumulators summed over the grid: each holds zero plus the first tile's contribution and then adds a tile at a
  time, so after the last point it is the sum over all 25 tiles, and each loss output is the quotient of two such sums.
-/
import proofs.«406391_j32650341384625_4_alg».proof.Proof.KI.Val1a
import proofs.«406391_j32650341384625_4_alg».proof.Proof.KI.Pay1
import proofs.«406391_j32650341384625_4_alg».proof.Proof.Alg
import proofs.«406391_j32650341384625_4_alg».proof.Proof.KI.Blocks1
import Idealize.ShloMosaic.Lib.ValueIdx

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

variable {F : FTy → Type} [FloatOps F]

local notation "𝕄" => MT nD τ sig Unit (Elt F) ℕ (UR sig nD τ) ℕ

section Region
variable (V : (c : Dev nD) → (b : Ref sig .tc) → Buf (Elt Ideal) ((c : Thread nD τ).loc b)) (c : Dev nD)

abbrev bk0 (t : Fin cfg1.N) : Vec Ideal S2000x128 .f32 := iblk1 V c 0 t
abbrev bk1 (t : Fin cfg1.N) : Vec Ideal S2000x1 .f32 := iblk1 V c 1 t
abbrev bk2 (t : Fin cfg1.N) : Vec Ideal S1x128 .f32 := iblk1 V c 2 t
abbrev bk3 (t : Fin cfg1.N) : Vec Ideal S2000x1 .i32 := iblk1 V c 3 t
abbrev bk4 (t : Fin cfg1.N) : Vec Ideal S2000x1 .f32 := iblk1 V c 4 t
abbrev bk5 (t : Fin cfg1.N) : Vec Ideal S2000x1 .f32 := iblk1 V c 5 t
abbrev bk6 (t : Fin cfg1.N) : Vec Ideal S2000x1 .f32 := iblk1 V c 6 t
abbrev bk7 (t : Fin cfg1.N) : Vec Ideal S128x256 .f32 := iblk1 V c 7 t
abbrev bk8 (t : Fin cfg1.N) : Vec Ideal S1x256 .f32 := iblk1 V c 8 t
abbrev bk9 (t : Fin cfg1.N) : Vec Ideal S256x64 .f32 := iblk1 V c 9 t
abbrev bk10 (t : Fin cfg1.N) : Vec Ideal S1x64 .f32 := iblk1 V c 10 t

def lgB (t : Fin cfg1.N) : FVec Ideal S2000x64 .f32 := k1_pay11 (bk0 V c t) (bk1 V c t) (bk2 V c t) (bk7 V c t) (bk8 V c t) (bk9 V c t) (bk10 V c t)
def mxB (t : Fin cfg1.N) : FVec Ideal S2000x1 .f32 := k1_pay12 (bk0 V c t) (bk1 V c t) (bk2 V c t) (bk7 V c t) (bk8 V c t) (bk9 V c t) (bk10 V c t)
def seB (t : Fin cfg1.N) : FVec Ideal S2000 .f32 := k1_pay13 (bk0 V c t) (bk1 V c t) (bk2 V c t) (bk7 V c t) (bk8 V c t) (bk9 V c t) (bk10 V c t)
def lossB (t : Fin cfg1.N) : FVec Ideal S2000x1 .f32 := k1_pay14 (lgB V c t) (mxB V c t) (seB V c t) (bk3 V c t)

def g0 (t : Fin cfg1.N) : EReal := ∑ r : Fin 2000, lossB V c t (ix2 r (0 : Fin 1)) * bk4 V c t (ix2 r (0 : Fin 1))
def g1 (t : Fin cfg1.N) : EReal := ∑ r : Fin 2000, bk4 V c t (ix2 r (0 : Fin 1))
def g2 (t : Fin cfg1.N) : EReal := ∑ r : Fin 2000, lossB V c t (ix2 r (0 : Fin 1)) * bk5 V c t (ix2 r (0 : Fin 1))
def g3 (t : Fin cfg1.N) : EReal := ∑ r : Fin 2000, bk5 V c t (ix2 r (0 : Fin 1))
def g4 (t : Fin cfg1.N) : EReal := ∑ r : Fin 2000, lossB V c t (ix2 r (0 : Fin 1)) * bk6 V c t (ix2 r (0 : Fin 1))
def g5 (t : Fin cfg1.N) : EReal := ∑ r : Fin 2000, bk6 V c t (ix2 r (0 : Fin 1))

abbrev o00 : S1x1.Idx := ix2 (0 : Fin 1) (0 : Fin 1)

def S0 (n : ℕ) : EReal := if h : n < cfg1.N then (outsAt1 V c n h).s0 o00 else 0

theorem S0_first : S0 V c 0 = 0 + g0 V c (point1 0) := by
  have h0 : (0 : ℕ) < cfg1.N := lt_of_lt_of_eq (by decide : (0 : ℕ) < 25) (show 25 = cfg1.N from N_1.symm)
  unfold S0; rw [dif_pos h0]
  refine (congrFun (outs_s0_first V c ⟨0, h0⟩ (Nat.zero_mod _)) o00).trans ?_
  refine (pay18_apply (lgB V c ⟨0, h0⟩) (mxB V c ⟨0, h0⟩) (seB V c ⟨0, h0⟩) (bk3 V c ⟨0, h0⟩) (bk4 V c ⟨0, h0⟩) (k1_pay5 (F := Ideal))).trans ?_
  rw [pay5_apply]
  simp only [g0, point1, lossB, lgB, mxB, seB]
  rfl

theorem S0_later (n : ℕ) (h : n + 1 < 25) : S0 V c (n + 1) = S0 V c n + g0 V c (point1 ⟨n + 1, h⟩) := by
  have h1 : n + 1 < cfg1.N := lt_of_lt_of_eq h (show 25 = cfg1.N from N_1.symm)
  have h2 : n < cfg1.N := Nat.lt_of_succ_lt h1
  unfold S0; rw [dif_pos h1, dif_pos h2]
  refine (congrFun (outs_s0_later V c ⟨n + 1, h1⟩ (by show ¬((n + 1) % 25 = 0); omega)) o00).trans ?_
  refine (pay18_apply (lgB V c ⟨n + 1, h1⟩) (mxB V c ⟨n + 1, h1⟩) (seB V c ⟨n + 1, h1⟩) (bk3 V c ⟨n + 1, h1⟩) (bk4 V c ⟨n + 1, h1⟩) (outsAt1 V c (n + 1 - 1) (Nat.lt_of_le_of_lt (Nat.sub_le _ _) h1)).s0).trans ?_
  simp only [g0, point1, lossB, lgB, mxB, seB]
  rfl

theorem S0_last : S0 V c 24 = ∑ t : Fin 25, g0 V c (point1 t) :=
  GcnAlg.acc_last (fun t => g0 V c (point1 t)) (S0 V c) (S0_first V c) (S0_later V c)

def S1 (n : ℕ) : EReal := if h : n < cfg1.N then (outsAt1 V c n h).s1 o00 else 0

theorem S1_first : S1 V c 0 = 0 + g1 V c (point1 0) := by
  have h0 : (0 : ℕ) < cfg1.N := lt_of_lt_of_eq (by decide : (0 : ℕ) < 25) (show 25 = cfg1.N from N_1.symm)
  unfold S1; rw [dif_pos h0]
  refine (congrFun (outs_s1_first V c ⟨0, h0⟩ (Nat.zero_mod _)) o00).trans ?_
  refine (pay20_apply (k1_pay6 (F := Ideal)) (k1_pay19 (bk4 V c ⟨0, h0⟩))).trans ?_
  rw [pay6_apply]
  simp only [g1, point1, pay19_apply, lossB, lgB, mxB, seB]
  rfl

theorem S1_later (n : ℕ) (h : n + 1 < 25) : S1 V c (n + 1) = S1 V c n + g1 V c (point1 ⟨n + 1, h⟩) := by
  have h1 : n + 1 < cfg1.N := lt_of_lt_of_eq h (show 25 = cfg1.N from N_1.symm)
  have h2 : n < cfg1.N := Nat.lt_of_succ_lt h1
  unfold S1; rw [dif_pos h1, dif_pos h2]
  refine (congrFun (outs_s1_later V c ⟨n + 1, h1⟩ (by show ¬((n + 1) % 25 = 0); omega)) o00).trans ?_
  refine (pay20_apply (outsAt1 V c (n + 1 - 1) (Nat.lt_of_le_of_lt (Nat.sub_le _ _) h1)).s1 (k1_pay19 (bk4 V c ⟨n + 1, h1⟩))).trans ?_
  simp only [g1, point1, pay19_apply, lossB, lgB, mxB, seB]
  rfl

theorem S1_last : S1 V c 24 = ∑ t : Fin 25, g1 V c (point1 t) :=
  GcnAlg.acc_last (fun t => g1 V c (point1 t)) (S1 V c) (S1_first V c) (S1_later V c)

def S2 (n : ℕ) : EReal := if h : n < cfg1.N then (outsAt1 V c n h).s2 o00 else 0

theorem S2_first : S2 V c 0 = 0 + g2 V c (point1 0) := by
  have h0 : (0 : ℕ) < cfg1.N := lt_of_lt_of_eq (by decide : (0 : ℕ) < 25) (show 25 = cfg1.N from N_1.symm)
  unfold S2; rw [dif_pos h0]
  refine (congrFun (outs_s2_first V c ⟨0, h0⟩ (Nat.zero_mod _)) o00).trans ?_
  refine (pay21_apply (lossB V c ⟨0, h0⟩) (k1_pay16 (bk5 V c ⟨0, h0⟩)) (k1_pay7 (F := Ideal))).trans ?_
  rw [pay7_apply]
  simp only [g2, point1, pay16_eq, lossB, lgB, mxB, seB]
  rfl

theorem S2_later (n : ℕ) (h : n + 1 < 25) : S2 V c (n + 1) = S2 V c n + g2 V c (point1 ⟨n + 1, h⟩) := by
  have h1 : n + 1 < cfg1.N := lt_of_lt_of_eq h (show 25 = cfg1.N from N_1.symm)
  have h2 : n < cfg1.N := Nat.lt_of_succ_lt h1
  unfold S2; rw [dif_pos h1, dif_pos h2]
  refine (congrFun (outs_s2_later V c ⟨n + 1, h1⟩ (by show ¬((n + 1) % 25 = 0); omega)) o00).trans ?_
  refine (pay21_apply (lossB V c ⟨n + 1, h1⟩) (k1_pay16 (bk5 V c ⟨n + 1, h1⟩)) (outsAt1 V c (n + 1 - 1) (Nat.lt_of_le_of_lt (Nat.sub_le _ _) h1)).s2).trans ?_
  simp only [g2, point1, pay16_eq, lossB, lgB, mxB, seB]
  rfl

theorem S2_last : S2 V c 24 = ∑ t : Fin 25, g2 V c (point1 t) :=
  GcnAlg.acc_last (fun t => g2 V c (point1 t)) (S2 V c) (S2_first V c) (S2_later V c)

def S3 (n : ℕ) : EReal := if h : n < cfg1.N then (outsAt1 V c n h).s3 o00 else 0

theorem S3_first : S3 V c 0 = 0 + g3 V c (point1 0) := by
  have h0 : (0 : ℕ) < cfg1.N := lt_of_lt_of_eq (by decide : (0 : ℕ) < 25) (show 25 = cfg1.N from N_1.symm)
  unfold S3; rw [dif_pos h0]
  refine (congrFun (outs_s3_first V c ⟨0, h0⟩ (Nat.zero_mod _)) o00).trans ?_
  refine (pay22_apply (k1_pay16 (bk5 V c ⟨0, h0⟩)) (k1_pay8 (F := Ideal))).trans ?_
  rw [pay8_apply]
  simp only [g3, point1, pay16_eq, lossB, lgB, mxB, seB]
  rfl

theorem S3_later (n : ℕ) (h : n + 1 < 25) : S3 V c (n + 1) = S3 V c n + g3 V c (point1 ⟨n + 1, h⟩) := by
  have h1 : n + 1 < cfg1.N := lt_of_lt_of_eq h (show 25 = cfg1.N from N_1.symm)
  have h2 : n < cfg1.N := Nat.lt_of_succ_lt h1
  unfold S3; rw [dif_pos h1, dif_pos h2]
  refine (congrFun (outs_s3_later V c ⟨n + 1, h1⟩ (by show ¬((n + 1) % 25 = 0); omega)) o00).trans ?_
  refine (pay22_apply (k1_pay16 (bk5 V c ⟨n + 1, h1⟩)) (outsAt1 V c (n + 1 - 1) (Nat.lt_of_le_of_lt (Nat.sub_le _ _) h1)).s3).trans ?_
  simp only [g3, point1, pay16_eq, lossB, lgB, mxB, seB]
  rfl

theorem S3_last : S3 V c 24 = ∑ t : Fin 25, g3 V c (point1 t) :=
  GcnAlg.acc_last (fun t => g3 V c (point1 t)) (S3 V c) (S3_first V c) (S3_later V c)

def S4 (n : ℕ) : EReal := if h : n < cfg1.N then (outsAt1 V c n h).s4 o00 else 0

theorem S4_first : S4 V c 0 = 0 + g4 V c (point1 0) := by
  have h0 : (0 : ℕ) < cfg1.N := lt_of_lt_of_eq (by decide : (0 : ℕ) < 25) (show 25 = cfg1.N from N_1.symm)
  unfold S4; rw [dif_pos h0]
  refine (congrFun (outs_s4_first V c ⟨0, h0⟩ (Nat.zero_mod _)) o00).trans ?_
  refine (pay23_apply (lossB V c ⟨0, h0⟩) (k1_pay17 (bk6 V c ⟨0, h0⟩)) (k1_pay9 (F := Ideal))).trans ?_
  rw [pay9_apply]
  simp only [g4, point1, pay17_eq, lossB, lgB, mxB, seB]
  rfl

theorem S4_later (n : ℕ) (h : n + 1 < 25) : S4 V c (n + 1) = S4 V c n + g4 V c (point1 ⟨n + 1, h⟩) := by
  have h1 : n + 1 < cfg1.N := lt_of_lt_of_eq h (show 25 = cfg1.N from N_1.symm)
  have h2 : n < cfg1.N := Nat.lt_of_succ_lt h1
  unfold S4; rw [dif_pos h1, dif_pos h2]
  refine (congrFun (outs_s4_later V c ⟨n + 1, h1⟩ (by show ¬((n + 1) % 25 = 0); omega)) o00).trans ?_
  refine (pay23_apply (lossB V c ⟨n + 1, h1⟩) (k1_pay17 (bk6 V c ⟨n + 1, h1⟩)) (outsAt1 V c (n + 1 - 1) (Nat.lt_of_le_of_lt (Nat.sub_le _ _) h1)).s4).trans ?_
  simp only [g4, point1, pay17_eq, lossB, lgB, mxB, seB]
  rfl

theorem S4_last : S4 V c 24 = ∑ t : Fin 25, g4 V c (point1 t) :=
  GcnAlg.acc_last (fun t => g4 V c (point1 t)) (S4 V c) (S4_first V c) (S4_later V c)

def S5 (n : ℕ) : EReal := if h : n < cfg1.N then (outsAt1 V c n h).s5 o00 else 0

theorem S5_first : S5 V c 0 = 0 + g5 V c (point1 0) := by
  have h0 : (0 : ℕ) < cfg1.N := lt_of_lt_of_eq (by decide : (0 : ℕ) < 25) (show 25 = cfg1.N from N_1.symm)
  unfold S5; rw [dif_pos h0]
  refine (congrFun (outs_s5_first V c ⟨0, h0⟩ (Nat.zero_mod _)) o00).trans ?_
  refine (pay1_apply (k1_pay17 (bk6 V c ⟨0, h0⟩)) (k1_pay10 (F := Ideal))).trans ?_
  rw [pay10_apply]
  simp only [g5, point1, pay17_eq, lossB, lgB, mxB, seB]
  rfl

theorem S5_later (n : ℕ) (h : n + 1 < 25) : S5 V c (n + 1) = S5 V c n + g5 V c (point1 ⟨n + 1, h⟩) := by
  have h1 : n + 1 < cfg1.N := lt_of_lt_of_eq h (show 25 = cfg1.N from N_1.symm)
  have h2 : n < cfg1.N := Nat.lt_of_succ_lt h1
  unfold S5; rw [dif_pos h1, dif_pos h2]
  refine (congrFun (outs_s5_later V c ⟨n + 1, h1⟩ (by show ¬((n + 1) % 25 = 0); omega)) o00).trans ?_
  refine (pay1_apply (k1_pay17 (bk6 V c ⟨n + 1, h1⟩)) (outsAt1 V c (n + 1 - 1) (Nat.lt_of_le_of_lt (Nat.sub_le _ _) h1)).s5).trans ?_
  simp only [g5, point1, pay17_eq, lossB, lgB, mxB, seB]
  rfl

theorem S5_last : S5 V c 24 = ∑ t : Fin 25, g5 V c (point1 t) :=
  GcnAlg.acc_last (fun t => g5 V c (point1 t)) (S5 V c) (S5_first V c) (S5_later V c)

end Region

end Cert.KernelIdeal.Fr

end
-- ==== Proof.KI.Val1c.lean ====
/-
  The second region's four output arrays as functions of the arrays it reads: every row's class scores, and each loss scalar as the
  quotient of two sums over all 50000 rows.
-/
import proofs.«406391_j32650341384625_4_alg».proof.Proof.KI.Val1b
import proofs.«406391_j32650341384625_4_alg».proof.Proof.Spec
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

def klogits (A : S50000x128.Idx → EReal) (D : S50000x1.Idx → EReal) (Bg : S1x128.Idx → EReal) (Wf : S128x256.Idx → EReal)
    (Bf : S1x256.Idx → EReal) (Wp : S256x64.Idx → EReal) (Bp : S1x64.Idx → EReal) (i : Fin 50000) (q : Fin 64) : EReal :=
  (∑ k : Fin 256, max ((∑ k' : Fin 128, (A (ix2 i k') * D (ix2 i (0 : Fin 1)) + Bg (ix2 (0 : Fin 1) k')) * Wf (ix2 k' k)) + Bf (ix2 (0 : Fin 1) k)) 0
      * Wp (ix2 k q)) + Bp (ix2 (0 : Fin 1) q)

def kloss (A : S50000x128.Idx → EReal) (D : S50000x1.Idx → EReal) (Bg : S1x128.Idx → EReal) (Wf : S128x256.Idx → EReal)
    (Bf : S1x256.Idx → EReal) (Wp : S256x64.Idx → EReal) (Bp : S1x64.Idx → EReal) (Lb : S50000x1.Idx → BitVec 32) (i : Fin 50000) : EReal :=
  GcnSpec.lossAt (fun q => klogits A D Bg Wf Bf Wp Bp i q) (Lb (ix2 i (0 : Fin 1)))

abbrev klogitsArr (A : S50000x128.Idx → EReal) (D : S50000x1.Idx → EReal) (Bg : S1x128.Idx → EReal) (Wf : S128x256.Idx → EReal)
    (Bf : S1x256.Idx → EReal) (Wp : S256x64.Idx → EReal) (Bp : S1x64.Idx → EReal) : S50000x64.Idx → EReal :=
  fun idx => klogits A D Bg Wf Bf Wp Bp (idx 0) (idx 1)

theorem sum_rows_tiles (f : Fin 50000 → EReal) :
    ∑ s : Fin 25, ∑ r : Fin 2000, f (GcnAlg.tileRow s r) = ∑ i : Fin 50000, f i :=
  (GcnAlg.sum_tiles f).symm

section Region
variable (V : (c : Dev nD) → (b : Ref sig .tc) → Buf (Elt Ideal) ((c : Thread nD τ).loc b)) (c : Dev nD)
variable (A : S50000x128.Idx → EReal) (D : S50000x1.Idx → EReal) (Bg : S1x128.Idx → EReal) (Wf : S128x256.Idx → EReal)
  (Bf : S1x256.Idx → EReal) (Wp : S256x64.Idx → EReal) (Bp : S1x64.Idx → EReal)
  (hA : A = V c main_v27) (hD : D = V c main_v15) (hBg : Bg = V c main_v41) (hWf : Wf = V c main_arg8)
  (hBf : Bf = V c main_v42) (hWp : Wp = V c main_arg10) (hBp : Bp = V c main_v43)
include hA hD hBg hWf hBf hWp hBp

theorem lgB_apply (t : Fin cfg1.N) (r : Fin 2000) (q : Fin 64) :
    lgB V c t (ix2 r q) = klogits A D Bg Wf Bf Wp Bp (GcnAlg.tileRow (tile1 t) r) q := by
  have e2 : bk2 V c t = Bg := blk1_2 V c t Bg hBg
  have e7 : bk7 V c t = Wf := blk1_7 V c t Wf hWf
  have e8 : bk8 V c t = Bf := blk1_8 V c t Bf hBf
  have e9 : bk9 V c t = Wp := blk1_9 V c t Wp hWp
  have e10 : bk10 V c t = Bp := blk1_10 V c t Bp hBp
  have e1 : bk1 V c t (ix2 r (0 : Fin 1)) = D (ix2 (GcnAlg.tileRow (tile1 t) r) (0 : Fin 1)) := blk1_1 V c t r D hD
  have e0 : ∀ k' : Fin 128, bk0 V c t (ix2 r k') = A (ix2 (GcnAlg.tileRow (tile1 t) r) k') := fun k' => blk1_0 V c t r k' A hA
  refine (pay11_apply (bk0 V c t) (bk1 V c t) (bk2 V c t) (bk7 V c t) (bk8 V c t) (bk9 V c t) (bk10 V c t) r q).trans ?_
  unfold klogits
  rw [e2, e7, e8, e9, e10, e1]
  refine congrArg (fun z : EReal => z + Bp (ix2 (0 : Fin 1) q)) ?_
  refine Finset.sum_congr rfl fun k _ => ?_
  refine congrArg (fun z : EReal => max (z + Bf (ix2 (0 : Fin 1) k)) 0 * Wp (ix2 k q)) ?_
  refine Finset.sum_congr rfl fun k' _ => ?_
  rw [e0 k']

theorem lgB_at (t : Fin cfg1.N) (y : S2000x64.Idx) :
    lgB V c t y = klogits A D Bg Wf Bf Wp Bp (GcnAlg.tileRow (tile1 t) (y 0)) (y 1) := by
  obtain ⟨r, q, rfl⟩ : ∃ (r : Fin 2000) (q : Fin 64), y = ix2 r q := ⟨y 0, y 1, eq_ix2 y⟩
  exact lgB_apply V c A D Bg Wf Bf Wp Bp hA hD hBg hWf hBf hWp hBp t r q

theorem lgB_row (t : Fin cfg1.N) (r : Fin 2000) :
    (fun q : Fin 64 => lgB V c t (ix2 r q)) = fun q => klogits A D Bg Wf Bf Wp Bp (GcnAlg.tileRow (tile1 t) r) q :=
  funext fun q => lgB_apply V c A D Bg Wf Bf Wp Bp hA hD hBg hWf hBf hWp hBp t r q

theorem mxB_apply (t : Fin cfg1.N) (r : Fin 2000) :
    mxB V c t (ix2 r (0 : Fin 1)) = GcnSpec.rowmax (fun q => klogits A D Bg Wf Bf Wp Bp (GcnAlg.tileRow (tile1 t) r) q) := by
  refine (pay12_apply (bk0 V c t) (bk1 V c t) (bk2 V c t) (bk7 V c t) (bk8 V c t) (bk9 V c t) (bk10 V c t) r).trans ?_
  exact congrArg GcnSpec.rowmax (lgB_row V c A D Bg Wf Bf Wp Bp hA hD hBg hWf hBf hWp hBp t r)

theorem seB_apply (t : Fin cfg1.N) (r : Fin 2000) :
    seB V c t (ix1 r) = ∑ q : Fin 64, Ideal.exp (klogits A D Bg Wf Bf Wp Bp (GcnAlg.tileRow (tile1 t) r) q
      - GcnSpec.rowmax (fun q => klogits A D Bg Wf Bf Wp Bp (GcnAlg.tileRow (tile1 t) r) q)) := by
  refine (pay13_apply (bk0 V c t) (bk1 V c t) (bk2 V c t) (bk7 V c t) (bk8 V c t) (bk9 V c t) (bk10 V c t) r).trans ?_
  refine Finset.sum_congr rfl fun q _ => ?_
  exact congrArg₂ (fun a b : EReal => Ideal.exp (a - b))
    (lgB_apply V c A D Bg Wf Bf Wp Bp hA hD hBg hWf hBf hWp hBp t r q)
    (mxB_apply V c A D Bg Wf Bf Wp Bp hA hD hBg hWf hBf hWp hBp t r)

theorem lossB_apply (Lb : S50000x1.Idx → BitVec 32) (hLb : Lb = V c main_v28)
    (hl : ∀ i : Fin 50000, 0 ≤ (Lb (ix2 i (0 : Fin 1))).toInt ∧ (Lb (ix2 i (0 : Fin 1))).toInt < 64)
    (t : Fin cfg1.N) (r : Fin 2000) :
    lossB V c t (ix2 r (0 : Fin 1)) = kloss A D Bg Wf Bf Wp Bp Lb (GcnAlg.tileRow (tile1 t) r) := by
  have e3 : bk3 V c t (ix2 r (0 : Fin 1)) = Lb (ix2 (GcnAlg.tileRow (tile1 t) r) (0 : Fin 1)) := blk1_3 V c t r Lb hLb
  have hrow := lgB_row V c A D Bg Wf Bf Wp Bp hA hD hBg hWf hBf hWp hBp t r
  have h29 : mxB V c t (ix2 r (0 : Fin 1)) = GcnSpec.rowmax (fun q => lgB V c t (ix2 r q)) :=
    (mxB_apply V c A D Bg Wf Bf Wp Bp hA hD hBg hWf hBf hWp hBp t r).trans (congrArg GcnSpec.rowmax hrow).symm
  have h33 : seB V c t (ix1 r) = ∑ q : Fin 64, Ideal.exp (lgB V c t (ix2 r q) - GcnSpec.rowmax (fun q => lgB V c t (ix2 r q))) := by
    refine (seB_apply V c A D Bg Wf Bf Wp Bp hA hD hBg hWf hBf hWp hBp t r).trans ?_
    refine Finset.sum_congr rfl fun q _ => ?_
    exact (congrArg₂ (fun a b : EReal => Ideal.exp (a - b))
      (lgB_apply V c A D Bg Wf Bf Wp Bp hA hD hBg hWf hBf hWp hBp t r q) (congrArg GcnSpec.rowmax hrow)).symm
  have hlab : 0 ≤ (bk3 V c t (ix2 r (0 : Fin 1)) : BitVec 32).toInt ∧ (bk3 V c t (ix2 r (0 : Fin 1)) : BitVec 32).toInt < 64 := by
    rw [e3]; exact hl _
  refine (pay14_loss (lgB V c t) (mxB V c t) (seB V c t) (bk3 V c t) r hlab h29 h33).trans ?_
  exact congrArg₂ GcnSpec.lossAt hrow e3

section Sums
variable (Lb : S50000x1.Idx → BitVec 32) (hLb : Lb = V c main_v28)
  (hl : ∀ i : Fin 50000, 0 ≤ (Lb (ix2 i (0 : Fin 1))).toInt ∧ (Lb (ix2 i (0 : Fin 1))).toInt < 64)
include hLb hl

theorem sum_g0 (Mt : S50000x1.Idx → EReal) (hMt : Mt = V c main_v32) :
    ∑ s : Fin 25, g0 V c (point1 s) = ∑ i : Fin 50000, kloss A D Bg Wf Bf Wp Bp Lb i * Mt (ix2 i (0 : Fin 1)) := by
  refine Eq.trans ?_ (sum_rows_tiles (fun i => kloss A D Bg Wf Bf Wp Bp Lb i * Mt (ix2 i (0 : Fin 1))))
  refine Finset.sum_congr rfl fun s _ => ?_
  unfold g0
  refine Finset.sum_congr rfl fun r _ => ?_
  have e : bk4 V c (point1 s) (ix2 r (0 : Fin 1)) = Mt (ix2 (GcnAlg.tileRow (tile1 (point1 s)) r) (0 : Fin 1)) := blk1_4 V c (point1 s) r Mt hMt
  rw [e, lossB_apply V c A D Bg Wf Bf Wp Bp hA hD hBg hWf hBf hWp hBp Lb hLb hl (point1 s) r, tile1_point1]

theorem sum_g2 (Md : S50000x1.Idx → EReal) (hMd : Md = V c main_v36) :
    ∑ s : Fin 25, g2 V c (point1 s) = ∑ i : Fin 50000, kloss A D Bg Wf Bf Wp Bp Lb i * Md (ix2 i (0 : Fin 1)) := by
  refine Eq.trans ?_ (sum_rows_tiles (fun i => kloss A D Bg Wf Bf Wp Bp Lb i * Md (ix2 i (0 : Fin 1))))
  refine Finset.sum_congr rfl fun s _ => ?_
  unfold g2
  refine Finset.sum_congr rfl fun r _ => ?_
  have e : bk5 V c (point1 s) (ix2 r (0 : Fin 1)) = Md (ix2 (GcnAlg.tileRow (tile1 (point1 s)) r) (0 : Fin 1)) := blk1_5 V c (point1 s) r Md hMd
  rw [e, lossB_apply V c A D Bg Wf Bf Wp Bp hA hD hBg hWf hBf hWp hBp Lb hLb hl (point1 s) r, tile1_point1]

theorem sum_g4 (Me : S50000x1.Idx → EReal) (hMe : Me = V c main_v40) :
    ∑ s : Fin 25, g4 V c (point1 s) = ∑ i : Fin 50000, kloss A D Bg Wf Bf Wp Bp Lb i * Me (ix2 i (0 : Fin 1)) := by
  refine Eq.trans ?_ (sum_rows_tiles (fun i => kloss A D Bg Wf Bf Wp Bp Lb i * Me (ix2 i (0 : Fin 1))))
  refine Finset.sum_congr rfl fun s _ => ?_
  unfold g4
  refine Finset.sum_congr rfl fun r _ => ?_
  have e : bk6 V c (point1 s) (ix2 r (0 : Fin 1)) = Me (ix2 (GcnAlg.tileRow (tile1 (point1 s)) r) (0 : Fin 1)) := blk1_6 V c (point1 s) r Me hMe
  rw [e, lossB_apply V c A D Bg Wf Bf Wp Bp hA hD hBg hWf hBf hWp hBp Lb hLb hl (point1 s) r, tile1_point1]

end Sums

omit hA hD hBg hWf hBf hWp hBp in

theorem sum_g1 (Mt : S50000x1.Idx → EReal) (hMt : Mt = V c main_v32) :
    ∑ s : Fin 25, g1 V c (point1 s) = ∑ i : Fin 50000, Mt (ix2 i (0 : Fin 1)) := by
  refine Eq.trans ?_ (sum_rows_tiles (fun i => Mt (ix2 i (0 : Fin 1))))
  refine Finset.sum_congr rfl fun s _ => ?_
  unfold g1
  refine Finset.sum_congr rfl fun r _ => ?_
  have e : bk4 V c (point1 s) (ix2 r (0 : Fin 1)) = Mt (ix2 (GcnAlg.tileRow (tile1 (point1 s)) r) (0 : Fin 1)) := blk1_4 V c (point1 s) r Mt hMt
  rw [e, tile1_point1]

omit hA hD hBg hWf hBf hWp hBp in

theorem sum_g3 (Md : S50000x1.Idx → EReal) (hMd : Md = V c main_v36) :
    ∑ s : Fin 25, g3 V c (point1 s) = ∑ i : Fin 50000, Md (ix2 i (0 : Fin 1)) := by
  refine Eq.trans ?_ (sum_rows_tiles (fun i => Md (ix2 i (0 : Fin 1))))
  refine Finset.sum_congr rfl fun s _ => ?_
  unfold g3
  refine Finset.sum_congr rfl fun r _ => ?_
  have e : bk5 V c (point1 s) (ix2 r (0 : Fin 1)) = Md (ix2 (GcnAlg.tileRow (tile1 (point1 s)) r) (0 : Fin 1)) := blk1_5 V c (point1 s) r Md hMd
  rw [e, tile1_point1]

omit hA hD hBg hWf hBf hWp hBp in

theorem sum_g5 (Me : S50000x1.Idx → EReal) (hMe : Me = V c main_v40) :
    ∑ s : Fin 25, g5 V c (point1 s) = ∑ i : Fin 50000, Me (ix2 i (0 : Fin 1)) := by
  refine Eq.trans ?_ (sum_rows_tiles (fun i => Me (ix2 i (0 : Fin 1))))
  refine Finset.sum_congr rfl fun s _ => ?_
  unfold g5
  refine Finset.sum_congr rfl fun r _ => ?_
  have e : bk6 V c (point1 s) (ix2 r (0 : Fin 1)) = Me (ix2 (GcnAlg.tileRow (tile1 (point1 s)) r) (0 : Fin 1)) := blk1_6 V c (point1 s) r Me hMe
  rw [e, tile1_point1]

theorem flushed1_11_eq (t : Fin cfg1.N) :
    (dat1 (F := Ideal) V c).flushed 11 t
      = ((cfg1.win 11).blk t).view.read (Elt Ideal) (klogitsArr A D Bg Wf Bf Wp Bp) := by
  show (cfg1.win 11).cut (grid1.coords t) ((dat1 V c).after 11 t) = _
  have e : (dat1 V c).after 11 t = lgB V c t := (after1_11 V c t).trans (outs_o11 V c t)
  rw [e]
  funext y
  refine (lgB_at V c A D Bg Wf Bf Wp Bp hA hD hBg hWf hBf hWp hBp t y).trans ?_
  exact (read_blk1_11 (F := Ideal) t (klogitsArr A D Bg Wf Bf Wp Bp) (y 0) (y 1)).symm.trans (congrArg _ (eq_ix2 y).symm)

theorem arr1_11 :
    (dat1 (F := Ideal) V c).arrAt 11 cfg1.N = klogitsArr A D Bg Wf Bf Wp Bp :=
  (dat1 (F := Ideal) V c).arrAt_eq_of_cover 11 (klogitsArr A D Bg Wf Bf Wp Bp)
    (fun t _ => flushed1_11_eq V c A D Bg Wf Bf Wp Bp hA hD hBg hWf hBf hWp hBp t) cover1_11

theorem arr1_11_apply (i : Fin 50000) (q : Fin 64) :
    ((dat1 (F := Ideal) V c).arrAt 11 cfg1.N : S50000x64.Idx → EReal) (ix2 i q) = klogits A D Bg Wf Bf Wp Bp i q :=
  congrFun (arr1_11 V c A D Bg Wf Bf Wp Bp hA hD hBg hWf hBf hWp hBp) (ix2 i q)

omit hA hD hBg hWf hBf hWp hBp in

theorem arr1_12_raw : (dat1 (F := Ideal) V c).arrAt 12 cfg1.N = (outsAt1 V c last1.val last1.isLt).o12 :=
  (dat1 (F := Ideal) V c).arrAt_eq_of_cover 12 ((outsAt1 V c last1.val last1.isLt).o12)
    (fun t hf => by
      obtain rfl := eq_last1_of_flush1_12 t hf
      refine Eq.trans ?_ (read_blk1_12 last1 ((outsAt1 V c last1.val last1.isLt).o12)).symm
      show (cfg1.win 12).cut (grid1.coords last1) ((dat1 V c).after 12 last1) = _
      rw [after1_12]
      rfl)
    cover1_12
omit hA hD hBg hWf hBf hWp hBp in
theorem arr1_13_raw : (dat1 (F := Ideal) V c).arrAt 13 cfg1.N = (outsAt1 V c last1.val last1.isLt).o13 :=
  (dat1 (F := Ideal) V c).arrAt_eq_of_cover 13 ((outsAt1 V c last1.val last1.isLt).o13)
    (fun t hf => by
      obtain rfl := eq_last1_of_flush1_13 t hf
      refine Eq.trans ?_ (read_blk1_13 last1 ((outsAt1 V c last1.val last1.isLt).o13)).symm
      show (cfg1.win 13).cut (grid1.coords last1) ((dat1 V c).after 13 last1) = _
      rw [after1_13]
      rfl)
    cover1_13
omit hA hD hBg hWf hBf hWp hBp in
theorem arr1_14_raw : (dat1 (F := Ideal) V c).arrAt 14 cfg1.N = (outsAt1 V c last1.val last1.isLt).o14 :=
  (dat1 (F := Ideal) V c).arrAt_eq_of_cover 14 ((outsAt1 V c last1.val last1.isLt).o14)
    (fun t hf => by
      obtain rfl := eq_last1_of_flush1_14 t hf
      refine Eq.trans ?_ (read_blk1_14 last1 ((outsAt1 V c last1.val last1.isLt).o14)).symm
      show (cfg1.win 14).cut (grid1.coords last1) ((dat1 V c).after 14 last1) = _
      rw [after1_14]
      rfl)
    cover1_14

omit hA hD hBg hWf hBf hWp hBp in

theorem S0_at_last : (outsAt1 V c last1.val last1.isLt).s0 o00 = S0 V c 24 :=
  (dif_pos (t := fun h : 24 < cfg1.N => (outsAt1 V c 24 h).s0 o00) (e := fun _ => (0 : EReal)) last1.isLt).symm
omit hA hD hBg hWf hBf hWp hBp in
theorem S1_at_last : (outsAt1 V c last1.val last1.isLt).s1 o00 = S1 V c 24 :=
  (dif_pos (t := fun h : 24 < cfg1.N => (outsAt1 V c 24 h).s1 o00) (e := fun _ => (0 : EReal)) last1.isLt).symm
omit hA hD hBg hWf hBf hWp hBp in
theorem S2_at_last : (outsAt1 V c last1.val last1.isLt).s2 o00 = S2 V c 24 :=
  (dif_pos (t := fun h : 24 < cfg1.N => (outsAt1 V c 24 h).s2 o00) (e := fun _ => (0 : EReal)) last1.isLt).symm
omit hA hD hBg hWf hBf hWp hBp in
theorem S3_at_last : (outsAt1 V c last1.val last1.isLt).s3 o00 = S3 V c 24 :=
  (dif_pos (t := fun h : 24 < cfg1.N => (outsAt1 V c 24 h).s3 o00) (e := fun _ => (0 : EReal)) last1.isLt).symm
omit hA hD hBg hWf hBf hWp hBp in
theorem S4_at_last : (outsAt1 V c last1.val last1.isLt).s4 o00 = S4 V c 24 :=
  (dif_pos (t := fun h : 24 < cfg1.N => (outsAt1 V c 24 h).s4 o00) (e := fun _ => (0 : EReal)) last1.isLt).symm
omit hA hD hBg hWf hBf hWp hBp in
theorem S5_at_last : (outsAt1 V c last1.val last1.isLt).s5 o00 = S5 V c 24 :=
  (dif_pos (t := fun h : 24 < cfg1.N => (outsAt1 V c 24 h).s5 o00) (e := fun _ => (0 : EReal)) last1.isLt).symm

omit hA hD hBg hWf hBf hWp hBp in

theorem last1_not_first : ¬ last1.val % 25 = 0 := by decide
omit hA hD hBg hWf hBf hWp hBp in
theorem last1_is_last : last1.val % 25 = 24 := by decide

section Means
variable (Lb : S50000x1.Idx → BitVec 32) (hLb : Lb = V c main_v28)
  (hl : ∀ i : Fin 50000, 0 ≤ (Lb (ix2 i (0 : Fin 1))).toInt ∧ (Lb (ix2 i (0 : Fin 1))).toInt < 64)
include hLb hl

theorem arr1_12 (Mt : S50000x1.Idx → EReal) (hMt : Mt = V c main_v32) :
    ((dat1 (F := Ideal) V c).arrAt 12 cfg1.N : S1x1.Idx → EReal) o00
      = Ideal.div (∑ i : Fin 50000, kloss A D Bg Wf Bf Wp Bp Lb i * Mt (ix2 i (0 : Fin 1))) (∑ i : Fin 50000, Mt (ix2 i (0 : Fin 1))) := by
  refine (congrFun (arr1_12_raw V c) o00).trans ?_
  refine (congrFun (outs_o12_last V c last1 last1_not_first last1_is_last) o00).trans ?_
  refine (pay2_apply _ _).trans ?_
  exact congrArg₂ Ideal.div
    ((S0_at_last V c).trans ((S0_last V c).trans (sum_g0 V c A D Bg Wf Bf Wp Bp hA hD hBg hWf hBf hWp hBp Lb hLb hl Mt hMt)))
    ((S1_at_last V c).trans ((S1_last V c).trans (sum_g1 V c Mt hMt)))

theorem arr1_13 (Md : S50000x1.Idx → EReal) (hMd : Md = V c main_v36) :
    ((dat1 (F := Ideal) V c).arrAt 13 cfg1.N : S1x1.Idx → EReal) o00
      = Ideal.div (∑ i : Fin 50000, kloss A D Bg Wf Bf Wp Bp Lb i * Md (ix2 i (0 : Fin 1))) (∑ i : Fin 50000, Md (ix2 i (0 : Fin 1))) := by
  refine (congrFun (arr1_13_raw V c) o00).trans ?_
  refine (congrFun (outs_o13_last V c last1 last1_not_first last1_is_last) o00).trans ?_
  refine (pay3_apply _ _).trans ?_
  exact congrArg₂ Ideal.div
    ((S2_at_last V c).trans ((S2_last V c).trans (sum_g2 V c A D Bg Wf Bf Wp Bp hA hD hBg hWf hBf hWp hBp Lb hLb hl Md hMd)))
    ((S3_at_last V c).trans ((S3_last V c).trans (sum_g3 V c Md hMd)))

theorem arr1_14 (Me : S50000x1.Idx → EReal) (hMe : Me = V c main_v40) :
    ((dat1 (F := Ideal) V c).arrAt 14 cfg1.N : S1x1.Idx → EReal) o00
      = Ideal.div (∑ i : Fin 50000, kloss A D Bg Wf Bf Wp Bp Lb i * Me (ix2 i (0 : Fin 1))) (∑ i : Fin 50000, Me (ix2 i (0 : Fin 1))) := by
  refine (congrFun (arr1_14_raw V c) o00).trans ?_
  refine (congrFun (outs_o14_last V c last1 last1_not_first last1_is_last) o00).trans ?_
  refine (pay4_apply _ _).trans ?_
  exact congrArg₂ Ideal.div
    ((S4_at_last V c).trans ((S4_last V c).trans (sum_g4 V c A D Bg Wf Bf Wp Bp hA hD hBg hWf hBf hWp hBp Lb hLb hl Me hMe)))
    ((S5_at_last V c).trans ((S5_last V c).trans (sum_g5 V c Me hMe)))

end Means

end Region

end Cert.KernelIdeal.Fr

end
-- ==== Proof.KI.KVal.lean ====
/-
  The kernel program's results are the specification's: scaling rows by the source's normaliser before the sum over incoming edges and by
  the node's after it equals weighting each edge by the product, since a normaliser is a nonnegative real and every summed edge ends at the node.
-/
import proofs.«406391_j32650341384625_4_alg».proof.Proof.KI.KHost
import proofs.«406391_j32650341384625_4_alg».proof.Proof.KI.Val1c
import proofs.«406391_j32650341384625_4_alg».proof.Proof.Spec
import proofs.«406391_j32650341384625_4_alg».proof.Proof.Alg
import Idealize.ShloMosaic.Lib.Affine

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.ValueIdx
open scoped BigOperators

theorem wrap_of_nonneg (b : BitVec 32) (h : 0 ≤ b.toInt) : GcnSpec.wrap b = b := by
  unfold GcnSpec.wrap
  have hn : ¬ (IntOp.cmpi .slt b 0#32 = 1#1) := by
    rw [IntOp.cmpi_slt, BitVec.toInt_zero]
    omega
  rw [eq_zero_of_ne_one hn, select_zero]

theorem dstRow_of_mem (adj : IVec ⟨2, ![2, 800000]⟩ 32) (e : Fin 850000) (n : Fin 50000)
    (h : (GcnSpec.dstIdx adj e).toInt = (n.val : Int)) : GcnSpec.dstRow adj e = n := by
  unfold GcnSpec.dstRow
  rw [wrap_of_nonneg _ (by rw [h]; omega)]
  unfold RowOps.clampRow
  apply Fin.ext
  show min (GcnSpec.dstIdx adj e).toInt.toNat (50000 - 1) = n.val
  rw [h]
  have := n.isLt
  omega

section Layer
variable (x : (⟨2, ![50000, 128]⟩ : Shape).Idx → EReal) (adj : IVec ⟨2, ![2, 800000]⟩ 32)
  (Wg : (⟨2, ![128, 128]⟩ : Shape).Idx → EReal) (bg : (⟨1, ![128]⟩ : Shape).Idx → EReal)

theorem feat_eq (a d b : EReal) (n : Fin 50000) (j : Fin 128)
    (ha : a = ∑ e ∈ Finset.univ.filter (fun e : Fin 850000 => (GcnSpec.dstIdx adj e).toInt = (n.val : Int)),
        GcnSpec.hmat x Wg (GcnSpec.srcRow adj e) j * GcnSpec.dinv adj (GcnSpec.srcRow adj e))
    (hd : d = GcnSpec.dinv adj n) (hb : b = bg (ix1 j)) :
    a * d + b = GcnSpec.featRef x adj Wg bg n j := by
  rw [ha, hd, hb]
  obtain ⟨r, hr, hc⟩ := GcnSpec.dinv_nonneg_real adj n
  rw [GcnAlg.gcn_norm _ _ _ _ _ r hr hc]
  unfold GcnSpec.featRef
  refine congrArg (· + bg (ix1 j)) ?_
  refine Finset.sum_congr rfl fun e he => ?_
  rw [dstRow_of_mem adj e n (Finset.mem_filter.mp he).2]

end Layer

section Classifier
variable (feat : Fin 50000 → Fin 128 → EReal)
  (Wf : (⟨2, ![128, 256]⟩ : Shape).Idx → EReal) (bf : (⟨1, ![256]⟩ : Shape).Idx → EReal)
  (Wp : (⟨2, ![256, 64]⟩ : Shape).Idx → EReal) (bp : (⟨1, ![64]⟩ : Shape).Idx → EReal)

theorem logits_eq (A : (⟨2, ![50000, 128]⟩ : Shape).Idx → EReal) (D : (⟨2, ![50000, 1]⟩ : Shape).Idx → EReal)
    (Bg : (⟨2, ![1, 128]⟩ : Shape).Idx → EReal) (Bf : (⟨2, ![1, 256]⟩ : Shape).Idx → EReal) (Bp : (⟨2, ![1, 64]⟩ : Shape).Idx → EReal)
    (hfeat : ∀ (n : Fin 50000) (j : Fin 128), A (ix2 n j) * D (ix2 n (0 : Fin 1)) + Bg (ix2 (0 : Fin 1) j) = feat n j)
    (hBf : ∀ k : Fin 256, Bf (ix2 (0 : Fin 1) k) = bf (ix1 k)) (hBp : ∀ q : Fin 64, Bp (ix2 (0 : Fin 1) q) = bp (ix1 q))
    (i : Fin 50000) (q : Fin 64) :
    (∑ k : Fin 256, max ((∑ k' : Fin 128, (A (ix2 i k') * D (ix2 i (0 : Fin 1)) + Bg (ix2 (0 : Fin 1) k')) * Wf (ix2 k' k)) + Bf (ix2 (0 : Fin 1) k)) 0
        * Wp (ix2 k q)) + Bp (ix2 (0 : Fin 1) q)
      = GcnSpec.logits feat Wf bf Wp bp i q := by
  unfold GcnSpec.logits GcnSpec.hidden
  rw [hBp]
  congr 1
  refine Finset.sum_congr rfl fun k _ => ?_
  rw [hBf]
  congr 3
  refine Finset.sum_congr rfl fun k' _ => ?_
  rw [hfeat]

end Classifier

theorem mean_eq (loss loss' mask mask' : Fin 50000 → EReal) (hl : ∀ i, loss i = loss' i) (hm : ∀ i, mask i = mask' i) :
    Ideal.div (∑ i : Fin 50000, loss i * mask i) (∑ i : Fin 50000, mask i) = GcnSpec.meanLoss loss' mask' := by
  unfold GcnSpec.meanLoss
  rw [Finset.sum_congr rfl fun i _ => by rw [hl i, hm i], Finset.sum_congr rfl fun i _ => hm i]

section Results
variable (m : (ℓ : Loc nD τ sig) → Buf (Elt Ideal) ℓ) (ρ : Dev nD → PrngReg) (c : Dev nD)
variable (x : S50000x128.Idx → EReal) (adj : IVec S2x800000 32) (label : IVec S50000 32)
  (Wg : S128x128.Idx → EReal) (bg : S128.Idx → EReal) (Wf : S128x256.Idx → EReal) (bf : S256.Idx → EReal)
  (Wp : S256x64.Idx → EReal) (bp : S64.Idx → EReal)
variable (hx : x = m ((c : Thread nD τ).loc main_arg0)) (hadj : adj = m ((c : Thread nD τ).loc main_arg1))
  (hlabel : label = m ((c : Thread nD τ).loc main_arg2))
  (hWg : Wg = m ((c : Thread nD τ).loc main_arg6)) (hbg : bg = m ((c : Thread nD τ).loc main_arg7))
  (hWf : Wf = m ((c : Thread nD τ).loc main_arg8)) (hbf : bf = m ((c : Thread nD τ).loc main_arg9))
  (hWp : Wp = m ((c : Thread nD τ).loc main_arg10)) (hbp : bp = m ((c : Thread nD τ).loc main_arg11))
variable (A : S50000x128.Idx → EReal) (D : S50000x1.Idx → EReal) (Bg : S1x128.Idx → EReal) (Wf' : S128x256.Idx → EReal)
  (Bf : S1x256.Idx → EReal) (Wp' : S256x64.Idx → EReal) (Bp : S1x64.Idx → EReal) (Lb : S50000x1.Idx → BitVec 32)
variable (hA : A = V5 m ρ c main_v27) (hD : D = V5 m ρ c main_v15) (hBg : Bg = V5 m ρ c main_v41) (hWf' : Wf' = V5 m ρ c main_arg8)
  (hBf : Bf = V5 m ρ c main_v42) (hWp' : Wp' = V5 m ρ c main_arg10) (hBp : Bp = V5 m ρ c main_v43) (hLb : Lb = V5 m ρ c main_v28)

include hx hadj hWg hbg hA hD hBg in

theorem feat_V5 (n : Fin 50000) (j : Fin 128) :
    A (ix2 n j) * D (ix2 n (0 : Fin 1)) + Bg (ix2 (0 : Fin 1) j) = GcnSpec.featRef x adj Wg bg n j := by
  refine feat_eq x adj Wg bg _ _ _ n j ?_ ?_ ?_
  · rw [hA]; exact V5_v27_apply m ρ c x adj Wg hx hadj hWg n j
  · rw [hD]; exact V5_v15_apply m ρ c adj hadj n
  · rw [hBg]; exact V5_v41_apply m ρ c bg hbg j

include hx hadj hWg hbg hWf hbf hWp hbp hA hD hBg hWf' hBf hWp' hBp in

theorem scores_V5 (i : Fin 50000) (q : Fin 64) :
    (∑ k : Fin 256, max ((∑ k' : Fin 128, (A (ix2 i k') * D (ix2 i (0 : Fin 1)) + Bg (ix2 (0 : Fin 1) k')) * Wf' (ix2 k' k)) + Bf (ix2 (0 : Fin 1) k)) 0
        * Wp' (ix2 k q)) + Bp (ix2 (0 : Fin 1) q)
      = GcnSpec.logits (GcnSpec.featRef x adj Wg bg) Wf bf Wp bp i q := by
  have e8 : Wf' = Wf := by rw [hWf', hWf]; exact V5_arg8 m ρ c
  have e10 : Wp' = Wp := by rw [hWp', hWp]; exact V5_arg10 m ρ c
  rw [e8, e10]
  refine logits_eq (GcnSpec.featRef x adj Wg bg) Wf bf Wp bp A D Bg Bf Bp
    (feat_V5 m ρ c x adj Wg bg hx hadj hWg hbg A D Bg hA hD hBg) (fun k => ?_) (fun q => ?_) i q
  · rw [hBf]; exact V5_v42_apply m ρ c bf hbf k
  · rw [hBp]; exact V5_v43_apply m ρ c bp hbp q

include hlabel hLb in

theorem label_V5 (i : Fin 50000) : Lb (ix2 i (0 : Fin 1)) = label (ix1 i) := by
  rw [hLb]; exact V5_v28_apply m ρ c label hlabel i

end Results

section Final
variable (m : (ℓ : Loc nD τ sig) → Buf (Elt Ideal) ℓ) (ρ : Dev nD → PrngReg) (c : Dev nD)
variable (x : S50000x128.Idx → EReal) (adj : IVec S2x800000 32) (label : IVec S50000 32)
  (Wg : S128x128.Idx → EReal) (bg : S128.Idx → EReal) (Wf : S128x256.Idx → EReal) (bf : S256.Idx → EReal)
  (Wp : S256x64.Idx → EReal) (bp : S64.Idx → EReal)
variable (hx : x = m ((c : Thread nD τ).loc main_arg0)) (hadj : adj = m ((c : Thread nD τ).loc main_arg1))
  (hlabel : label = m ((c : Thread nD τ).loc main_arg2))
  (hWg : Wg = m ((c : Thread nD τ).loc main_arg6)) (hbg : bg = m ((c : Thread nD τ).loc main_arg7))
  (hWf : Wf = m ((c : Thread nD τ).loc main_arg8)) (hbf : bf = m ((c : Thread nD τ).loc main_arg9))
  (hWp : Wp = m ((c : Thread nD τ).loc main_arg10)) (hbp : bp = m ((c : Thread nD τ).loc main_arg11))

section Arrays
variable (A : S50000x128.Idx → EReal) (D : S50000x1.Idx → EReal) (Bg : S1x128.Idx → EReal) (Wf' : S128x256.Idx → EReal)
  (Bf : S1x256.Idx → EReal) (Wp' : S256x64.Idx → EReal) (Bp : S1x64.Idx → EReal) (Lb : S50000x1.Idx → BitVec 32)
variable (hA : A = V5 m ρ c main_v27) (hD : D = V5 m ρ c main_v15) (hBg : Bg = V5 m ρ c main_v41) (hWf' : Wf' = V5 m ρ c main_arg8)
  (hBf : Bf = V5 m ρ c main_v42) (hWp' : Wp' = V5 m ρ c main_arg10) (hBp : Bp = V5 m ρ c main_v43) (hLb : Lb = V5 m ρ c main_v28)

include hx hadj hlabel hWg hbg hWf hbf hWp hbp hA hD hBg hWf' hBf hWp' hBp hLb in

theorem mean_V5 (t : IVec S50000 32) (Mt : S50000x1.Idx → EReal)
    (hMt : ∀ i : Fin 50000, Mt (ix2 i (0 : Fin 1)) = GcnSpec.maskf (t (ix1 i))) (s : S_.Idx) :
    Ideal.div (∑ i : Fin 50000, kloss A D Bg Wf' Bf Wp' Bp Lb i * Mt (ix2 i (0 : Fin 1))) (∑ i : Fin 50000, Mt (ix2 i (0 : Fin 1)))
      = GcnSpec.specMean x adj label t Wg bg Wf bf Wp bp s := by
  unfold GcnSpec.specMean
  refine mean_eq _ _ _ _ (fun i => ?_) hMt
  unfold kloss GcnSpec.specLoss
  rw [label_V5 m ρ c label hlabel Lb hLb i]
  refine congrArg (fun lg => GcnSpec.lossAt lg (label (ix1 i))) (funext fun q => ?_)
  exact scores_V5 m ρ c x adj Wg bg Wf bf Wp bp hx hadj hWg hbg hWf hbf hWp hbp A D Bg Wf' Bf Wp' Bp hA hD hBg hWf' hBf hWp' hBp i q

include hlabel hLb in

theorem label_range_V5 (hl : ∀ i : Fin 50000, 0 ≤ (label (ix1 i)).toInt ∧ (label (ix1 i)).toInt < 64) (i : Fin 50000) :
    0 ≤ (Lb (ix2 i (0 : Fin 1))).toInt ∧ (Lb (ix2 i (0 : Fin 1))).toInt < 64 := by
  rw [label_V5 m ρ c label hlabel Lb hLb i]; exact hl i

end Arrays

include hx hadj hWg hbg hWf hbf hWp hbp in

theorem kval_logits :
    (W7 m ρ c (Proc.devRef .tc main_v44_0) : S50000x64.Idx → EReal) = GcnSpec.specLogits x adj Wg bg Wf bf Wp bp := by
  rw [W7_v44_0, arr1_11 (V5 m ρ) c _ _ _ _ _ _ _ rfl rfl rfl rfl rfl rfl rfl]
  funext idx
  exact scores_V5 m ρ c x adj Wg bg Wf bf Wp bp hx hadj hWg hbg hWf hbf hWp hbp _ _ _ _ _ _ _ rfl rfl rfl rfl rfl rfl rfl (idx 0) (idx 1)

include hx hadj hlabel hWg hbg hWf hbf hWp hbp in

theorem kval_mean_of (hl : ∀ i : Fin 50000, 0 ≤ (label (ix1 i)).toInt ∧ (label (ix1 i)).toInt < 64)
    (t : IVec S50000 32) (Mt : S50000x1.Idx → EReal) (hMt : ∀ i : Fin 50000, Mt (ix2 i (0 : Fin 1)) = GcnSpec.maskf (t (ix1 i)))
    (out : S_.Idx → EReal) (r : EReal) (hout : out ix0 = r)
    (hr : r = Ideal.div (∑ i : Fin 50000, kloss (V5 m ρ c main_v27) (V5 m ρ c main_v15) (V5 m ρ c main_v41) (V5 m ρ c main_arg8)
          (V5 m ρ c main_v42) (V5 m ρ c main_arg10) (V5 m ρ c main_v43) (V5 m ρ c main_v28) i * Mt (ix2 i (0 : Fin 1)))
        (∑ i : Fin 50000, Mt (ix2 i (0 : Fin 1)))) :
    out = GcnSpec.specMean x adj label t Wg bg Wf bf Wp bp := by
  funext s
  rw [eq_ix0 s, hout, hr]
  exact mean_V5 m ρ c x adj label Wg bg Wf bf Wp bp hx hadj hlabel hWg hbg hWf hbf hWp hbp _ _ _ _ _ _ _ _ rfl rfl rfl rfl rfl rfl rfl rfl t Mt hMt ix0

include hx hadj hlabel hWg hbg hWf hbf hWp hbp in

theorem kval_train (train : IVec S50000 32) (htrain : train = m ((c : Thread nD τ).loc main_arg3))
    (hl : ∀ i : Fin 50000, 0 ≤ (label (ix1 i)).toInt ∧ (label (ix1 i)).toInt < 64) :
    (W7 m ρ c (Proc.devRef .tc main_v45) : S_.Idx → EReal) = GcnSpec.specMean x adj label train Wg bg Wf bf Wp bp :=
  kval_mean_of m ρ c x adj label Wg bg Wf bf Wp bp hx hadj hlabel hWg hbg hWf hbf hWp hbp hl train (V5 m ρ c main_v32)
    (V5_v32_apply m ρ c train htrain) _ _ (W7_v45 m ρ c)
    (arr1_12 (V5 m ρ) c _ _ _ _ _ _ _ rfl rfl rfl rfl rfl rfl rfl _ rfl
      (label_range_V5 m ρ c label hlabel _ rfl hl) _ rfl)

include hx hadj hlabel hWg hbg hWf hbf hWp hbp in

theorem kval_dev (dev : IVec S50000 32) (hdev : dev = m ((c : Thread nD τ).loc main_arg4))
    (hl : ∀ i : Fin 50000, 0 ≤ (label (ix1 i)).toInt ∧ (label (ix1 i)).toInt < 64) :
    (W7 m ρ c (Proc.devRef .tc main_v46) : S_.Idx → EReal) = GcnSpec.specMean x adj label dev Wg bg Wf bf Wp bp :=
  kval_mean_of m ρ c x adj label Wg bg Wf bf Wp bp hx hadj hlabel hWg hbg hWf hbf hWp hbp hl dev (V5 m ρ c main_v36)
    (V5_v36_apply m ρ c dev hdev) _ _ (W7_v46 m ρ c)
    (arr1_13 (V5 m ρ) c _ _ _ _ _ _ _ rfl rfl rfl rfl rfl rfl rfl _ rfl
      (label_range_V5 m ρ c label hlabel _ rfl hl) _ rfl)

include hx hadj hlabel hWg hbg hWf hbf hWp hbp in

theorem kval_test (test : IVec S50000 32) (htest : test = m ((c : Thread nD τ).loc main_arg5))
    (hl : ∀ i : Fin 50000, 0 ≤ (label (ix1 i)).toInt ∧ (label (ix1 i)).toInt < 64) :
    (W7 m ρ c (Proc.devRef .tc main_v47) : S_.Idx → EReal) = GcnSpec.specMean x adj label test Wg bg Wf bf Wp bp :=
  kval_mean_of m ρ c x adj label Wg bg Wf bf Wp bp hx hadj hlabel hWg hbg hWf hbf hWp hbp hl test (V5 m ρ c main_v40)
    (V5_v40_apply m ρ c test htest) _ _ (W7_v47 m ρ c)
    (arr1_14 (V5 m ρ) c _ _ _ _ _ _ _ rfl rfl rfl rfl rfl rfl rfl _ rfl
      (label_range_V5 m ρ c label hlabel _ rfl hl) _ rfl)

end Final

end Cert.KernelIdeal.Fr
-- ==== Proof.RefGen.lean ====
/-
  The reference's run and its operations read at an index.
-/
import proofs.«406391_j32650341384625_4_alg».proof.Proof.RefRun
import proofs.«406391_j32650341384625_4_alg».proof.Proof.RefRead
-- ==== Proof.LibHostRead.lean ====
/-
  Host operations read at an index for a matrix with one index per row or edge: gathers by a column of indices, the row maximum as a
  supremum, a sum over a vector's indices, and signed comparisons of a word in a small nonnegative range.
-/
import Idealize.ShloMosaic.PureOps.Ideal
import Idealize.ShloMosaic.PureOps.Ideal.Laws
import Idealize.ShloMosaic.PureOps.Reduce
import Idealize.ShloMosaic.Lib.ValueIdx
import Idealize.ShloMosaic.Lib.ValueIdxRank1
import proofs.«406391_j32650341384625_4_alg».proof.Proof.LibRowOps

noncomputable section

open scoped BigOperators

namespace HostRead

open Idealize.ShloMosaic Idealize.ShloMosaic.ValueIdx

section Gather1
variable {α : Type}

abbrev gather1Dims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

theorem gather1_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gather1Dims N E wf) x idx (ix1 e) = x (ix1 (RowOps.clampRow N hN (idx (ix2 e 0)))) := by
  unfold Host.gather
  congr 1
  funext a
  obtain rfl : a = 0 := Subsingleton.elim _ _
  refine Fin.ext ?_
  show (gather1Dims N E wf).start (ix1 e) idx 0 + (gather1Dims N E wf).batchCoord (ix1 e) 0
    + (gather1Dims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gather1Dims N E wf).startIndexMap from List.mem_singleton.mpr rfl)]
  have hsi : (gather1Dims N E wf).siIdx (ix1 e) ⟨List.idxOf (0 : Fin 1) (gather1Dims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather1

section Along
variable {α : Type}

abbrev alongDims (N C : Nat)
    (wf : GatherDims.WF ⟨2, ![N, C]⟩ ⟨3, ![N, 1, 1]⟩ ⟨2, ![N, 1]⟩ [] [1] [0] [1] [0] 2 ![1, 1]) :
    GatherDims ⟨2, ![N, C]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

theorem along_apply {N C w : Nat} (hC : 0 < C)
    (wf : GatherDims.WF ⟨2, ![N, C]⟩ ⟨3, ![N, 1, 1]⟩ ⟨2, ![N, 1]⟩ [] [1] [0] [1] [0] 2 ![1, 1])
    (x : (⟨2, ![N, C]⟩ : Shape).Idx → α) (idx : IVec ⟨3, ![N, 1, 1]⟩ w) (i : Fin N) :
    Host.gather (alongDims N C wf) x idx (ix2 i 0) = x (ix2 i (RowOps.clampRow C hC (idx (ix3 i 0 0)))) := by
  unfold Host.gather
  congr 1
  funext a
  refine Fin.ext ?_
  match a with
  | ⟨0, _⟩ =>
    show (alongDims N C wf).start (ix2 i 0) idx 0 + (alongDims N C wf).batchCoord (ix2 i 0) 0
      + (alongDims N C wf).offCoord (ix2 i 0) 0 = i.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (alongDims N C wf).operandBatchingDims from List.mem_singleton.mpr rfl)]
    rfl
  | ⟨1, _⟩ =>
    show (alongDims N C wf).start (ix2 i 0) idx 1 + (alongDims N C wf).batchCoord (ix2 i 0) 1
      + (alongDims N C wf).offCoord (ix2 i 0) 1 = _
    rw [GatherDims.batchCoord_eq_zero _ _ _ (show (1 : Fin 2) ∉ [(0 : Fin 2)] by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims N C wf).startIndexMap from List.mem_singleton.mpr rfl)]
    have hsi : (alongDims N C wf).siIdx (ix2 i 0) ⟨List.idxOf (1 : Fin 2) (alongDims N C wf).startIndexMap,
        List.idxOf_lt_length_iff.2 (List.mem_singleton.mpr rfl)⟩ = ix3 i 0 0 := by
      funext b; refine Fin.ext ?_
      match b with
      | ⟨0, _⟩ => rfl
      | ⟨1, _⟩ => rfl
      | ⟨2, _⟩ => rfl
    rw [hsi]
    rfl

end Along

theorem fold_max_eq_max_sup {ι : Type} [Fintype ι] (b : EReal) (f : ι → EReal) :
    (Finset.univ : Finset ι).fold max b f = max b (Finset.univ.sup f) := by
  refine eq_of_forall_ge_iff fun c => ?_
  rw [Finset.fold_max_le, max_le_iff, Finset.sup_le_iff]

theorem lift_col {m n : Nat} (h : (⟨2, ![m, n]⟩ : Shape).Reduces [1] (⟨1, ![m]⟩ : Shape)) (i : Fin m)
    (k : Fin ((⟨2, ![m, n]⟩ : Shape).size 1)) : h.lift (ix1 i) k = ix2 i (⟨k.val, k.isLt⟩ : Fin n) := by
  funext c; apply Fin.ext
  fin_cases c <;> rfl

theorem reduceMax_rows {m n : Nat} (x : FVec Ideal ⟨2, ![m, n]⟩ .f32) (init : (⟨0, ![]⟩ : Shape).Idx → Ideal .f32)
    (h' : (⟨2, ![m, n]⟩ : Shape).ReducesTo [1] (⟨1, ![m]⟩ : Shape))
    (h : (⟨2, ![m, n]⟩ : Shape).Reduces [1] (⟨1, ![m]⟩ : Shape)) (hu : 0 < (⟨0, ![]⟩ : Shape).numel) (i : Fin m) :
    Host.reduce FloatOps.maximumf x init h' hu (ix1 i)
      = max (init (Shape.Idx.first hu)) (Finset.univ.sup fun k : Fin n => x (ix2 i k)) := by
  rw [Host.reduce_eq_fold_single FloatOps.maximumf x _ h' h hu]
  have hf : (x ∘ h.lift (ix1 i)) = fun k : Fin n => x (ix2 i k) := funext fun k => congrArg x (lift_col h i k)
  refine Eq.trans ?_ (fold_max_eq_max_sup (init (Shape.Idx.first hu)) fun k : Fin n => x (ix2 i k))
  exact congrArg (fun f => Finset.fold max (init (Shape.Idx.first hu)) f (Finset.univ : Finset (Fin n))) hf

theorem lift_unit {m : Nat} (h : (⟨3, ![m, 1, 1]⟩ : Shape).Reduces [2] (⟨2, ![m, 1]⟩ : Shape)) (i : Fin m)
    (k : Fin ((⟨3, ![m, 1, 1]⟩ : Shape).size 2)) : h.lift (ix2 i 0) k = ix3 i 0 0 := by
  funext c; apply Fin.ext
  fin_cases c
  · rfl
  · rfl
  · show k.val = 0
    have := k.isLt
    have e : (⟨3, ![m, 1, 1]⟩ : Shape).size 2 = 1 := rfl
    omega

theorem reduceAnd_unit {m : Nat} (x : IVec ⟨3, ![m, 1, 1]⟩ 1) (init : (⟨0, ![]⟩ : Shape).Idx → BitVec 1)
    (h' : (⟨3, ![m, 1, 1]⟩ : Shape).ReducesTo [2] (⟨2, ![m, 1]⟩ : Shape))
    (h : (⟨3, ![m, 1, 1]⟩ : Shape).Reduces [2] (⟨2, ![m, 1]⟩ : Shape)) (hu : 0 < (⟨0, ![]⟩ : Shape).numel) (i : Fin m) :
    Host.reduce IntOp.andi x init h' hu (ix2 i 0) = IntOp.andi (x (ix3 i 0 0)) (init (Shape.Idx.first hu)) := by
  rw [Host.reduce_eq_fold_single IntOp.andi x _ h' h hu]
  have hf : (x ∘ h.lift (ix2 i 0)) = fun _ : Fin 1 => x (ix3 i 0 0) := funext fun k => congrArg x (lift_unit h i k)
  refine Eq.trans (congrArg (fun f => Finset.fold IntOp.andi (init (Shape.Idx.first hu)) f (Finset.univ : Finset (Fin 1))) hf) ?_
  rw [Finset.univ_unique, Finset.fold_singleton]

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

theorem slt_zero_of_nonneg (b : BitVec 32) (h : 0 ≤ b.toInt) : IntOp.cmpi .slt b 0#32 = 0#1 := by
  have e : b.slt 0#32 = false := by
    show decide (b.toInt < (0#32).toInt) = false
    rw [BitVec.toInt_zero]
    exact decide_eq_false (by omega)
  show BitVec.ofBool (b.slt 0#32) = 0#1
  rw [e]; rfl

theorem sge_zero_of_nonneg (b : BitVec 32) (h : 0 ≤ b.toInt) : IntOp.cmpi .sge b 0#32 = 1#1 := by
  have e : (0#32).sle b = true := by
    show decide ((0#32).toInt ≤ b.toInt) = true
    rw [BitVec.toInt_zero]
    exact decide_eq_true h
  show BitVec.ofBool ((0#32).sle b) = 1#1
  rw [e]; rfl

theorem sle_63_of_lt (b : BitVec 32) (h : b.toInt < 64) : IntOp.cmpi .sle b 63#32 = 1#1 := by
  have e : b.sle 63#32 = true := by
    show decide (b.toInt ≤ (63#32).toInt) = true
    have : (63#32 : BitVec 32).toInt = 63 := by decide
    rw [this]
    exact decide_eq_true (by omega)
  show BitVec.ofBool (b.sle 63#32) = 1#1
  rw [e]; rfl

theorem clampRow_64 (b : BitVec 32) (h0 : 0 ≤ b.toInt) (h1 : b.toInt < 64) (hC : 0 < 64) :
    RowOps.clampRow 64 hC b = ⟨b.toNat % 64, Nat.mod_lt _ (by decide)⟩ := by
  refine Fin.ext ?_
  show min b.toInt.toNat (64 - 1) = b.toNat % 64
  have hb := b.isLt
  have e : b.toInt = (b.toNat : Int) := by
    have := BitVec.toInt_eq_toNat_cond b
    split at this <;> omega
  rw [e, Int.toNat_natCast]
  have : b.toNat < 64 := by omega
  rw [Nat.min_eq_left (by omega), Nat.mod_eq_of_lt this]

theorem ofBits_neg_inf : Ideal.ofBits .f32 0xFF800000#32 = ⊥ := by simp [Ideal.ofBits, Ideal.ieee]

end HostRead

end
-- ==== Proof.RefSpec.lean ====
/-
  The reference computes the specification: each result, stage by stage, is the specification's function of the argument arrays.
-/
import proofs.«406391_j32650341384625_4_alg».proof.Proof.RefGen
import proofs.«406391_j32650341384625_4_alg».proof.Proof.Spec
import proofs.«406391_j32650341384625_4_alg».proof.Proof.LibHostRead

noncomputable section

open scoped BigOperators

namespace Cert.ReferenceIdeal.RefSpec

open Cert.ReferenceIdeal Cert.ReferenceIdeal.Gen Cert.ReferenceIdeal.Read Idealize.ShloMosaic Idealize.ShloMosaic.ValueIdx
  GcnSpec HostRead

section Stages
variable (x0 : (⟨S50000x128, .f32⟩ : BufTy).Contents (Elt Ideal)) (x1 : (⟨S2x800000, .i32⟩ : BufTy).Contents (Elt Ideal))
  (x2 x3 : (⟨S50000, .i32⟩ : BufTy).Contents (Elt Ideal))
  (x6 : (⟨S128x128, .f32⟩ : BufTy).Contents (Elt Ideal)) (x7 : (⟨S128, .f32⟩ : BufTy).Contents (Elt Ideal))
  (x8 : (⟨S128x256, .f32⟩ : BufTy).Contents (Elt Ideal)) (x9 : (⟨S256, .f32⟩ : BufTy).Contents (Elt Ideal))
  (x10 : (⟨S256x64, .f32⟩ : BufTy).Contents (Elt Ideal)) (x11 : (⟨S64, .f32⟩ : BufTy).Contents (Elt Ideal))

theorem v1_apply (e : Fin 800000) : val_main_v1 (F := Ideal) x1 (ix1 e) = x1 (ix2 (0 : Fin 2) e) := by
  rw [val_main_v1_apply, val_main_v0_apply]
  congr 1
  funext a
  refine Fin.ext ?_
  match a with
  | ⟨0, _⟩ => rfl
  | ⟨1, _⟩ => exact Nat.mod_eq_of_lt e.isLt

theorem v3_apply (e : Fin 800000) : val_main_v3 (F := Ideal) x1 (ix1 e) = x1 (ix2 (1 : Fin 2) e) := by
  rw [val_main_v3_apply, val_main_v2_apply]
  congr 1
  funext a
  refine Fin.ext ?_
  match a with
  | ⟨0, _⟩ => rfl
  | ⟨1, _⟩ => exact Nat.mod_eq_of_lt e.isLt

theorem v5_apply (e : Fin 850000) : val_main_v5 (F := Ideal) x1 (ix1 e) = srcIdx x1 e := by
  unfold val_main_v5 srcIdx
  by_cases h : e.val < 800000
  · rw [dif_pos h]
    refine (concatenate_pair_apply_left (0 : Fin S850000.rank) _ _ concatenates_S800000_S50000_S850000_d0 (ix1 e) rfl
      (ix1 (⟨e.val, h⟩ : Fin 800000)) (fun b => match b with | ⟨0, _⟩ => rfl)).trans ?_
    exact v1_apply x1 ⟨e.val, h⟩
  · rw [dif_neg h]
    have h2 : e.val - 800000 < 50000 := by have := e.isLt; omega
    refine (concatenate_pair_apply_right (0 : Fin S850000.rank) _ _ concatenates_S800000_S50000_S850000_d0 (ix1 e) rfl rfl
      (ix1 (⟨e.val - 800000, h2⟩ : Fin 50000)) (fun b hb => absurd (Fin.ext (by have hb' : b.val < 1 := b.isLt; show b.val = 0; omega)) hb)
      (by show (e.val - 800000) + 800000 = e.val; omega)).trans ?_
    rfl

theorem v6_apply (e : Fin 850000) : val_main_v6 (F := Ideal) x1 (ix1 e) = dstIdx x1 e := by
  unfold val_main_v6 dstIdx
  by_cases h : e.val < 800000
  · rw [dif_pos h]
    refine (concatenate_pair_apply_left (0 : Fin S850000.rank) _ _ concatenates_S800000_S50000_S850000_d0 (ix1 e) rfl
      (ix1 (⟨e.val, h⟩ : Fin 800000)) (fun b => match b with | ⟨0, _⟩ => rfl)).trans ?_
    exact v3_apply x1 ⟨e.val, h⟩
  · rw [dif_neg h]
    have h2 : e.val - 800000 < 50000 := by have := e.isLt; omega
    refine (concatenate_pair_apply_right (0 : Fin S850000.rank) _ _ concatenates_S800000_S50000_S850000_d0 (ix1 e) rfl rfl
      (ix1 (⟨e.val - 800000, h2⟩ : Fin 50000)) (fun b hb => absurd (Fin.ext (by have hb' : b.val < 1 := b.isLt; show b.val = 0; omega)) hb)
      (by show (e.val - 800000) + 800000 = e.val; omega)).trans ?_
    rfl

theorem col_idx (e : Fin 850000) (z : Fin 1) : idx_main_v9 (ix2 e z) = ix1 e := by
  funext a
  match a with
  | ⟨0, _⟩ => rfl

theorem v9_eq : val_main_v9 (F := Ideal) x1 = dstCol x1 := by
  funext i
  obtain ⟨e, z, rfl⟩ : ∃ (e : Fin 850000) (z : Fin 1), i = ix2 e z := ⟨i 0, i 1, eq_ix2 i⟩
  rw [val_main_v9_apply, col_idx, v6_apply]
  rfl

theorem v42_eq : val_main_v42 (F := Ideal) x1 = dstCol x1 := by
  funext i
  obtain ⟨e, z, rfl⟩ : ∃ (e : Fin 850000) (z : Fin 1), i = ix2 e z := ⟨i 0, i 1, eq_ix2 i⟩
  rw [val_main_v42_apply, show idx_main_v42 (ix2 e z) = ix1 e from col_idx e z, v6_apply]
  rfl

theorem v10_eq : val_main_v10 (F := Ideal) x1 = deg x1 := by
  have e8 : val_main_v8 (F := Ideal) = constant (F := Ideal) ⟨1, ![50000]⟩ .f32 0x00000000#32 := rfl
  have e7 : val_main_v7 (F := Ideal) = constant (F := Ideal) ⟨1, ![850000]⟩ .f32 0x3F800000#32 := rfl
  have ed : scatter_S50000_S850000x1_S850000_n_0_0_1 = degDims := rfl
  unfold val_main_v10 deg
  rw [v9_eq, e8, e7, ed]

theorem v14_apply (n : Fin 50000) : val_main_v14 (F := Ideal) x1 (ix1 n) = dinv x1 n := by
  unfold val_main_v14 val_main_v12 val_main_v13 dinv
  rw [v10_eq]
  generalize deg x1 = D
  rfl

theorem v19_apply (e : Fin 850000) : val_main_v19 (F := Ideal) x1 (ix1 e) = wrap (srcIdx x1 e) := by
  rw [val_main_v19_apply, val_main_v16_apply, val_main_v18_apply, val_main_v15_apply, val_main_v17_apply,
    val_main_c_apply, val_main_c_3_apply, v5_apply]
  rfl

theorem v26_apply (e : Fin 850000) : val_main_v26 (F := Ideal) x1 (ix1 e) = wrap (dstIdx x1 e) := by
  rw [val_main_v26_apply, val_main_v23_apply, val_main_v25_apply, val_main_v22_apply, val_main_v24_apply,
    val_main_c_4_apply, val_main_c_5_apply, v6_apply]
  rfl

theorem v35_apply (e : Fin 850000) : val_main_v35 (F := Ideal) x1 (ix1 e) = wrap (srcIdx x1 e) := by
  rw [val_main_v35_apply, val_main_v32_apply, val_main_v34_apply, val_main_v31_apply, val_main_v33_apply,
    val_main_c_6_apply, val_main_c_7_apply, v5_apply]
  rfl

theorem v20_apply (e : Fin 850000) : val_main_v20 (F := Ideal) x1 (ix2 e 0) = wrap (srcIdx x1 e) := by
  rw [val_main_v20_apply, show idx_main_v20 (ix2 e (0 : Fin 1)) = ix1 e from col_idx e 0, v19_apply]

theorem v27_apply (e : Fin 850000) : val_main_v27 (F := Ideal) x1 (ix2 e 0) = wrap (dstIdx x1 e) := by
  rw [val_main_v27_apply, show idx_main_v27 (ix2 e (0 : Fin 1)) = ix1 e from col_idx e 0, v26_apply]

theorem v36_apply (e : Fin 850000) : val_main_v36 (F := Ideal) x1 (ix2 e 0) = wrap (srcIdx x1 e) := by
  rw [val_main_v36_apply, show idx_main_v36 (ix2 e (0 : Fin 1)) = ix1 e from col_idx e 0, v35_apply]

theorem v21_apply (e : Fin 850000) : val_main_v21 (F := Ideal) x1 (ix1 e) = dinv x1 (srcRow x1 e) := by
  have ed : gather_S50000_S850000x1_S850000_n_0_n_n_0_1_1
      = gather1Dims 50000 850000 Gen.gather_S50000_S850000x1_S850000_n_0_n_n_0_1_1_wf := rfl
  unfold val_main_v21
  rw [ed, gather1_apply (N := 50000) (by decide), v20_apply, v14_apply]
  rfl

theorem v28_apply (e : Fin 850000) : val_main_v28 (F := Ideal) x1 (ix1 e) = dinv x1 (dstRow x1 e) := by
  have ed : gather_S50000_S850000x1_S850000_n_0_n_n_0_1_1
      = gather1Dims 50000 850000 Gen.gather_S50000_S850000x1_S850000_n_0_n_n_0_1_1_wf := rfl
  unfold val_main_v28
  rw [ed, gather1_apply (N := 50000) (by decide), v27_apply, v14_apply]
  rfl

theorem v29_apply (e : Fin 850000) :
    val_main_v29 (F := Ideal) x1 (ix1 e) = dinv x1 (srcRow x1 e) * dinv x1 (dstRow x1 e) := by
  rw [val_main_v29_apply, v21_apply, v28_apply, Ideal.mulf_def]

theorem v30_apply (i : Fin 50000) (j : Fin 128) : val_main_v30 (F := Ideal) x0 x6 (ix2 i j) = hmat x0 x6 i j := by
  rw [val_main_v30_apply]
  unfold hmat
  refine Finset.sum_congr rfl fun k _ => ?_
  have el : lidx_main_v30 (ix2 i j) k = ix2 i k := by
    funext a
    match a with
    | ⟨0, _⟩ => rfl
    | ⟨1, _⟩ => rfl
  have er : ridx_main_v30 (ix2 i j) k = ix2 k j := by
    funext a
    match a with
    | ⟨0, _⟩ => rfl
    | ⟨1, _⟩ => rfl
  rw [el, er]

theorem v37_apply (e : Fin 850000) (q : Fin 128) :
    val_main_v37 (F := Ideal) x0 x1 x6 (ix2 e q) = hmat x0 x6 (srcRow x1 e) q := by
  have ed : gather_S50000x128_S850000x1_S850000x128_1_0_n_n_0_1_1128
      = RowOps.gatherDims 50000 850000 128 Gen.gather_S50000x128_S850000x1_S850000x128_1_0_n_n_0_1_1128_wf := rfl
  unfold val_main_v37
  rw [ed, RowOps.gather_apply (N := 50000) (by decide), v36_apply, v30_apply]
  rfl

theorem v40_apply (e : Fin 850000) (q : Fin 128) :
    val_main_v40 (F := Ideal) x0 x1 x6 (ix2 e q)
      = hmat x0 x6 (srcRow x1 e) q * (dinv x1 (srcRow x1 e) * dinv x1 (dstRow x1 e)) := by
  have e1 : idx_main_v39 (ix2 e q) = ix2 e (0 : Fin 1) := by
    funext a
    match a with
    | ⟨0, _⟩ => rfl
    | ⟨1, _⟩ => rfl
  have e2 : idx_main_v38 (ix2 e (0 : Fin 1)) = ix1 e := by
    funext a
    match a with
    | ⟨0, _⟩ => rfl
  rw [val_main_v40_apply, v37_apply, val_main_v39_apply, e1, val_main_v38_apply, e2, v29_apply, Ideal.mulf_def]

theorem v46_apply (n : Fin 50000) (p : Fin 128) :
    val_main_v46 (F := Ideal) x0 x1 x6 x7 (ix2 n p) = featRef x0 x1 x6 x7 n p := by
  have ed : scatter_S50000x128_S850000x1_S850000x128_1_0_0_1
      = RowOps.scatterDims 50000 850000 128 Gen.scatter_S50000x128_S850000x1_S850000x128_1_0_0_1_wf := rfl
  have h41 : val_main_v41 (F := Ideal) (ix2 n p) = 0 := Ideal.ofBits_zero_f32
  have h45 : val_main_v45 (F := Ideal) x7 (ix2 n p) = x7 (ix1 p) := by
    rw [val_main_v45_apply, val_main_v44_apply]
    congr 1
    funext a
    match a with
    | ⟨0, _⟩ => rfl
  have hc : ∀ e : Fin 850000, dstCol x1 (ix2 e (0 : Fin 1)) = dstIdx x1 e := fun _ => rfl
  rw [val_main_v46_apply]
  unfold val_main_v43 featRef
  rw [ed, v42_eq, RowOps.scatterAdd_apply, h41, h45, zero_add, Ideal.addf_def]
  simp only [hc]
  refine congrArg (· + x7 (ix1 p)) ?_
  exact Finset.sum_congr rfl fun e _ => v40_apply x0 x1 x6 e p

theorem v47_apply (i : Fin 50000) (k : Fin 256) :
    val_main_v47 (F := Ideal) x0 x1 x6 x7 x8 (ix2 i k) = ∑ k' : Fin 128, featRef x0 x1 x6 x7 i k' * x8 (ix2 k' k) := by
  rw [val_main_v47_apply]
  refine Finset.sum_congr rfl fun k' _ => ?_
  have el : lidx_main_v47 (ix2 i k) k' = ix2 i k' := by
    funext a
    match a with
    | ⟨0, _⟩ => rfl
    | ⟨1, _⟩ => rfl
  have er : ridx_main_v47 (ix2 i k) k' = ix2 k' k := by
    funext a
    match a with
    | ⟨0, _⟩ => rfl
    | ⟨1, _⟩ => rfl
  rw [el, er, v46_apply]

theorem v51_apply (i : Fin 50000) (k : Fin 256) :
    val_main_v51 (F := Ideal) x0 x1 x6 x7 x8 x9 (ix2 i k) = hidden (featRef x0 x1 x6 x7) x8 x9 i k := by
  have h49 : val_main_v49 (F := Ideal) x9 (ix2 i k) = x9 (ix1 k) := by
    rw [val_main_v49_apply, val_main_v48_apply]
    congr 1
    funext a
    match a with
    | ⟨0, _⟩ => rfl
  have h0 : val_main_call1_v0 (F := Ideal) (ix2 i k) = 0 := Ideal.ofBits_zero_f32
  unfold GcnSpec.hidden
  rw [val_main_v51_apply, val_main_v50_apply, v47_apply, h49, h0, Ideal.maximumf_def, Ideal.addf_def]

theorem v55_apply (i : Fin 50000) (j : Fin 64) :
    val_main_v55 (F := Ideal) x0 x1 x6 x7 x8 x9 x10 x11 (ix2 i j)
      = logits (featRef x0 x1 x6 x7) x8 x9 x10 x11 i j := by
  have h54 : val_main_v54 (F := Ideal) x11 (ix2 i j) = x11 (ix1 j) := by
    rw [val_main_v54_apply, val_main_v53_apply]
    congr 1
    funext a
    match a with
    | ⟨0, _⟩ => rfl
  rw [val_main_v55_apply, val_main_v52_apply, h54, Ideal.addf_def]
  unfold logits
  refine congrArg (· + x11 (ix1 j)) ?_
  refine Finset.sum_congr rfl fun k _ => ?_
  have el : lidx_main_v52 (ix2 i j) k = ix2 i k := by
    funext a
    match a with
    | ⟨0, _⟩ => rfl
    | ⟨1, _⟩ => rfl
  have er : ridx_main_v52 (ix2 i j) k = ix2 k j := by
    funext a
    match a with
    | ⟨0, _⟩ => rfl
    | ⟨1, _⟩ => rfl
  rw [el, er, v51_apply]

theorem v55_spec : val_main_v55 (F := Ideal) x0 x1 x6 x7 x8 x9 x10 x11 = specLogits x0 x1 x6 x7 x8 x9 x10 x11 := by
  funext i
  obtain ⟨a, b, rfl⟩ : ∃ (a : Fin 50000) (b : Fin 64), i = ix2 a b := ⟨i 0, i 1, eq_ix2 i⟩
  exact v55_apply x0 x1 x6 x7 x8 x9 x10 x11 a b

theorem rowmax_apply (i : Fin 50000) :
    val_main_call2_v2 (F := Ideal) x0 x1 x6 x7 x8 x9 x10 x11 (ix1 i)
      = rowmax (logits (featRef x0 x1 x6 x7) x8 x9 x10 x11 i) := by
  have hb : val_main_call2_v1 (F := Ideal) (ix1 i) = ⊥ := ofBits_neg_inf
  have hc : val_main_call2_cst (F := Ideal) (Shape.Idx.first h_S_) = ⊥ := ofBits_neg_inf
  rw [val_main_call2_v2_apply, hb]
  unfold val_main_call2_v0
  rw [reduceMax_rows _ _ reducesTo_S50000x64_S50000_d1 (by decide) h_S_ i, hc]
  simp only [v55_apply]
  rw [Ideal.maximumf_def, max_eq_right bot_le, max_eq_right bot_le]
  rfl

theorem shifted_apply (i : Fin 50000) (j : Fin 64) :
    val_main_call2_v5 (F := Ideal) x0 x1 x6 x7 x8 x9 x10 x11 (ix2 i j)
      = logits (featRef x0 x1 x6 x7) x8 x9 x10 x11 i j - rowmax (logits (featRef x0 x1 x6 x7) x8 x9 x10 x11 i) := by
  have e1 : idx_main_call2_v4 (ix2 i j) = ix2 i (0 : Fin 1) := by
    funext a
    match a with
    | ⟨0, _⟩ => rfl
    | ⟨1, _⟩ => rfl
  have e2 : idx_main_call2_v3 (ix2 i (0 : Fin 1)) = ix1 i := by
    funext a
    match a with
    | ⟨0, _⟩ => rfl
  rw [val_main_call2_v5_apply, v55_apply, val_main_call2_v4_apply, e1, val_main_call2_v3_apply, e2, rowmax_apply,
    Ideal.subf_def]

theorem sumexp_apply (i : Fin 50000) :
    val_main_call2_v7 (F := Ideal) x0 x1 x6 x7 x8 x9 x10 x11 (ix1 i)
      = ∑ j : Fin 64, Ideal.exp (logits (featRef x0 x1 x6 x7) x8 x9 x10 x11 i j
          - rowmax (logits (featRef x0 x1 x6 x7) x8 x9 x10 x11 i)) := by
  have h0 : val_main_call2_cst_1 (F := Ideal) (Shape.Idx.first h_S_) = 0 := Ideal.ofBits_zero_f32
  rw [val_main_call2_v7_apply, h0, zero_add]
  refine Finset.sum_congr rfl fun k _ => ?_
  have e1 : idx_main_call2_v7 (ix1 i) k = ix2 i k := by
    funext a
    match a with
    | ⟨0, _⟩ => rfl
    | ⟨1, _⟩ => rfl
  rw [e1, val_main_call2_v6_apply, shifted_apply, Ideal.hostUnary_exp_def]

theorem v56_apply (i : Fin 50000) (j : Fin 64) :
    val_main_v56 (F := Ideal) x0 x1 x6 x7 x8 x9 x10 x11 (ix2 i j)
      = logp (logits (featRef x0 x1 x6 x7) x8 x9 x10 x11 i) j := by
  have e1 : idx_main_call2_v10 (ix2 i j) = ix2 i (0 : Fin 1) := by
    funext a
    match a with
    | ⟨0, _⟩ => rfl
    | ⟨1, _⟩ => rfl
  have e2 : idx_main_call2_v8 (ix2 i (0 : Fin 1)) = ix1 i := by
    funext a
    match a with
    | ⟨0, _⟩ => rfl
  rw [val_main_v56_apply, shifted_apply, val_main_call2_v10_apply, e1, val_main_call2_v9_apply,
    val_main_call2_v8_apply, e2, sumexp_apply, Ideal.hostUnary_log_def, Ideal.subf_def]
  rfl

section Label
variable (hlabel : ∀ i : Fin 50000, 0 ≤ (x2 (ix1 i)).toInt ∧ (x2 (ix1 i)).toInt < 64)
include hlabel

theorem call3_v4_apply (i : Fin 50000) : val_main_call3_v4 (F := Ideal) x2 (ix2 i 0) = x2 (ix1 i) := by
  have e57 : val_main_v57 (F := Ideal) x2 (ix2 i (0 : Fin 1)) = x2 (ix1 i) := by
    rw [val_main_v57_apply]
    congr 1
    funext a
    match a with
    | ⟨0, _⟩ => rfl
  rw [val_main_call3_v4_apply, val_main_call3_v1_apply, val_main_call3_v0_apply, val_main_call3_c_apply, e57,
    slt_zero_of_nonneg _ (hlabel i).1, select_zero]

theorem call3_v5_apply (i : Fin 50000) : val_main_call3_v5 (F := Ideal) x2 (ix3 i 0 0) = x2 (ix1 i) := by
  have e1 : idx_main_call3_v5 (ix3 i (0 : Fin 1) (0 : Fin 1)) = ix2 i (0 : Fin 1) := by
    funext a
    refine Fin.ext ?_
    match a with
    | ⟨0, _⟩ => show ((i.val * 1 + 0) * 1 + 0) / 1 = i.val; omega
    | ⟨1, _⟩ => rfl
  rw [val_main_call3_v5_apply, e1, call3_v4_apply x2 hlabel]

theorem call3_v12_apply (i : Fin 50000) : val_main_call3_v12 (F := Ideal) x2 (ix2 i 0) = 1#1 := by
  have e9 : val_main_call3_v9 (F := Ideal) (ix3 i (0 : Fin 1) (0 : Fin 1)) = 63#32 := by
    rw [val_main_call3_v9_apply, val_main_call3_v8_apply, val_main_call3_c_1_apply]
  have e6 : val_main_call3_v6 (F := Ideal) (ix3 i (0 : Fin 1) (0 : Fin 1)) = 0#32 := by
    rw [val_main_call3_v6_apply, val_main_call3_c_2_apply]
  unfold val_main_call3_v12
  rw [reduceAnd_unit _ _ reducesTo_S50000x1x1_S50000x1_d2 (by decide) h_S_ i, val_main_call3_c_3_apply,
    val_main_call3_v11_apply, val_main_call3_v7_apply, val_main_call3_v10_apply, call3_v5_apply x2 hlabel, e6, e9,
    sge_zero_of_nonneg _ (hlabel i).1, sle_63_of_lt _ (hlabel i).2]
  rfl

end Label

theorem v60_apply (hlabel : ∀ i : Fin 50000, 0 ≤ (x2 (ix1 i)).toInt ∧ (x2 (ix1 i)).toInt < 64) (i : Fin 50000) :
    val_main_v60 (F := Ideal) x0 x1 x2 x6 x7 x8 x9 x10 x11 (ix1 i) = specLoss x0 x1 x2 x6 x7 x8 x9 x10 x11 i := by
  have ed : gather_S50000x64_S50000x1x1_S50000x1_n_1_0_0_1_2_11
      = alongDims 50000 64 Gen.gather_S50000x64_S50000x1x1_S50000x1_n_1_0_0_1_2_11_wf := rfl
  have e59 : idx_main_v59 (ix1 i) = ix2 i (0 : Fin 1) := by
    funext a
    refine Fin.ext ?_
    match a with
    | ⟨0, _⟩ => exact Nat.div_one _
    | ⟨1, _⟩ => rfl
  rw [val_main_v60_apply, val_main_v59_apply, e59, val_main_v58_apply, call3_v12_apply x2 hlabel, select_one]
  unfold val_main_call3_v13
  rw [ed, along_apply (C := 64) (by decide), call3_v5_apply x2 hlabel, v56_apply,
    clampRow_64 _ (hlabel i).1 (hlabel i).2 (by decide), Ideal.hostNegf_def, Ideal.negf_def]
  rfl

end Stages

theorem v63_apply (x3 : (⟨S50000, .i32⟩ : BufTy).Contents (Elt Ideal)) (i : Fin 50000) :
    val_main_v63 (F := Ideal) x3 (ix1 i) = maskf (x3 (ix1 i)) := by
  rw [val_main_v63_apply, val_main_v62_apply, val_main_v61_apply, val_main_c_9_apply]
  exact uitofp_cmpi_eq_one _

theorem v67_spec (x0 : (⟨S50000x128, .f32⟩ : BufTy).Contents (Elt Ideal)) (x1 : (⟨S2x800000, .i32⟩ : BufTy).Contents (Elt Ideal))
    (x2 x3 : (⟨S50000, .i32⟩ : BufTy).Contents (Elt Ideal))
    (x6 : (⟨S128x128, .f32⟩ : BufTy).Contents (Elt Ideal)) (x7 : (⟨S128, .f32⟩ : BufTy).Contents (Elt Ideal))
    (x8 : (⟨S128x256, .f32⟩ : BufTy).Contents (Elt Ideal)) (x9 : (⟨S256, .f32⟩ : BufTy).Contents (Elt Ideal))
    (x10 : (⟨S256x64, .f32⟩ : BufTy).Contents (Elt Ideal)) (x11 : (⟨S64, .f32⟩ : BufTy).Contents (Elt Ideal))
    (hlabel : ∀ i : Fin 50000, 0 ≤ (x2 (ix1 i)).toInt ∧ (x2 (ix1 i)).toInt < 64) :
    val_main_v67 (F := Ideal) x0 x1 x2 x3 x6 x7 x8 x9 x10 x11 = specMean x0 x1 x2 x3 x6 x7 x8 x9 x10 x11 := by
  funext i0
  have h0 : val_main_cst_10 (F := Ideal) (Shape.Idx.first h_S_) = 0 := Ideal.ofBits_zero_f32
  have h1 : val_main_cst_11 (F := Ideal) (Shape.Idx.first h_S_) = 0 := Ideal.ofBits_zero_f32
  rw [val_main_v67_apply, val_main_v65_apply, val_main_v66_apply, h0, h1, zero_add, zero_add, sum_idx1, sum_idx1]
  unfold specMean meanLoss
  rw [Ideal.hostDivf_def]
  refine congrArg₂ Ideal.div ?_ ?_
  · refine Finset.sum_congr rfl fun i _ => ?_
    rw [val_main_v64_apply, v60_apply x0 x1 x2 x6 x7 x8 x9 x10 x11 hlabel, v63_apply, Ideal.mulf_def]
  · exact Finset.sum_congr rfl fun i _ => v63_apply x3 i

theorem v70_apply (x4 : (⟨S50000, .i32⟩ : BufTy).Contents (Elt Ideal)) (i : Fin 50000) :
    val_main_v70 (F := Ideal) x4 (ix1 i) = maskf (x4 (ix1 i)) := by
  rw [val_main_v70_apply, val_main_v69_apply, val_main_v68_apply, val_main_c_12_apply]
  exact uitofp_cmpi_eq_one _

theorem v74_spec (x0 : (⟨S50000x128, .f32⟩ : BufTy).Contents (Elt Ideal)) (x1 : (⟨S2x800000, .i32⟩ : BufTy).Contents (Elt Ideal))
    (x2 x4 : (⟨S50000, .i32⟩ : BufTy).Contents (Elt Ideal))
    (x6 : (⟨S128x128, .f32⟩ : BufTy).Contents (Elt Ideal)) (x7 : (⟨S128, .f32⟩ : BufTy).Contents (Elt Ideal))
    (x8 : (⟨S128x256, .f32⟩ : BufTy).Contents (Elt Ideal)) (x9 : (⟨S256, .f32⟩ : BufTy).Contents (Elt Ideal))
    (x10 : (⟨S256x64, .f32⟩ : BufTy).Contents (Elt Ideal)) (x11 : (⟨S64, .f32⟩ : BufTy).Contents (Elt Ideal))
    (hlabel : ∀ i : Fin 50000, 0 ≤ (x2 (ix1 i)).toInt ∧ (x2 (ix1 i)).toInt < 64) :
    val_main_v74 (F := Ideal) x0 x1 x2 x4 x6 x7 x8 x9 x10 x11 = specMean x0 x1 x2 x4 x6 x7 x8 x9 x10 x11 := by
  funext i0
  have h0 : val_main_cst_13 (F := Ideal) (Shape.Idx.first h_S_) = 0 := Ideal.ofBits_zero_f32
  have h1 : val_main_cst_14 (F := Ideal) (Shape.Idx.first h_S_) = 0 := Ideal.ofBits_zero_f32
  rw [val_main_v74_apply, val_main_v72_apply, val_main_v73_apply, h0, h1, zero_add, zero_add, sum_idx1, sum_idx1]
  unfold specMean meanLoss
  rw [Ideal.hostDivf_def]
  refine congrArg₂ Ideal.div ?_ ?_
  · refine Finset.sum_congr rfl fun i _ => ?_
    rw [val_main_v71_apply, v60_apply x0 x1 x2 x6 x7 x8 x9 x10 x11 hlabel, v70_apply, Ideal.mulf_def]
  · exact Finset.sum_congr rfl fun i _ => v70_apply x4 i

theorem v77_apply (x5 : (⟨S50000, .i32⟩ : BufTy).Contents (Elt Ideal)) (i : Fin 50000) :
    val_main_v77 (F := Ideal) x5 (ix1 i) = maskf (x5 (ix1 i)) := by
  rw [val_main_v77_apply, val_main_v76_apply, val_main_v75_apply, val_main_c_15_apply]
  exact uitofp_cmpi_eq_one _

theorem v81_spec (x0 : (⟨S50000x128, .f32⟩ : BufTy).Contents (Elt Ideal)) (x1 : (⟨S2x800000, .i32⟩ : BufTy).Contents (Elt Ideal))
    (x2 x5 : (⟨S50000, .i32⟩ : BufTy).Contents (Elt Ideal))
    (x6 : (⟨S128x128, .f32⟩ : BufTy).Contents (Elt Ideal)) (x7 : (⟨S128, .f32⟩ : BufTy).Contents (Elt Ideal))
    (x8 : (⟨S128x256, .f32⟩ : BufTy).Contents (Elt Ideal)) (x9 : (⟨S256, .f32⟩ : BufTy).Contents (Elt Ideal))
    (x10 : (⟨S256x64, .f32⟩ : BufTy).Contents (Elt Ideal)) (x11 : (⟨S64, .f32⟩ : BufTy).Contents (Elt Ideal))
    (hlabel : ∀ i : Fin 50000, 0 ≤ (x2 (ix1 i)).toInt ∧ (x2 (ix1 i)).toInt < 64) :
    val_main_v81 (F := Ideal) x0 x1 x2 x5 x6 x7 x8 x9 x10 x11 = specMean x0 x1 x2 x5 x6 x7 x8 x9 x10 x11 := by
  funext i0
  have h0 : val_main_cst_16 (F := Ideal) (Shape.Idx.first h_S_) = 0 := Ideal.ofBits_zero_f32
  have h1 : val_main_cst_17 (F := Ideal) (Shape.Idx.first h_S_) = 0 := Ideal.ofBits_zero_f32
  rw [val_main_v81_apply, val_main_v79_apply, val_main_v80_apply, h0, h1, zero_add, zero_add, sum_idx1, sum_idx1]
  unfold specMean meanLoss
  rw [Ideal.hostDivf_def]
  refine congrArg₂ Ideal.div ?_ ?_
  · refine Finset.sum_congr rfl fun i _ => ?_
    rw [val_main_v78_apply, v60_apply x0 x1 x2 x6 x7 x8 x9 x10 x11 hlabel, v77_apply, Ideal.mulf_def]
  · exact Finset.sum_congr rfl fun i _ => v77_apply x5 i

end Cert.ReferenceIdeal.RefSpec

end
-- ==== Proof.PreLabel.lean ====
/-
  The labels lie in [0, 64), read off the precondition.
-/
import proofs.«406391_j32650341384625_4_alg».proof.Pre_finite_inputs
import Idealize.ShloMosaic.Lib.StableHlo.Predicate
import Idealize.ShloMosaic.Lib.ReduceAll
import Idealize.ShloMosaic.Lib.ValueIdx

namespace GcnPreLabel

open Idealize.ShloMosaic Idealize.ShloMosaic.ValueIdx
open Cert.Pre_finite_inputs

instance : Subsingleton S_.Idx := ⟨fun _ _ => funext fun d => d.elim0⟩

theorem toInt_zero32 : (0#32 : BitVec 32).toInt = 0 := by decide

theorem toInt_sixtyfour32 : (64#32 : BitVec 32).toInt = 64 := by decide

theorem label_range {F : FTy → Type} [FloatOps F] [Cert.Pre_finite_inputs.Facts]
    (a0 : FVec F S50000x128 .f32) (a1 : IVec S2x800000 32) (a2 a3 a4 a5 : IVec S50000 32)
    (a6 : FVec F S128x128 .f32) (a7 : FVec F S128 .f32) (a8 : FVec F S128x256 .f32)
    (a9 : FVec F S256 .f32) (a10 : FVec F S256x64 .f32) (a11 : FVec F S64 .f32)
    (h : Cert.Pre_finite_inputs.fn (F := F) a0 a1 a2 a3 a4 a5 a6 a7 a8 a9 a10 a11 = fun _ => 1#1)
    (i : Fin 50000) :
    0 ≤ (a2 (ix1 i)).toInt ∧ (a2 (ix1 i)).toInt < 64 := by

  have e := congrFun h ix0
  dsimp only [Cert.Pre_finite_inputs.fn, fn_part1, fn_part2] at e

  have eAll := (IntOp.andi_eq_one.1 e).2

  have eI := Host.reduce_andi_all _ _ _ _ ix0 eAll (ix1 i)

  obtain ⟨hge, hlt⟩ := IntOp.andi_eq_one.1 eI

  have h0 : (0#32 : BitVec 32).toInt ≤ (a2 (ix1 i)).toInt := IntOp.cmpi_sge.1 hge
  have h64 : (a2 (ix1 i)).toInt < (64#32 : BitVec 32).toInt := IntOp.cmpi_slt.1 hlt
  rw [toInt_zero32] at h0
  rw [toInt_sixtyfour32] at h64
  exact ⟨h0, h64⟩

end GcnPreLabel
-- ==== Proof.lean ====
/-
  Kernel and reference compute the same logits and the same three masked mean losses over the extended reals: the
  kernel scales rows by d^(-1/2) of the source before the sum over a node's incoming edges and by that of the node
  after it, the reference weights each edge by the product; the factor is a nonnegative real, which distributes over a
  sum of extended reals. The dense layers, log-softmax and per-row loss are the same functions, and the kernel's 25
  tile-wise partial sums add up to the reference's sums over all rows.
-/
import proofs.«406391_j32650341384625_4_alg».proof.Defs
import proofs.«406391_j32650341384625_4_alg».proof.Proof.Gen.Kernel
import proofs.«406391_j32650341384625_4_alg».proof.Proof.Gen.KernelIdeal
import proofs.«406391_j32650341384625_4_alg».proof.Proof.Gen.ReferenceIdeal
import proofs.«406391_j32650341384625_4_alg».proof.Proof.Gen.Pre_finite_inputs
import proofs.«406391_j32650341384625_4_alg».proof.Proof.KI.Run
import proofs.«406391_j32650341384625_4_alg».proof.Proof.KI.KVal
import proofs.«406391_j32650341384625_4_alg».proof.Proof.RefGen
import proofs.«406391_j32650341384625_4_alg».proof.Proof.RefSpec
import proofs.«406391_j32650341384625_4_alg».proof.Proof.PreLabel
import Idealize.ShloMosaic.Adequacy
import Idealize.ShloMosaic.Init

noncomputable section

namespace Cert.Proof

open Idealize.ShloMosaic Idealize.ShloMosaic.TcCoe Idealize.SL.Sem Idealize.ShloMosaic.ValueIdx

/-- The two printed programs are one term under two names, so the frame proved over one's names for any float instance is the other's. -/
theorem frame_k : Cert.frame_Kernel := fun m ρ _ => cast (by sl_kernel_rfl) (Cert.KernelIdeal.Fr.frame (F := Bits) m ρ)
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2.2.2.2.2.2) (Cert.ReferenceIdeal.Value.run (F := Ideal) m ρ)
theorem preserves : Cert.preserves_Kernel_KernelIdeal := trivial

/-- The labels are in their range, read off the precondition. -/
theorem label_ok (m : (ℓ : Loc Cert.KernelIdeal.nD Cert.KernelIdeal.τ Cert.KernelIdeal.sig) → Buf (Elt Ideal) ℓ) (h : Cert.Pre_KernelIdeal m) (c : Dev Cert.KernelIdeal.nD) (i : Fin 50000) :
    0 ≤ ((m ((c.tc : Thread Cert.KernelIdeal.nD Cert.KernelIdeal.τ).loc Cert.KernelIdeal.main_arg2) : IVec Cert.Pre_finite_inputs.S50000 32) (ix1 i)).toInt
      ∧ ((m ((c.tc : Thread Cert.KernelIdeal.nD Cert.KernelIdeal.τ).loc Cert.KernelIdeal.main_arg2) : IVec Cert.Pre_finite_inputs.S50000 32) (ix1 i)).toInt < 64 :=
  GcnPreLabel.label_range _ _ _ _ _ _ _ _ _ _ _ _ (h c) i

theorem logits_congr {x x' : (⟨2, ![50000, 128]⟩ : Shape).Idx → EReal} {adj adj' : IVec ⟨2, ![2, 800000]⟩ 32}
    {Wg Wg' : (⟨2, ![128, 128]⟩ : Shape).Idx → EReal} {bg bg' : (⟨1, ![128]⟩ : Shape).Idx → EReal}
    {Wf Wf' : (⟨2, ![128, 256]⟩ : Shape).Idx → EReal} {bf bf' : (⟨1, ![256]⟩ : Shape).Idx → EReal}
    {Wp Wp' : (⟨2, ![256, 64]⟩ : Shape).Idx → EReal} {bp bp' : (⟨1, ![64]⟩ : Shape).Idx → EReal}
    (h0 : x' = x) (h1 : adj' = adj) (h6 : Wg' = Wg) (h7 : bg' = bg) (h8 : Wf' = Wf) (h9 : bf' = bf) (h10 : Wp' = Wp) (h11 : bp' = bp) :
    GcnSpec.specLogits x' adj' Wg' bg' Wf' bf' Wp' bp' = GcnSpec.specLogits x adj Wg bg Wf bf Wp bp := by
  subst h0 h1 h6 h7 h8 h9 h10 h11; rfl

theorem mean_congr {x x' : (⟨2, ![50000, 128]⟩ : Shape).Idx → EReal} {adj adj' : IVec ⟨2, ![2, 800000]⟩ 32}
    {label label' mask mask' : IVec ⟨1, ![50000]⟩ 32}
    {Wg Wg' : (⟨2, ![128, 128]⟩ : Shape).Idx → EReal} {bg bg' : (⟨1, ![128]⟩ : Shape).Idx → EReal}
    {Wf Wf' : (⟨2, ![128, 256]⟩ : Shape).Idx → EReal} {bf bf' : (⟨1, ![256]⟩ : Shape).Idx → EReal}
    {Wp Wp' : (⟨2, ![256, 64]⟩ : Shape).Idx → EReal} {bp bp' : (⟨1, ![64]⟩ : Shape).Idx → EReal}
    (h0 : x' = x) (h1 : adj' = adj) (h2 : label' = label) (h3 : mask' = mask) (h6 : Wg' = Wg) (h7 : bg' = bg) (h8 : Wf' = Wf)
    (h9 : bf' = bf) (h10 : Wp' = Wp) (h11 : bp' = bp) :
    GcnSpec.specMean x' adj' label' mask' Wg' bg' Wf' bf' Wp' bp' = GcnSpec.specMean x adj label mask Wg bg Wf bf Wp bp := by
  subst h0 h1 h2 h3 h6 h7 h8 h9 h10 h11; rfl

/-- The specification's logits and masked mean loss at a launch memory's argument arrays. -/
abbrev logitsOf (m : (ℓ : Loc Cert.KernelIdeal.nD Cert.KernelIdeal.τ Cert.KernelIdeal.sig) → Buf (Elt Ideal) ℓ) (c : Dev Cert.KernelIdeal.nD) :=
  GcnSpec.specLogits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
abbrev meanOf (m : (ℓ : Loc Cert.KernelIdeal.nD Cert.KernelIdeal.τ Cert.KernelIdeal.sig) → Buf (Elt Ideal) ℓ) (c : Dev Cert.KernelIdeal.nD) (mask : IVec ⟨1, ![50000]⟩ 32) :=
  GcnSpec.specMean (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) mask (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))

set_option maxHeartbeats 4000000 in
theorem algebraic : Cert.algebraic_KernelIdeal_ReferenceIdeal := by
  intro m ρ m' ρ' hpre hagree
  refine ⟨fun c => logitsOf m c, fun c => logitsOf m c, fun c => logitsOf m c,
    fun c => meanOf m c (m ((c.tc : Thread Cert.KernelIdeal.nD Cert.KernelIdeal.τ).loc Cert.KernelIdeal.main_arg3)), fun c => meanOf m c (m ((c.tc : Thread Cert.KernelIdeal.nD Cert.KernelIdeal.τ).loc Cert.KernelIdeal.main_arg4)), fun c => meanOf m c (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.Fr.run_all (F := Ideal) m ρ)
    have hb := fun (b : Ref Cert.KernelIdeal.sig .tc) (hs : ¬ (Proc.devRef .tc b : DevRef Cert.KernelIdeal.τ Cert.KernelIdeal.sig).isScoped) => h c _ (Cert.KernelIdeal.Fr.mem_uc b hs)
    refine ⟨(hb Cert.KernelIdeal.main_v44_0 (by decide)).trans ?_, (hb Cert.KernelIdeal.main_v44_0 (by decide)).trans ?_, (hb Cert.KernelIdeal.main_v44_0 (by decide)).trans ?_,
      (hb Cert.KernelIdeal.main_v45 (by decide)).trans ?_, (hb Cert.KernelIdeal.main_v46 (by decide)).trans ?_, (hb Cert.KernelIdeal.main_v47 (by decide)).trans ?_,
      (hb Cert.KernelIdeal.main_arg0 (by decide)).trans (Cert.KernelIdeal.Fr.W7_main_arg0 m ρ c),
      (hb Cert.KernelIdeal.main_arg1 (by decide)).trans (Cert.KernelIdeal.Fr.W7_main_arg1 m ρ c),
      (hb Cert.KernelIdeal.main_arg2 (by decide)).trans (Cert.KernelIdeal.Fr.W7_main_arg2 m ρ c),
      (hb Cert.KernelIdeal.main_arg3 (by decide)).trans (Cert.KernelIdeal.Fr.W7_main_arg3 m ρ c),
      (hb Cert.KernelIdeal.main_arg4 (by decide)).trans (Cert.KernelIdeal.Fr.W7_main_arg4 m ρ c),
      (hb Cert.KernelIdeal.main_arg5 (by decide)).trans (Cert.KernelIdeal.Fr.W7_main_arg5 m ρ c),
      (hb Cert.KernelIdeal.main_arg6 (by decide)).trans (Cert.KernelIdeal.Fr.W7_main_arg6 m ρ c),
      (hb Cert.KernelIdeal.main_arg7 (by decide)).trans (Cert.KernelIdeal.Fr.W7_main_arg7 m ρ c),
      (hb Cert.KernelIdeal.main_arg8 (by decide)).trans (Cert.KernelIdeal.Fr.W7_main_arg8 m ρ c),
      (hb Cert.KernelIdeal.main_arg9 (by decide)).trans (Cert.KernelIdeal.Fr.W7_main_arg9 m ρ c),
      (hb Cert.KernelIdeal.main_arg10 (by decide)).trans (Cert.KernelIdeal.Fr.W7_main_arg10 m ρ c),
      (hb Cert.KernelIdeal.main_arg11 (by decide)).trans (Cert.KernelIdeal.Fr.W7_main_arg11 m ρ c)⟩
    · exact Cert.KernelIdeal.Fr.kval_logits m ρ c _ _ _ _ _ _ _ _ rfl rfl rfl rfl rfl rfl rfl rfl
    · exact Cert.KernelIdeal.Fr.kval_logits m ρ c _ _ _ _ _ _ _ _ rfl rfl rfl rfl rfl rfl rfl rfl
    · exact Cert.KernelIdeal.Fr.kval_logits m ρ c _ _ _ _ _ _ _ _ rfl rfl rfl rfl rfl rfl rfl rfl
    · exact Cert.KernelIdeal.Fr.kval_train m ρ c _ _ _ _ _ _ _ _ _ rfl rfl rfl rfl rfl rfl rfl rfl rfl _ rfl (label_ok m hpre c)
    · exact Cert.KernelIdeal.Fr.kval_dev m ρ c _ _ _ _ _ _ _ _ _ rfl rfl rfl rfl rfl rfl rfl rfl rfl _ rfl (label_ok m hpre c)
    · exact Cert.KernelIdeal.Fr.kval_test m ρ c _ _ _ _ _ _ _ _ _ rfl rfl rfl rfl rfl rfl rfl rfl rfl _ rfl (label_ok m hpre c)
  · refine (θ_run Cert.ReferenceIdeal.defs _ _).mono (fun r h c => ?_) (Cert.ReferenceIdeal.Value.run (F := Ideal) m' ρ')
    obtain ⟨h0, h1, h2, h3, h4, h5, hargs⟩ := h c
    obtain ⟨e0, e1, e2, e3, e4, e5, e6, e7, e8, e9, e10, e11⟩ := hagree c
    have hl' : ∀ i : Fin 50000, 0 ≤ ((m' ((c.tc : Thread Cert.ReferenceIdeal.nD Cert.ReferenceIdeal.τ).loc Cert.ReferenceIdeal.main_arg2) : IVec Cert.ReferenceIdeal.S50000 32) (ix1 i)).toInt
        ∧ ((m' ((c.tc : Thread Cert.ReferenceIdeal.nD Cert.ReferenceIdeal.τ).loc Cert.ReferenceIdeal.main_arg2) : IVec Cert.ReferenceIdeal.S50000 32) (ix1 i)).toInt < 64 := by
      rw [e2]; exact label_ok m hpre c
    refine ⟨h0.trans ?_, h1.trans ?_, h2.trans ?_, h3.trans ?_, h4.trans ?_, h5.trans ?_, hargs⟩
    · exact (Cert.ReferenceIdeal.Read.val_main_v55_eq m' c).trans
        ((Cert.ReferenceIdeal.RefSpec.v55_spec _ _ _ _ _ _ _ _).trans (logits_congr e0 e1 e6 e7 e8 e9 e10 e11))
    · exact (Cert.ReferenceIdeal.Read.val_main_v55_eq m' c).trans
        ((Cert.ReferenceIdeal.RefSpec.v55_spec _ _ _ _ _ _ _ _).trans (logits_congr e0 e1 e6 e7 e8 e9 e10 e11))
    · exact (Cert.ReferenceIdeal.Read.val_main_v55_eq m' c).trans
        ((Cert.ReferenceIdeal.RefSpec.v55_spec _ _ _ _ _ _ _ _).trans (logits_congr e0 e1 e6 e7 e8 e9 e10 e11))
    · exact (Cert.ReferenceIdeal.Read.val_main_v67_eq m' c).trans
        ((Cert.ReferenceIdeal.RefSpec.v67_spec _ _ _ _ _ _ _ _ _ _ hl').trans (mean_congr e0 e1 e2 e3 e6 e7 e8 e9 e10 e11))
    · exact (Cert.ReferenceIdeal.Read.val_main_v74_eq m' c).trans
        ((Cert.ReferenceIdeal.RefSpec.v74_spec _ _ _ _ _ _ _ _ _ _ hl').trans (mean_congr e0 e1 e2 e4 e6 e7 e8 e9 e10 e11))
    · exact (Cert.ReferenceIdeal.Read.val_main_v81_eq m' c).trans
        ((Cert.ReferenceIdeal.RefSpec.v81_spec _ _ _ _ _ _ _ _ _ _ hl').trans (mean_congr e0 e1 e2 e5 e6 e7 e8 e9 e10 e11))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
